-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x66 : Shape := ⟨2, ![100000, 66]⟩
abbrev S2x1600000 : Shape := ⟨2, ![2, 1600000]⟩
abbrev S100000 : Shape := ⟨1, ![100000]⟩
abbrev S66x128 : Shape := ⟨2, ![66, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x66 : S_.BroadcastsInDim S100000x66 (![] : Fin 0 → Fin S100000x66.rank)
  reducesTo_S100000x66_S_d0_1 : S100000x66.ReducesTo [0, 1] S_
  h_S_ : 0 < S_.numel
  bcast_S_S66x128 : S_.BroadcastsInDim S66x128 (![] : Fin 0 → Fin S66x128.rank)
  reducesTo_S66x128_S_d0_1 : S66x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x3 .f32) (main_arg12 : FVec F S3 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x3 .f32 := Host.absf main_arg11
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x3 .f32) (main_arg12 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x66 .f32) (main_arg1 : IVec S2x1600000 32) (main_arg2 : IVec S100000 32) (main_arg3 : FVec F S66x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x3 .f32) (main_arg12 : FVec F S3 .f32) : IVec S_ 1 :=
  let main_v0 : FVec F S100000x66 .f32 := Host.absf main_arg0
  let main_cst : FVec F S_ .f32 := constant S_ .f32 0x7F800000#32
  let main_v1 : FVec F S100000x66 .f32 := broadcastInDim S100000x66 ![] bcast_S_S100000x66 main_cst
  let main_v2 : IVec S100000x66 1 := cmpf .olt main_v0 main_v1
  let main_c : IVec S_ 1 := constantI S_ 1 1#1
  let main_v3 : IVec S_ 1 := (fun x v => Host.reduce IntOp.andi x v reducesTo_S100000x66_S_d0_1 h_S_) main_v2 main_c
  let main_v4 : FVec F S66x128 .f32 := Host.absf main_arg3
  let main_cst_0 : FVec F S_ .f32 := constant S_ .f32 0x7F800000#32
  let main_v5 : FVec F S66x128 .f32 := broadcastInDim S66x128 ![] bcast_S_S66x128 main_cst_0
  let main_v6 : IVec S66x128 1 := cmpf .olt main_v4 main_v5
  let main_c_1 : IVec S_ 1 := constantI S_ 1 1#1
  let main_v7 : IVec S_ 1 := (fun x v => Host.reduce IntOp.andi x v reducesTo_S66x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x66 : Shape := ⟨2, ![100000, 66]⟩
abbrev S2x1600000 : Shape := ⟨2, ![2, 1600000]⟩
abbrev S100000 : Shape := ⟨1, ![100000]⟩
abbrev S66x128 : Shape := ⟨2, ![66, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S100000x128 : Shape := ⟨2, ![100000, 128]⟩
abbrev S5000x66 : Shape := ⟨2, ![5000, 66]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S128x256 : Shape := ⟨2, ![128, 256]⟩
abbrev S1x256 : Shape := ⟨2, ![1, 256]⟩
abbrev S2000x128 : Shape := ⟨2, ![2000, 128]⟩
abbrev S2000x1 : Shape := ⟨2, ![2000, 1]⟩
abbrev S2000x256 : Shape := ⟨2, ![2000, 256]⟩
abbrev S256 : Shape := ⟨1, ![256]⟩
abbrev S256x128 : Shape := ⟨2, ![256, 128]⟩
abbrev S256x1 : Shape := ⟨2, ![256, 1]⟩
abbrev S1x64 : Shape := ⟨2, ![1, 64]⟩
abbrev S1x3 : Shape := ⟨2, ![1, 3]⟩
abbrev S256x3 : Shape := ⟨2, ![256, 3]⟩
abbrev S256x64 : Shape := ⟨2, ![256, 64]⟩

abbrev nBuf : Space → Nat
  | .hbm => 94
  | .vmem => 74
  | .smem => 0
  | _ => 0

abbrev bufTy : (tb : Table) → Fin (tcTables nBuf tb) → BufTy
  | .hbm, ⟨0, _⟩ => ⟨S100000x66, .f32⟩
  | .hbm, ⟨1, _⟩ => ⟨S2x1600000, .i32⟩
  | .hbm, ⟨2, _⟩ => ⟨S100000, .i32⟩
  | .hbm, ⟨3, _⟩ => ⟨S66x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x1, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S128x256, .f32⟩
  | .hbm, ⟨83, _⟩ => ⟨S1x256, .f32⟩
  | .hbm, ⟨84, _⟩ => ⟨S256x128, .f32⟩
  | .hbm, ⟨85, _⟩ => ⟨S256x1, .f32⟩
  | .hbm, ⟨86, _⟩ => ⟨S_, .f32⟩
  | .hbm, ⟨87, _⟩ => ⟨S256x1, .f32⟩
  | .hbm, ⟨88, _⟩ => ⟨S256x1, .f32⟩
  | .hbm, ⟨89, _⟩ => ⟨S256x128, .f32⟩
  | .hbm, ⟨90, _⟩ => ⟨S256x128, .f32⟩
  | .hbm, ⟨91, _⟩ => ⟨S1x64, .f32⟩
  | .hbm, ⟨92, _⟩ => ⟨S1x3, .f32⟩
  | .hbm, ⟨93, _⟩ => ⟨S256x3, .f32⟩
  | .local _ .vmem, ⟨0, _⟩ => ⟨S5000x66, .f32⟩
  | .local _ .vmem, ⟨1, _⟩ => ⟨S5000x66, .f32⟩
  | .local _ .vmem, ⟨2, _⟩ => ⟨S66x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x1, .f32⟩
  | .local _ .vmem, ⟨44, _⟩ => ⟨S5000x1, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x1, .f32⟩
  | .local _ .vmem, ⟨54, _⟩ => ⟨S5000x1, .f32⟩
  | .local _ .vmem, ⟨55, _⟩ => ⟨S5000x1, .f32⟩
  | .local _ .vmem, ⟨56, _⟩ => ⟨S5000x1, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S2000x128, .f32⟩
  | .local _ .vmem, ⟨61, _⟩ => ⟨S2000x128, .f32⟩
  | .local _ .vmem, ⟨62, _⟩ => ⟨S2000x1, .i32⟩
  | .local _ .vmem, ⟨63, _⟩ => ⟨S2000x1, .i32⟩
  | .local _ .vmem, ⟨64, _⟩ => ⟨S128x256, .f32⟩
  | .local _ .vmem, ⟨65, _⟩ => ⟨S1x256, .f32⟩
  | .local _ .vmem, ⟨66, _⟩ => ⟨S128x256, .f32⟩
  | .local _ .vmem, ⟨67, _⟩ => ⟨S1x256, .f32⟩
  | .local _ .vmem, ⟨68, _⟩ => ⟨S256x128, .f32⟩
  | .local _ .vmem, ⟨69, _⟩ => ⟨S128x64, .f32⟩
  | .local _ .vmem, ⟨70, _⟩ => ⟨S1x64, .f32⟩
  | .local _ .vmem, ⟨71, _⟩ => ⟨S64x3, .f32⟩
  | .local _ .vmem, ⟨72, _⟩ => ⟨S1x3, .f32⟩
  | .local _ .vmem, ⟨73, _⟩ => ⟨S256x3, .f32⟩
  | _, _ => ⟨S100000x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg4_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_scratch0 : Ref sig .tc := ⟨.vmem, 66, rfl⟩
abbrev cc6_scratch1 : Ref sig .tc := ⟨.vmem, 67, rfl⟩
abbrev cc7_stg0_0 : Ref sig .tc := ⟨.vmem, 68, rfl⟩
abbrev cc7_stg1_0 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc4_sem4_0 : DmaSem sig := 47
abbrev cc4_sem4_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem3_1 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc7_sem0_0 : DmaSem sig := 66
abbrev cc7_sem1_0 : DmaSem sig := 67
abbrev cc7_sem2_0 : DmaSem sig := 68
abbrev cc7_sem3_0 : DmaSem sig := 69
abbrev cc7_sem4_0 : DmaSem sig := 70
abbrev cc7_sem5_0 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S66x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v30 : BitVec 1 := Scalar.cmpi .eq arg0 c49_i32
  let v31 : BitVec 32 := Scalar.extui v30
  let c0_i32_13 : BitVec 32 := 0#32
  let v32 : BitVec 1 := Scalar.cmpi .ne v31 c0_i32_13
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S256x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x3 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x3 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x66_S5000x66_0_0 : ∀ a, (![0, 0] : Fin 2 → Nat) a + S5000x66.size a ≤ S5000x66.size a
  h_S5000x66 : 0 < S5000x66.numel
  bitsLt_bf16_f32 : FTy.bits .bf16 < FTy.bits .f32
  inb_S66x128_S66x128_0_0 : ∀ a, (![0, 0] : Fin 2 → Nat) a + S66x128.size a ≤ S66x128.size a
  h_S66x128 : 0 < S66x128.numel
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x256_S256 : S2000x256.Reduces [0] S256
  shapeCasts_S256_S1x256 : S256.ShapeCasts S1x256
  transposes_S128x256_S256x128_1_0 : S128x256.Transposes [1, 0] S256x128
  shapeCasts_S1x256_S256x1 : S1x256.ShapeCasts S256x1
  bcast_S_S256x1 : S_.BroadcastsInDim S256x1 (![] : Fin 0 → Fin S256x1.rank)
  bcast_S256x1_S256x128_0_1 : S256x1.BroadcastsInDim S256x128 (![0, 1] : Fin 2 → Fin S256x128.rank)
  shapeCasts_S64_S1x64 : S64.ShapeCasts S1x64
  shapeCasts_S3_S1x3 : S3.ShapeCasts S1x3
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S256x3 : S1x3.Broadcasts S256x3
  inb_S256x3_S256x3_0_0 : ∀ a, (![0, 0] : Fin 2 → Nat) a + S256x3.size a ≤ S256x3.size a
  h_S256x3 : 0 < S256x3.numel
  scatter_S100000_S1600000x1_S1600000_n_0_0_1_wf : ScatterDims.WF S100000 S1600000x1 S1600000 [] [0] [0] 1
  dot_S5000x66_S66x128_S5000x128_1_0_0_1_n_n_wf : DotDims.WF S5000x66 S66x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S2000x128_S2000x256_S128x256_0_0_1_1_n_n_wf : DotDims.WF S2000x128 S2000x256 S128x256 [0] [0] [1] [1] [] []
  dot_S256x128_S128x64_S256x64_1_0_0_1_n_n_wf : DotDims.WF S256x128 S128x64 S256x64 [1] [0] [0] [1] [] []
  dot_S256x64_S64x3_S256x3_1_0_0_1_n_n_wf : DotDims.WF S256x64 S64x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x66.size a ≤ S100000x66.size a
  hwx0_0 : ∀ i : grid0.Coords, EltTy.bits .f32 = 32 ∨ (Rect.block (s := S100000x66) S5000x66.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S66x128.size a ≤ S66x128.size a
  hwx0_1 : ∀ i : grid0.Coords, EltTy.bits .f32 = 32 ∨ (Rect.block (s := S66x128) S66x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S256x128.size a ≤ S256x128.size a
  hwx7_0 : ∀ i : grid7.Coords, EltTy.bits .f32 = 32 ∨ (Rect.block (s := S256x128) S256x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x3.size a ≤ S64x3.size a
  hwx7_3 : ∀ i : grid7.Coords, EltTy.bits .f32 = 32 ∨ (Rect.block (s := S64x3) S64x3.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x3.size a ≤ S1x3.size a
  hwx7_4 : ∀ i : grid7.Coords, EltTy.bits .f32 = 32 ∨ (Rect.block (s := S1x3) S1x3.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x3.size a ≤ S256x3.size a
  hwx7_5 : ∀ i : grid7.Coords, EltTy.bits .f32 = 32 ∨ (Rect.block (s := S256x3) S256x3.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x66_S66x128_S5000x128_1_0_0_1_n_n : DotDims S5000x66 S66x128 S5000x128 where
  lhsContracting := [1]
  rhsContracting := [0]
  lhsNonContracting := [0]
  rhsNonContracting := [1]
  lhsBatch := []
  rhsBatch := []
  wf := dot_S5000x66_S66x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S2000x256_S128x256_0_0_1_1_n_n : DotDims S2000x128 S2000x256 S128x256 where
  lhsContracting := [0]
  rhsContracting := [0]
  lhsNonContracting := [1]
  rhsNonContracting := [1]
  lhsBatch := []
  rhsBatch := []
  wf := dot_S2000x128_S2000x256_S128x256_0_0_1_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x3_S256x3_1_0_0_1_n_n : DotDims S256x64 S64x3 S256x3 where
  lhsContracting := [1]
  rhsContracting := [0]
  lhsNonContracting := [0]
  rhsNonContracting := [1]
  lhsBatch := []
  rhsBatch := []
  wf := dot_S256x64_S64x3_S256x3_1_0_0_1_n_n_wf

abbrev win0_0 : Pipeline.Window sig grid0 :=
  Pipeline.Window.ofSpec (Memref.whole main_arg0) S5000x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S66x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28_0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v41_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v41_1) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v51) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41_0) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v52) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v53) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v53) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v4) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v54_0) S128x256.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54_1) S1x256.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun i => !(k6_cond2 i == 1#1) | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v60) S256x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v61) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S64x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v62) S1x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v63) S256x3.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x66 : Shape := ⟨2, ![100000, 66]⟩
abbrev S2x1600000 : Shape := ⟨2, ![2, 1600000]⟩
abbrev S100000 : Shape := ⟨1, ![100000]⟩
abbrev S66x128 : Shape := ⟨2, ![66, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S256x3 : Shape := ⟨2, ![256, 3]⟩
abbrev S1x3 : Shape := ⟨2, ![1, 3]⟩

abbrev nBuf : Space → Nat
  | .hbm => 192
  | .vmem => 0
  | .smem => 0
  | _ => 0

abbrev hbmTy0_0 (i : Nat) : BufTy := match i % 128 with
  | 0 => ⟨S100000x66, .f32⟩
  | 1 => ⟨S2x1600000, .i32⟩
  | 2 => ⟨S100000, .i32⟩
  | 3 => ⟨S66x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x3, .f32⟩
  | 12 => ⟨S3, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S1600000x1, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x66, .f32⟩

abbrev hbmTy0_1 (i : Nat) : BufTy := match i % 128 with
  | 0 => ⟨S1600000, .i32⟩
  | 1 => ⟨S1600000x1, .i32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S1600000x1, .f32⟩
  | 23 => ⟨S1600000x128, .f32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000, .f32⟩
  | 30 => ⟨S100000x1, .f32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S256x128, .f32⟩
  | 39 => ⟨S100000x1, .i32⟩
  | 40 => ⟨S256x128, .f32⟩
  | 41 => ⟨S_, .f32⟩
  | 42 => ⟨S100000, .f32⟩
  | 43 => ⟨S_, .f32⟩
  | 44 => ⟨S256, .f32⟩
  | 45 => ⟨S100000x1, .i32⟩
  | 46 => ⟨S256, .f32⟩
  | 47 => ⟨S_, .f32⟩
  | 48 => ⟨S256, .f32⟩
  | 49 => ⟨S256, .f32⟩
  | 50 => ⟨S256x1, .f32⟩
  | 51 => ⟨S256x128, .f32⟩
  | 52 => ⟨S256x128, .f32⟩
  | 53 => ⟨S256x64, .f32⟩
  | 54 => ⟨S1x64, .f32⟩
  | 55 => ⟨S256x64, .f32⟩
  | 56 => ⟨S256x64, .f32⟩
  | 57 => ⟨S_, .f32⟩
  | 58 => ⟨S256x64, .f32⟩
  | 59 => ⟨S256x64, .f32⟩
  | 60 => ⟨S256x3, .f32⟩
  | 61 => ⟨S1x3, .f32⟩
  | 62 => ⟨S256x3, .f32⟩
  | 63 => ⟨S256x3, .f32⟩
  | _ => ⟨S100000x66, .f32⟩

abbrev hbmTy (i : Nat) : BufTy := match i / 128 with
  | 0 => hbmTy0_0 i
  | 1 => hbmTy0_1 i
  | _ => ⟨S100000x66, .f32⟩

abbrev bufTy : (tb : Table) → Fin (tcTables nBuf tb) → BufTy
  | .hbm, ⟨i, _⟩ => hbmTy i
  | _, _ => ⟨S100000x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_23 : Ref sig .tc := ⟨.hbm, 169, rfl⟩
abbrev main_v127 : Ref sig .tc := ⟨.hbm, 170, rfl⟩
abbrev main_cst_24 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_25 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_call2_cst : Ref sig .tc := ⟨.hbm, 185, rfl⟩
abbrev main_call2_v0 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S3_S1x3_1 : S3.BroadcastsInDim S1x3 (![1] : Fin 1 → Fin S1x3.rank)
  bcast_S1x3_S256x3_0_1 : S1x3.BroadcastsInDim S256x3 (![0, 1] : Fin 2 → Fin S256x3.rank)
  scatter_S100000_S1600000x1_S1600000_n_0_0_1_wf : ScatterDims.WF S100000 S1600000x1 S1600000 [] [0] [0] 1
  dot_S100000x66_S66x128_S100000x128_1_0_0_1_n_n_wf : DotDims.WF S100000x66 S66x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x3_S256x3_1_0_0_1_n_n_wf : DotDims.WF S256x64 S64x3 S256x3 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x66_S66x128_S100000x128_1_0_0_1_n_n : DotDims S100000x66 S66x128 S100000x128 where
  lhsContracting := [1]
  rhsContracting := [0]
  lhsNonContracting := [0]
  rhsNonContracting := [1]
  lhsBatch := []
  rhsBatch := []
  wf := dot_S100000x66_S66x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x3_S256x3_1_0_0_1_n_n : DotDims S256x64 S64x3 S256x3 where
  lhsContracting := [1]
  rhsContracting := [0]
  lhsNonContracting := [0]
  rhsNonContracting := [1]
  lhsBatch := []
  rhsBatch := []
  wf := dot_S256x64_S64x3_S256x3_1_0_0_1_n_n_wf

class Facts : Prop extends Facts₀ where

variable [Facts]
-- ==== Proof.KB.Lin0.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x66 := Rect.unit (s := S5000x66) ![0, 0] S5000x66.size inb_S5000x66_S5000x66_0_0
abbrev r0_w : Rect S66x128 := Rect.unit (s := S66x128) ![0, 0] S66x128.size inb_S66x128_S66x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

def left0_3 (x0 : Vec F S5000x66 .f32) (x1 : Vec F S66x128 .f32) : Vec F S5000x128 .f32 :=
  View.canon [⟨r0_o, k0_pay1 (View.ld x0 r0_x) (View.ld x1 r0_w)⟩]

def left0_4 (x0 : Vec F S5000x66 .f32) (x1 : Vec F S66x128 .f32) (x2 : Vec F S5000x1 .f32) : Vec F S5000x128 .f32 :=
  View.canon [⟨r0_o, k0_pay2 (View.ld x0 r0_x) (View.ld x1 r0_w) (View.ld x2 r0_d)⟩]

-- Each result is stored whole, once: its buffer ends as the closed form of that one store, and the operands are handed back as found.
theorem body0_run (c : Dev nD) (E : Set ℕ) (i : grid0.Coords)
    (arg1 : Memref sig .tc .vmem S5000x66 .f32) (harg1 : arg1.IsWhole) (arg2 : Memref sig .tc .vmem S66x128 .f32) (harg2 : arg2.IsWhole)
    (arg3 : Memref sig .tc .vmem S5000x1 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x66 .f32) (x1 : Vec F S66x128 .f32) (x2 : Vec F S5000x1 .f32) (d3 d4 : Vec F S5000x128 .f32) (K : PUnit → sProp 𝕄) :
    iprop(owns c arg1 fullShare x0 ∗ owns c arg2 fullShare x1 ∗ owns c arg3 fullShare x2
        ∗ owns c arg4 fullShare d3 ∗ owns c arg5 fullShare d4
        ∗ (iprop(owns c arg1 fullShare x0 ∗ owns c arg2 fullShare x1 ∗ owns c arg3 fullShare x2
            ∗ owns c arg4 fullShare (left0_3 x0 x1) ∗ owns c arg5 fullShare (left0_4 x0 x1 x2)) -∗ K ⟨⟩))
      ⊢ wp frame (wpE (defs₀ (F := F)) Variants.none c none) E (cc0__linear_scale_kernel i arg1 harg1 arg2 harg2 arg3 harg3 arg4 harg4 arg5 harg5) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%f3, -, H3⟩, ⟨%f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (View.cover_of_tiled _ S5000x128.size (by rfl))
  iexists _; isplitr
  swap; · iexact H4
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => left0_3 (blk0 V c 0 t) (blk0 V c 1 t)
    | ⟨4, _⟩ => left0_4 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_3 (c : Dev nD) (t : Fin cfg0.N) : (dat0 V c).after 3 t = left0_3 (blk0 V c 0 t) (blk0 V c 1 t) := by dsimp only [dat0]
theorem dat0_after_4 (c : Dev nD) (t : Fin cfg0.N) :
    (dat0 V c).after 4 t = left0_4 (blk0 V c 0 t) (blk0 V c 1 t) (blk0 V c 2 t) := by dsimp only [dat0]

-- The body leaves every operand block as it found it, so what it finds at any point is that point's block.
theorem dat0_before (c : Dev nD) (t : Fin cfg0.N) :
    (∀ d, (dat0 V c).before 0 t d = blk0 V c 0 t) ∧ (∀ d, (dat0 V c).before 1 t d = blk0 V c 1 t)
      ∧ ∀ d, (dat0 V c).before 2 t d = blk0 V c 2 t := by
  refine ⟨?_, ?_, ?_⟩ <;>
    exact fun d => ((dat0 V c).before_in_eq_fetched _ rfl (fun _ => rfl) (fun _ _ _ => rfl) (fun _ => rfl) t d).trans rfl

theorem body0_obligation (c : Dev nD) : BodyObligation (dat0 (F := F) V c) (defs₀ (F := F)) Variants.none () Set.univ := fun t => by
  obtain ⟨h0, h1, h2⟩ := dat0_before V c t
  simp only [bigSep_W0, h0, h1, h2]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩⟩
  iapply body0_run
  iframe
  iintro ⟨H0, H1, H2, H3, H4⟩
  iframe

end Cert.Kernel.Hand

end
-- ==== Proof.KB.Post1.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_m : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

def left1_5 (x0 : Vec F S5000x128 .f32) (x1 : Vec F S5000x128 .f32) (x2 : Vec F S5000x1 .f32) (x3 : Vec F S5000x1 .f32)
    (x4 : Vec F S1x128 .f32) : Vec F S5000x128 .f32 :=
  View.canon [⟨r1_o, k1_pay1 (View.ld x0 r1_m) (View.ld x2 r1_d) (View.ld x1 r1_m) (View.ld x3 r1_d) (View.ld x4 r1_b)⟩]

-- The result is stored whole, once: its buffer ends as the closed form of that one store, and the operands are handed back as found.
theorem body1_run (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S5000x1 .f32) (x4 : Vec F S1x128 .f32)
    (d5 : Vec F S5000x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare d5
        ∗ (iprop(owns c arg1 fullShare x0 ∗ owns c arg2 fullShare x1 ∗ owns c arg3 fullShare x2
            ∗ owns c arg4 fullShare x3 ∗ owns c arg5 fullShare x4
            ∗ owns c arg6 fullShare (left1_5 x0 x1 x2 x3 x4)) -∗ K ⟨⟩))
      ⊢ wp frame (wpE (defs₀ (F := F)) Variants.none c none) E
          (cc1__postprocess_kernel i arg1 harg1 arg2 harg2 arg3 harg3 arg4 harg4 arg5 harg5 arg6 harg6) K := by
  simp only [cc1__postprocess_kernel_eq_skeleton]; unfold cc1__postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => left1_5 (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_5 (c : Dev nD) (t : Fin cfg1.N) :
    (dat1 V c).after 5 t = left1_5 (blk1 V c 0 t) (blk1 V c 1 t) (blk1 V c 2 t) (blk1 V c 3 t) (blk1 V c 4 t) := by dsimp only [dat1]

-- The body leaves every operand block as it found it, so what it finds at any point is that point's block.
theorem dat1_before (c : Dev nD) (t : Fin cfg1.N) :
    (∀ d, (dat1 V c).before 0 t d = blk1 V c 0 t) ∧ (∀ d, (dat1 V c).before 1 t d = blk1 V c 1 t)
      ∧ (∀ d, (dat1 V c).before 2 t d = blk1 V c 2 t) ∧ (∀ d, (dat1 V c).before 3 t d = blk1 V c 3 t)
      ∧ ∀ d, (dat1 V c).before 4 t d = blk1 V c 4 t := by
  refine ⟨?_, ?_, ?_, ?_, ?_⟩ <;>
    exact fun d => ((dat1 V c).before_in_eq_fetched _ rfl (fun _ => rfl) (fun _ _ _ => rfl) (fun _ => rfl) t d).trans rfl

theorem body1_obligation (c : Dev nD) : BodyObligation (dat1 (F := F) V c) (defs₀ (F := F)) Variants.none () Set.univ := fun t => by
  obtain ⟨h0, h1, h2, h3, h4⟩ := dat1_before V c t
  simp only [bigSep_W1, h0, h1, h2, h3, h4]
  rw [show (dat1 V c).owesAt () t.succ = (dat1 V c).owesAt () t.castSucc from rfl]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply body1_run
  iframe
  iintro ⟨H0, H1, H2, H3, H4, H5⟩
  iframe

end Cert.Kernel.Hand

end
-- ==== Proof.KB.Lin2.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_d : Rect S5000x1 := Rect.unit (s := S5000x1) ![0, 0] S5000x1.size inb_S5000x1_S5000x1_0_0
abbrev r2_o : Rect S5000x128 := Rect.unit (s := S5000x128) ![0, 0] S5000x128.size inb_S5000x128_S5000x128_0_0

def left2_3 (x0 : Vec F S5000x128 .f32) (x1 : Vec F S128x128 .f32) : Vec F S5000x128 .f32 :=
  View.canon [⟨r2_o, k2_pay1 (View.ld x0 r2_x) (View.ld x1 r2_w)⟩]

def left2_4 (x0 : Vec F S5000x128 .f32) (x1 : Vec F S128x128 .f32) (x2 : Vec F S5000x1 .f32) : Vec F S5000x128 .f32 :=
  View.canon [⟨r2_o, k2_pay2 (View.ld x0 r2_x) (View.ld x1 r2_w) (View.ld x2 r2_d)⟩]

-- Each result is stored whole, once: its buffer ends as the closed form of that one store, and the operands are handed back as found.
theorem body2_run (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x128 .f32) (x1 : Vec F S128x128 .f32) (x2 : Vec F S5000x1 .f32) (d3 d4 : Vec F S5000x128 .f32) (K : PUnit → sProp 𝕄) :
    iprop(owns c arg1 fullShare x0 ∗ owns c arg2 fullShare x1 ∗ owns c arg3 fullShare x2
        ∗ owns c arg4 fullShare d3 ∗ owns c arg5 fullShare d4
        ∗ (iprop(owns c arg1 fullShare x0 ∗ owns c arg2 fullShare x1 ∗ owns c arg3 fullShare x2
            ∗ owns c arg4 fullShare (left2_3 x0 x1) ∗ owns c arg5 fullShare (left2_4 x0 x1 x2)) -∗ K ⟨⟩))
      ⊢ wp frame (wpE (defs₀ (F := F)) Variants.none c none) E (cc2__linear_scale_kernel i arg1 harg1 arg2 harg2 arg3 harg3 arg4 harg4 arg5 harg5) K := by
  simp only [cc2__linear_scale_kernel_eq_skeleton]; unfold cc2__linear_scale_kernel_skel
  unfold owns
  iintro ⟨⟨%f0, %hf0, H0⟩, ⟨%f1, %hf1, H1⟩, ⟨%f2, %hf2, H2⟩, ⟨%f3, -, H3⟩, ⟨%f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (View.cover_of_tiled _ S5000x128.size (by rfl))
  iexists _; isplitr
  swap; · iexact H4
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => left2_3 (blk2 V c 0 t) (blk2 V c 1 t)
    | ⟨4, _⟩ => left2_4 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_3 (c : Dev nD) (t : Fin cfg2.N) : (dat2 V c).after 3 t = left2_3 (blk2 V c 0 t) (blk2 V c 1 t) := by dsimp only [dat2]
theorem dat2_after_4 (c : Dev nD) (t : Fin cfg2.N) :
    (dat2 V c).after 4 t = left2_4 (blk2 V c 0 t) (blk2 V c 1 t) (blk2 V c 2 t) := by dsimp only [dat2]

-- The body leaves every operand block as it found it, so what it finds at any point is that point's block.
theorem dat2_before (c : Dev nD) (t : Fin cfg2.N) :
    (∀ d, (dat2 V c).before 0 t d = blk2 V c 0 t) ∧ (∀ d, (dat2 V c).before 1 t d = blk2 V c 1 t)
      ∧ ∀ d, (dat2 V c).before 2 t d = blk2 V c 2 t := by
  refine ⟨?_, ?_, ?_⟩ <;>
    exact fun d => ((dat2 V c).before_in_eq_fetched _ rfl (fun _ => rfl) (fun _ _ _ => rfl) (fun _ => rfl) t d).trans rfl

theorem body2_obligation (c : Dev nD) : BodyObligation (dat2 (F := F) V c) (defs₀ (F := F)) Variants.none () Set.univ := fun t => by
  obtain ⟨h0, h1, h2⟩ := dat2_before V c t
  simp only [bigSep_W2, h0, h1, h2]
  rw [show (dat2 V c).owesAt () t.succ = (dat2 V c).owesAt () t.castSucc from rfl]
  dsimp only [dat2]
  show _ ⊢ wp _ _ _ (bodyAt2 t) _
  iintro ⟨HΦ, Ho, ⟨%d0, H0⟩, ⟨%d1, H1⟩, ⟨%d2, H2⟩, ⟨%d3, H3⟩, ⟨%d4, H4⟩⟩
  iapply body2_run
  iframe
  iintro ⟨H0, H1, H2, H3, H4⟩
  iframe

end Cert.Kernel.Hand

end
-- ==== Proof.KB.Post3.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_m : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0
abbrev r3_o : Rect S5000x128 := Rect.unit (s := S5000x128) ![0, 0] S5000x128.size inb_S5000x128_S5000x128_0_0

def left3_5 (x0 : Vec F S5000x128 .f32) (x1 : Vec F S5000x128 .f32) (x2 : Vec F S5000x1 .f32) (x3 : Vec F S5000x1 .f32)
    (x4 : Vec F S1x128 .f32) : Vec F S5000x128 .f32 :=
  View.canon [⟨r3_o, k3_pay1 (View.ld x0 r3_m) (View.ld x2 r3_d) (View.ld x1 r3_m) (View.ld x3 r3_d) (View.ld x4 r3_b)⟩]

-- The result is stored whole, once: its buffer ends as the closed form of that one store, and the operands are handed back as found.
theorem body3_run (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S5000x1 .f32) (x4 : Vec F S1x128 .f32)
    (d5 : Vec F S5000x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare d5
        ∗ (iprop(owns c arg1 fullShare x0 ∗ owns c arg2 fullShare x1 ∗ owns c arg3 fullShare x2
            ∗ owns c arg4 fullShare x3 ∗ owns c arg5 fullShare x4
            ∗ owns c arg6 fullShare (left3_5 x0 x1 x2 x3 x4)) -∗ K ⟨⟩))
      ⊢ wp frame (wpE (defs₀ (F := F)) Variants.none c none) E
          (cc3__postprocess_kernel i arg1 harg1 arg2 harg2 arg3 harg3 arg4 harg4 arg5 harg5 arg6 harg6) K := by
  simp only [cc3__postprocess_kernel_eq_skeleton]; unfold cc3__postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => left3_5 (blk3 V c 0 t) (blk3 V c 1 t) (blk3 V c 2 t) (blk3 V c 3 t) (blk3 V c 4 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_5 (c : Dev nD) (t : Fin cfg3.N) :
    (dat3 V c).after 5 t = left3_5 (blk3 V c 0 t) (blk3 V c 1 t) (blk3 V c 2 t) (blk3 V c 3 t) (blk3 V c 4 t) := by dsimp only [dat3]

-- The body leaves every operand block as it found it, so what it finds at any point is that point's block.
theorem dat3_before (c : Dev nD) (t : Fin cfg3.N) :
    (∀ d, (dat3 V c).before 0 t d = blk3 V c 0 t) ∧ (∀ d, (dat3 V c).before 1 t d = blk3 V c 1 t)
      ∧ (∀ d, (dat3 V c).before 2 t d = blk3 V c 2 t) ∧ (∀ d, (dat3 V c).before 3 t d = blk3 V c 3 t)
      ∧ ∀ d, (dat3 V c).before 4 t d = blk3 V c 4 t := by
  refine ⟨?_, ?_, ?_, ?_, ?_⟩ <;>
    exact fun d => ((dat3 V c).before_in_eq_fetched _ rfl (fun _ => rfl) (fun _ _ _ => rfl) (fun _ => rfl) t d).trans rfl

theorem body3_obligation (c : Dev nD) : BodyObligation (dat3 (F := F) V c) (defs₀ (F := F)) Variants.none () Set.univ := fun t => by
  obtain ⟨h0, h1, h2, h3, h4⟩ := dat3_before V c t
  simp only [bigSep_W3, h0, h1, h2, h3, h4]
  rw [show (dat3 V c).owesAt () t.succ = (dat3 V c).owesAt () t.castSucc from rfl]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply body3_run
  iframe
  iintro ⟨H0, H1, H2, H3, H4, H5⟩
  iframe

end Cert.Kernel.Hand

end
-- ==== Proof.KB.Lin4.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0
abbrev r4_d : Rect S5000x1 := Rect.unit (s := S5000x1) ![0, 0] S5000x1.size inb_S5000x1_S5000x1_0_0
abbrev r4_o : Rect S5000x128 := Rect.unit (s := S5000x128) ![0, 0] S5000x128.size inb_S5000x128_S5000x128_0_0

def left4_3 (x0 : Vec F S5000x128 .f32) (x1 : Vec F S128x128 .f32) : Vec F S5000x128 .f32 :=
  View.canon [⟨r4_o, k4_pay1 (View.ld x0 r4_x) (View.ld x1 r4_w)⟩]

def left4_4 (x0 : Vec F S5000x128 .f32) (x1 : Vec F S128x128 .f32) (x2 : Vec F S5000x1 .f32) : Vec F S5000x128 .f32 :=
  View.canon [⟨r4_o, k4_pay2 (View.ld x0 r4_x) (View.ld x1 r4_w) (View.ld x2 r4_d)⟩]

-- Each result is stored whole, once: its buffer ends as the closed form of that one store, and the operands are handed back as found.
theorem body4_run (c : Dev nD) (E : Set ℕ) (i : grid4.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x128 .f32) (x1 : Vec F S128x128 .f32) (x2 : Vec F S5000x1 .f32) (d3 d4 : Vec F S5000x128 .f32) (K : PUnit → sProp 𝕄) :
    iprop(owns c arg1 fullShare x0 ∗ owns c arg2 fullShare x1 ∗ owns c arg3 fullShare x2
        ∗ owns c arg4 fullShare d3 ∗ owns c arg5 fullShare d4
        ∗ (iprop(owns c arg1 fullShare x0 ∗ owns c arg2 fullShare x1 ∗ owns c arg3 fullShare x2
            ∗ owns c arg4 fullShare (left4_3 x0 x1) ∗ owns c arg5 fullShare (left4_4 x0 x1 x2)) -∗ K ⟨⟩))
      ⊢ wp frame (wpE (defs₀ (F := F)) Variants.none c none) E (cc4__linear_scale_kernel i arg1 harg1 arg2 harg2 arg3 harg3 arg4 harg4 arg5 harg5) K := by
  simp only [cc4__linear_scale_kernel_eq_skeleton]; unfold cc4__linear_scale_kernel_skel
  unfold owns
  iintro ⟨⟨%f0, %hf0, H0⟩, ⟨%f1, %hf1, H1⟩, ⟨%f2, %hf2, H2⟩, ⟨%f3, -, H3⟩, ⟨%f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (View.cover_of_tiled _ S5000x128.size (by rfl))
  iexists _; isplitr
  swap; · iexact H4
  ipureintro
  exact View.read_writes_eq_canon _ _ _ (View.cover_of_tiled _ S5000x128.size (by rfl))

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => left4_3 (blk4 V c 0 t) (blk4 V c 1 t)
    | ⟨4, _⟩ => left4_4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_3 (c : Dev nD) (t : Fin cfg4.N) : (dat4 V c).after 3 t = left4_3 (blk4 V c 0 t) (blk4 V c 1 t) := by dsimp only [dat4]
theorem dat4_after_4 (c : Dev nD) (t : Fin cfg4.N) :
    (dat4 V c).after 4 t = left4_4 (blk4 V c 0 t) (blk4 V c 1 t) (blk4 V c 2 t) := by dsimp only [dat4]

-- The body leaves every operand block as it found it, so what it finds at any point is that point's block.
theorem dat4_before (c : Dev nD) (t : Fin cfg4.N) :
    (∀ d, (dat4 V c).before 0 t d = blk4 V c 0 t) ∧ (∀ d, (dat4 V c).before 1 t d = blk4 V c 1 t)
      ∧ ∀ d, (dat4 V c).before 2 t d = blk4 V c 2 t := by
  refine ⟨?_, ?_, ?_⟩ <;>
    exact fun d => ((dat4 V c).before_in_eq_fetched _ rfl (fun _ => rfl) (fun _ _ _ => rfl) (fun _ => rfl) t d).trans rfl

theorem body4_obligation (c : Dev nD) : BodyObligation (dat4 (F := F) V c) (defs₀ (F := F)) Variants.none () Set.univ := fun t => by
  obtain ⟨h0, h1, h2⟩ := dat4_before V c t
  simp only [bigSep_W4, h0, h1, h2]
  rw [show (dat4 V c).owesAt () t.succ = (dat4 V c).owesAt () t.castSucc from rfl]
  dsimp only [dat4]
  show _ ⊢ wp _ _ _ (bodyAt4 t) _
  iintro ⟨HΦ, Ho, ⟨%d0, H0⟩, ⟨%d1, H1⟩, ⟨%d2, H2⟩, ⟨%d3, H3⟩, ⟨%d4, H4⟩⟩
  iapply body4_run
  iframe
  iintro ⟨H0, H1, H2, H3, H4⟩
  iframe

end Cert.Kernel.Hand

end
-- ==== Proof.KB.Post5.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_m : Rect S5000x128 := Rect.unit (s := S5000x128) ![0, 0] S5000x128.size inb_S5000x128_S5000x128_0_0
abbrev r5_d : Rect S5000x1 := Rect.unit (s := S5000x1) ![0, 0] S5000x1.size inb_S5000x1_S5000x1_0_0
abbrev r5_b : Rect S1x128 := Rect.unit (s := S1x128) ![0, 0] S1x128.size inb_S1x128_S1x128_0_0
abbrev r5_o : Rect S5000x128 := Rect.unit (s := S5000x128) ![0, 0] S5000x128.size inb_S5000x128_S5000x128_0_0

def left5_5 (x0 : Vec F S5000x128 .f32) (x1 : Vec F S5000x128 .f32) (x2 : Vec F S5000x1 .f32) (x3 : Vec F S5000x1 .f32)
    (x4 : Vec F S1x128 .f32) : Vec F S5000x128 .f32 :=
  View.canon [⟨r5_o, k5_pay1 (View.ld x0 r5_m) (View.ld x2 r5_d) (View.ld x1 r5_m) (View.ld x3 r5_d) (View.ld x4 r5_b)⟩]

-- The result is stored whole, once: its buffer ends as the closed form of that one store, and the operands are handed back as found.
theorem body5_run (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S5000x1 .f32) (x4 : Vec F S1x128 .f32)
    (d5 : Vec F S5000x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare d5
        ∗ (iprop(owns c arg1 fullShare x0 ∗ owns c arg2 fullShare x1 ∗ owns c arg3 fullShare x2
            ∗ owns c arg4 fullShare x3 ∗ owns c arg5 fullShare x4
            ∗ owns c arg6 fullShare (left5_5 x0 x1 x2 x3 x4)) -∗ K ⟨⟩))
      ⊢ wp frame (wpE (defs₀ (F := F)) Variants.none c none) E
          (cc5__postprocess_kernel i arg1 harg1 arg2 harg2 arg3 harg3 arg4 harg4 arg5 harg5 arg6 harg6) K := by
  simp only [cc5__postprocess_kernel_eq_skeleton]; unfold cc5__postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => left5_5 (blk5 V c 0 t) (blk5 V c 1 t) (blk5 V c 2 t) (blk5 V c 3 t) (blk5 V c 4 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem dat5_after_5 (c : Dev nD) (t : Fin cfg5.N) :
    (dat5 V c).after 5 t = left5_5 (blk5 V c 0 t) (blk5 V c 1 t) (blk5 V c 2 t) (blk5 V c 3 t) (blk5 V c 4 t) := by dsimp only [dat5]

-- The body leaves every operand block as it found it, so what it finds at any point is that point's block.
theorem dat5_before (c : Dev nD) (t : Fin cfg5.N) :
    (∀ d, (dat5 V c).before 0 t d = blk5 V c 0 t) ∧ (∀ d, (dat5 V c).before 1 t d = blk5 V c 1 t)
      ∧ (∀ d, (dat5 V c).before 2 t d = blk5 V c 2 t) ∧ (∀ d, (dat5 V c).before 3 t d = blk5 V c 3 t)
      ∧ ∀ d, (dat5 V c).before 4 t d = blk5 V c 4 t := by
  refine ⟨?_, ?_, ?_, ?_, ?_⟩ <;>
    exact fun d => ((dat5 V c).before_in_eq_fetched _ rfl (fun _ => rfl) (fun _ _ _ => rfl) (fun _ => rfl) t d).trans rfl

theorem body5_obligation (c : Dev nD) : BodyObligation (dat5 (F := F) V c) (defs₀ (F := F)) Variants.none () Set.univ := fun t => by
  obtain ⟨h0, h1, h2, h3, h4⟩ := dat5_before V c t
  simp only [bigSep_W5, h0, h1, h2, h3, h4]
  rw [show (dat5 V c).owesAt () t.succ = (dat5 V c).owesAt () t.castSucc from rfl]
  dsimp only [dat5]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply body5_run
  iframe
  iintro ⟨H0, H1, H2, H3, H4, H5⟩
  iframe

end Cert.Kernel.Hand

end
-- ==== Proof.KB.Bounds1.lean ====
import proofs.«400505_j77171972374635_2_alg».proof.Proof.KB.Lin0
import proofs.«400505_j77171972374635_2_alg».proof.Proof.KB.Post1
import proofs.«400505_j77171972374635_2_alg».proof.Proof.KB.Lin2
import proofs.«400505_j77171972374635_2_alg».proof.Proof.KB.Post3
import proofs.«400505_j77171972374635_2_alg».proof.Proof.KB.Lin4
import proofs.«400505_j77171972374635_2_alg».proof.Proof.KB.Post5
import proofs.«400505_j77171972374635_2_alg».proof.Proof.Gen.Kernel.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Launch

variable {p : Fin 8} (c : Dev nD) (V : Valuation τ sig (Elt F))
  (dat : Dat τ (Elt F) Unit ℕ (UR sig nD τ) ℕ (cfgs p) c)

/-- The buffers after launch `p` entered at `V`: each window's array at its final contents, every other buffer as entered. -/
def afterL : Valuation τ sig (Elt F) := Pipeline.withArrays (cfgs p).spec c V fun w => dat.arrAt w (cfgs p).N

theorem afterL_arr (lf : Pipeline.LaunchFacts (nD := nD) (τ := τ) cfgs p) (w : Fin (cfgs p).W) :
    afterL c V dat (Proc.devRef .tc (Pipeline.arrRef (cfgs p).spec w)) = dat.arrAt w (cfgs p).N :=
  Pipeline.withArrays_arr _ lf.win.arr_inj c _ _ w

theorem afterL_rest (b : Ref sig .tc) (hb : b ∉ Finset.univ.image (Pipeline.arrRef (cfgs p).spec)) :
    afterL c V dat (Proc.devRef .tc b) = V (Proc.devRef .tc b) :=
  Pipeline.withArrays_of_ne _ c _ _ b fun w e => hb (Finset.mem_image.mpr ⟨w, Finset.mem_univ _, e⟩)

/-- Only an output window's array can differ from what it was on entry. -/
theorem afterL_keep (lf : Pipeline.LaunchFacts (nD := nD) (τ := τ) cfgs p) (hA : ∀ w, dat.A w = V (Proc.devRef .tc (Pipeline.arrRef (cfgs p).spec w))) (outs : List (Ref sig .tc))
    (hio : ∀ w, ((cfgs p).win w).isOut = true → Pipeline.arrRef (cfgs p).spec w ∈ outs) (b : Ref sig .tc) (hb : b ∉ outs) :
    afterL c V dat (Proc.devRef .tc b) = V (Proc.devRef .tc b) := by
  by_cases h : ∃ w, Pipeline.arrRef (cfgs p).spec w = b
  · obtain ⟨w, rfl⟩ := h
    rw [afterL_arr c V dat lf]
    cases hw : ((cfgs p).win w).isOut
    · exact (dat.arrAt_in w hw _).trans (hA w)
    · exact absurd (hio w hw) hb
  · exact afterL_rest c V dat b fun hm => h (by obtain ⟨w, -, e⟩ := Finset.mem_image.mp hm; exact ⟨w, e⟩)

end Launch

variable (m : (ℓ : Loc nD τ sig) → Buf (Elt F) ℓ) (ρ : Dev nD → PrngReg)

abbrev Bd0 : Dev nD → Valuation τ sig (Elt F) := fun c b => (s₀ m ρ).mem ((c : Dev nD), b)
abbrev Bd1 : Dev nD → Valuation τ sig (Elt F) := fun c => StableHlo.after hostOps0 (Bd0 m ρ c)
theorem Bd1_keep (c : Dev nD) (b : Ref sig .tc) (hb : b ∉ hostOps0_W) :
    Bd1 m ρ c (Proc.devRef .tc b) = Bd0 m ρ c (Proc.devRef .tc b) :=
  StableHlo.after_of_writes_sub hostOps0 _ hostOps0_writes hb
abbrev En0 : (c : Dev nD) → (b : Ref sig .tc) → Buf (Elt F) ((c : Thread nD τ).loc b) := fun c b => Bd1 m ρ c b
def Bd2 (c : Dev nD) : Valuation τ sig (Elt F) := afterL (p := 0) c (Bd1 m ρ c) (dat0 (En0 m ρ) c)
theorem Bd2_arr (c : Dev nD) (w : Fin cfg0.W) :
    Bd2 m ρ c (Proc.devRef .tc (Pipeline.arrRef spec0 w)) = (dat0 (En0 m ρ) c).arrAt w cfg0.N :=
  afterL_arr c _ _ launch0 w
theorem Bd2_keep (c : Dev nD) (b : Ref sig .tc) (hb : b ∉ ([main_v15_0, main_v15_1] : List (Ref sig .tc))) :
    Bd2 m ρ c (Proc.devRef .tc b) = Bd1 m ρ c (Proc.devRef .tc b) :=
  afterL_keep c _ _ launch0 (dat0_A (En0 m ρ) c) _ (by decide) b hb
abbrev Bd3 : Dev nD → Valuation τ sig (Elt F) := fun c => StableHlo.after hostOps1 (Bd2 m ρ c)
theorem Bd3_keep (c : Dev nD) (b : Ref sig .tc) (hb : b ∉ hostOps1_W) :
    Bd3 m ρ c (Proc.devRef .tc b) = Bd2 m ρ c (Proc.devRef .tc b) :=
  StableHlo.after_of_writes_sub hostOps1 _ hostOps1_writes hb
abbrev En1 : (c : Dev nD) → (b : Ref sig .tc) → Buf (Elt F) ((c : Thread nD τ).loc b) := fun c b => Bd3 m ρ c b
def Bd4 (c : Dev nD) : Valuation τ sig (Elt F) := afterL (p := 1) c (Bd3 m ρ c) (dat1 (En1 m ρ) c)
theorem Bd4_arr (c : Dev nD) (w : Fin cfg1.W) :
    Bd4 m ρ c (Proc.devRef .tc (Pipeline.arrRef spec1 w)) = (dat1 (En1 m ρ) c).arrAt w cfg1.N :=
  afterL_arr c _ _ launch1 w
theorem Bd4_keep (c : Dev nD) (b : Ref sig .tc) (hb : b ∉ ([main_v27] : List (Ref sig .tc))) :
    Bd4 m ρ c (Proc.devRef .tc b) = Bd3 m ρ c (Proc.devRef .tc b) :=
  afterL_keep c _ _ launch1 (dat1_A (En1 m ρ) c) _ (by decide) b hb
abbrev En2 : (c : Dev nD) → (b : Ref sig .tc) → Buf (Elt F) ((c : Thread nD τ).loc b) := fun c b => Bd4 m ρ c b
def Bd5 (c : Dev nD) : Valuation τ sig (Elt F) := afterL (p := 2) c (Bd4 m ρ c) (dat2 (En2 m ρ) c)
theorem Bd5_arr (c : Dev nD) (w : Fin cfg2.W) :
    Bd5 m ρ c (Proc.devRef .tc (Pipeline.arrRef spec2 w)) = (dat2 (En2 m ρ) c).arrAt w cfg2.N :=
  afterL_arr c _ _ launch2 w
theorem Bd5_keep (c : Dev nD) (b : Ref sig .tc) (hb : b ∉ ([main_v28_0, main_v28_1] : List (Ref sig .tc))) :
    Bd5 m ρ c (Proc.devRef .tc b) = Bd4 m ρ c (Proc.devRef .tc b) :=
  afterL_keep c _ _ launch2 (dat2_A (En2 m ρ) c) _ (by decide) b hb
abbrev Bd6 : Dev nD → Valuation τ sig (Elt F) := fun c => StableHlo.after hostOps3 (Bd5 m ρ c)
theorem Bd6_keep (c : Dev nD) (b : Ref sig .tc) (hb : b ∉ hostOps3_W) :
    Bd6 m ρ c (Proc.devRef .tc b) = Bd5 m ρ c (Proc.devRef .tc b) :=
  StableHlo.after_of_writes_sub hostOps3 _ hostOps3_writes hb
abbrev En3 : (c : Dev nD) → (b : Ref sig .tc) → Buf (Elt F) ((c : Thread nD τ).loc b) := fun c b => Bd6 m ρ c b
def Bd7 (c : Dev nD) : Valuation τ sig (Elt F) := afterL (p := 3) c (Bd6 m ρ c) (dat3 (En3 m ρ) c)
theorem Bd7_arr (c : Dev nD) (w : Fin cfg3.W) :
    Bd7 m ρ c (Proc.devRef .tc (Pipeline.arrRef spec3 w)) = (dat3 (En3 m ρ) c).arrAt w cfg3.N :=
  afterL_arr c _ _ launch3 w
theorem Bd7_keep (c : Dev nD) (b : Ref sig .tc) (hb : b ∉ ([main_v40] : List (Ref sig .tc))) :
    Bd7 m ρ c (Proc.devRef .tc b) = Bd6 m ρ c (Proc.devRef .tc b) :=
  afterL_keep c _ _ launch3 (dat3_A (En3 m ρ) c) _ (by decide) b hb
abbrev En4 : (c : Dev nD) → (b : Ref sig .tc) → Buf (Elt F) ((c : Thread nD τ).loc b) := fun c b => Bd7 m ρ c b
def Bd8 (c : Dev nD) : Valuation τ sig (Elt F) := afterL (p := 4) c (Bd7 m ρ c) (dat4 (En4 m ρ) c)
theorem Bd8_arr (c : Dev nD) (w : Fin cfg4.W) :
    Bd8 m ρ c (Proc.devRef .tc (Pipeline.arrRef spec4 w)) = (dat4 (En4 m ρ) c).arrAt w cfg4.N :=
  afterL_arr c _ _ launch4 w
theorem Bd8_keep (c : Dev nD) (b : Ref sig .tc) (hb : b ∉ ([main_v41_0, main_v41_1] : List (Ref sig .tc))) :
    Bd8 m ρ c (Proc.devRef .tc b) = Bd7 m ρ c (Proc.devRef .tc b) :=
  afterL_keep c _ _ launch4 (dat4_A (En4 m ρ) c) _ (by decide) b hb
abbrev Bd9 : Dev nD → Valuation τ sig (Elt F) := fun c => StableHlo.after hostOps5 (Bd8 m ρ c)
theorem Bd9_keep (c : Dev nD) (b : Ref sig .tc) (hb : b ∉ hostOps5_W) :
    Bd9 m ρ c (Proc.devRef .tc b) = Bd8 m ρ c (Proc.devRef .tc b) :=
  StableHlo.after_of_writes_sub hostOps5 _ hostOps5_writes hb
abbrev En5 : (c : Dev nD) → (b : Ref sig .tc) → Buf (Elt F) ((c : Thread nD τ).loc b) := fun c b => Bd9 m ρ c b
def Bd10 (c : Dev nD) : Valuation τ sig (Elt F) := afterL (p := 5) c (Bd9 m ρ c) (dat5 (En5 m ρ) c)
theorem Bd10_arr (c : Dev nD) (w : Fin cfg5.W) :
    Bd10 m ρ c (Proc.devRef .tc (Pipeline.arrRef spec5 w)) = (dat5 (En5 m ρ) c).arrAt w cfg5.N :=
  afterL_arr c _ _ launch5 w
theorem Bd10_keep (c : Dev nD) (b : Ref sig .tc) (hb : b ∉ ([main_v53] : List (Ref sig .tc))) :
    Bd10 m ρ c (Proc.devRef .tc b) = Bd9 m ρ c (Proc.devRef .tc b) :=
  afterL_keep c _ _ launch5 (dat5_A (En5 m ρ) c) _ (by decide) b hb
abbrev En6 : (c : Dev nD) → (b : Ref sig .tc) → Buf (Elt F) ((c : Thread nD τ).loc b) := fun c b => Bd10 m ρ c b

end Cert.Kernel.Hand

end
-- ==== Proof.KB.Pool6.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def zero6a : Vec F S128x256 .f32 := k6_pay1

def zero6b : Vec F S1x256 .f32 := k6_pay2

def step6a (s0 : Vec F S128x256 .f32) (ids : Vec F S2000x1 .i32) (x : Vec F S2000x128 .f32) : Vec F S128x256 .f32 :=
  k6_pay4 ids x s0

def step6b (s1 : Vec F S1x256 .f32) (ids : Vec F S2000x1 .i32) : Vec F S1x256 .f32 := k6_pay5 ids s1

abbrev first6 (i : grid6.Coords) : Prop :=
  (Scalar.cmpi .ne (Scalar.extui (Scalar.cmpi .eq (BitVec.ofNat 32 (i 0).val) 0#32)) 0#32) = 1#1

abbrev last6 (i : grid6.Coords) : Prop := k6_cond2 i = 1#1

theorem first6_iff : ∀ t : Fin cfg6.N, first6 (grid6.coords t) ↔ t.val = 0 :=
  (by decide +kernel : ∀ t : Fin grid6.N, first6 (grid6.coords t) ↔ t.val = 0)

theorem last6_iff : ∀ t : Fin cfg6.N, last6 (grid6.coords t) ↔ t.val = 49 :=
  (by decide +kernel : ∀ t : Fin grid6.N, last6 (grid6.coords t) ↔ t.val = 49)

theorem off6 : (![0, 0] : Fin 2 → Nat) = fun _ => 0 := funext fun a => by fin_cases a <;> rfl

theorem read_writes_whole_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_of_cover_last v f v f ⟨Rect.unit off S.size inb, w⟩ L [] (View.mem_set_unit_zero h inb)).trans
    ((View.read_writes_eq_canon v f _ fun y => ⟨_, List.mem_singleton_self _, View.mem_set_unit_zero h inb y⟩).trans
      (View.canon_unit_zero h inb w))

theorem zero6a_eq : zero6a (F := F) = k6_pay1 := rfl
theorem zero6b_eq : zero6b (F := F) = k6_pay2 := rfl

theorem step6a_eq (s0 : Vec F S128x256 .f32) (ids : Vec F S2000x1 .i32) (x : Vec F S2000x128 .f32) :
    step6a s0 ids x = k6_pay4 ids x s0 := rfl

theorem step6b_eq (s1 : Vec F S1x256 .f32) (ids : Vec F S2000x1 .i32) : step6b s1 ids = k6_pay5 ids s1 := rfl

theorem readAt_whole {S : Shape} {e : EltTy} {sp : Space} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

set_option maxHeartbeats 1000000 in
theorem body6_run (c : Dev nD) (E : Set ℕ) (i : grid6.Coords) (hfl : ¬(first6 i ∧ last6 i))
    (arg1 : Memref sig .tc .vmem S2000x128 .f32) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S128x256 .f32) (harg5 : arg5.IsWhole) (arg6 : Memref sig .tc .vmem S1x256 .f32) (harg6 : arg6.IsWhole)
    (x : Vec F S2000x128 .f32) (ids : Vec F S2000x1 .i32) (o0 : Vec F S128x256 .f32) (o1 : Vec F S1x256 .f32)
    (s0 : Vec F S128x256 .f32) (s1 : Vec F S1x256 .f32) (K : PUnit → sProp 𝕄) :
    iprop(owns (c : Thread nD τ) arg1 fullShare x ∗ owns (c : Thread nD τ) arg2 fullShare ids
        ∗ owns (c : Thread nD τ) arg3 fullShare o0 ∗ owns (c : Thread nD τ) arg4 fullShare o1
        ∗ owns (c : Thread nD τ) arg5 fullShare s0 ∗ owns (c : Thread nD τ) arg6 fullShare s1
        ∗ (iprop(owns (c : Thread nD τ) arg1 fullShare x ∗ owns (c : Thread nD τ) arg2 fullShare ids
            ∗ owns (c : Thread nD τ) arg3 fullShare (if last6 i then step6a s0 ids x else o0)
            ∗ owns (c : Thread nD τ) arg4 fullShare (if last6 i then step6b s1 ids else o1)
            ∗ owns (c : Thread nD τ) arg5 fullShare (step6a (if first6 i then zero6a else s0) ids x)
            ∗ owns (c : Thread nD τ) arg6 fullShare (step6b (if first6 i then zero6b else s1) ids)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  by_cases h1 : first6 i <;> by_cases h2 : last6 i
  · exact absurd ⟨h1, h2⟩ hfl
  · simp only [if_pos h1, if_neg h2]
    sl_exec (disch := first | exact h1 | exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [step6a_eq, zero6a_eq]
      sl_unfold_words
      rw [read_writes_whole_last _ _ off6, View.readCov_unit_zero _ off6]
      repeat rw [readAt_whole _ _ off6]
    iexists _; isplitr
    swap; · iexact H5
    ipureintro
    rw [step6b_eq, zero6b_eq]
    sl_unfold_words
    rw [read_writes_whole_last _ _ off6, View.readCov_unit_zero _ off6]
    repeat rw [readAt_whole _ _ off6]
  · simp only [if_neg h1, if_pos h2]
    sl_exec (disch := first | exact h1 | exact h2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      rw [step6a_eq]
      sl_unfold_words
      rw [read_writes_whole_last _ _ off6, View.readCov_unit_zero _ off6]
      repeat rw [readAt_whole _ _ off6]
    isplitl [H3]
    · iexists _; isplitr
      swap; · iexact H3
      ipureintro
      rw [step6b_eq]
      sl_unfold_words
      rw [read_writes_whole_last _ _ off6, View.readCov_unit_zero _ off6]
      repeat rw [readAt_whole _ _ off6]
    isplitl [H4]
    · iexists _; isplitr
      swap; · iexact H4
      ipureintro
      rw [step6a_eq]
      sl_unfold_words
      rw [read_writes_whole_last _ _ off6]
      repeat rw [readAt_whole _ _ off6]
    iexists _; isplitr
    swap; · iexact H5
    ipureintro
    rw [step6b_eq]
    sl_unfold_words
    rw [read_writes_whole_last _ _ off6]
    repeat rw [readAt_whole _ _ off6]
  · simp only [if_neg h1, if_neg h2]
    sl_exec (disch := first | exact h1 | exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [step6a_eq, read_writes_whole_last _ _ off6]
      repeat rw [readAt_whole _ _ off6]
    iexists _; isplitr
    swap; · iexact H5
    ipureintro
    rw [step6b_eq, read_writes_whole_last _ _ off6]
    repeat rw [readAt_whole _ _ off6]

def acc6 (c : Dev nD) : (n : ℕ) → n < cfg6.N → Vec F S128x256 .f32 × Vec F S1x256 .f32
  | 0, h => (step6a zero6a (blk6 V c 1 ⟨0, h⟩) (blk6 V c 0 ⟨0, h⟩), step6b zero6b (blk6 V c 1 ⟨0, h⟩))
  | n + 1, h => (step6a (acc6 c n (Nat.lt_of_succ_lt h)).1 (blk6 V c 1 ⟨n + 1, h⟩) (blk6 V c 0 ⟨n + 1, h⟩),
      step6b (acc6 c n (Nat.lt_of_succ_lt h)).2 (blk6 V c 1 ⟨n + 1, h⟩))

theorem acc6_zero (c : Dev nD) (h : 0 < cfg6.N) :
    acc6 V c 0 h = (step6a zero6a (blk6 V c 1 ⟨0, h⟩) (blk6 V c 0 ⟨0, h⟩), step6b zero6b (blk6 V c 1 ⟨0, h⟩)) := rfl

theorem acc6_succ (c : Dev nD) (n : ℕ) (h : n + 1 < cfg6.N) :
    acc6 V c (n + 1) h = (step6a (acc6 V c n (Nat.lt_of_succ_lt h)).1 (blk6 V c 1 ⟨n + 1, h⟩) (blk6 V c 0 ⟨n + 1, h⟩),
      step6b (acc6 V c n (Nat.lt_of_succ_lt h)).2 (blk6 V c 1 ⟨n + 1, h⟩)) := rfl

theorem acc6_first (c : Dev nD) (t : Fin cfg6.N) (hz : t.val = 0) :
    acc6 V c t.val t.isLt = (step6a zero6a (blk6 V c 1 t) (blk6 V c 0 t), step6b zero6b (blk6 V c 1 t)) := by
  obtain ⟨_ | n, hn⟩ := t
  exacts [rfl, absurd hz (Nat.succ_ne_zero n)]

theorem acc6_pos (c : Dev nD) (t : Fin cfg6.N) (hz : t.val ≠ 0) :
    acc6 V c t.val t.isLt = (step6a (acc6 V c (t.val - 1) (Nat.lt_of_le_of_lt (Nat.sub_le _ _) t.isLt)).1 (blk6 V c 1 t) (blk6 V c 0 t),
      step6b (acc6 V c (t.val - 1) (Nat.lt_of_le_of_lt (Nat.sub_le _ _) t.isLt)).2 (blk6 V c 1 t)) := by
  obtain ⟨_ | n, hn⟩ := t
  exacts [absurd rfl hz, rfl]

abbrev sc6_0 : Memref sig .tc .vmem S128x256 .f32 := Memref.whole cc6_scratch0
abbrev sc6_1 : Memref sig .tc .vmem S1x256 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) sc6_0 fullShare d) ∗ (∃ d, owns (c : Thread nD τ) sc6_1 fullShare d)) ∗ rest6 c)
          ∗ (∃ r, prngReg c r)) := by
  unfold Pipeline.ΦA; rw [scopedRest6_split]; simp only [sc6_0, sc6_1, rest6, owns_whole]; try rfl

def Phi6 (c : Dev nD) : (n : ℕ) → n ≤ cfg6.N → sProp 𝕄
  | 0, _ => Pipeline.ΦA spec6 c
  | n + 1, hn => iprop(owns (c : Thread nD τ) sc6_0 fullShare (acc6 V c n hn).1 ∗ owns (c : Thread nD τ) sc6_1 fullShare (acc6 V c n hn).2
      ∗ rest6 c ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(owns (c : Thread nD τ) sc6_0 fullShare (acc6 V c n hn).1 ∗ owns (c : Thread nD τ) sc6_1 fullShare (acc6 V c n hn).2
      ∗ rest6 c ∗ (∃ r, prngReg c r)) := rfl

theorem Phi6_pos (c : Dev nD) (n : ℕ) (h : n ≤ cfg6.N) (hz : n ≠ 0) :
    Phi6 V c n h = iprop(owns (c : Thread nD τ) sc6_0 fullShare (acc6 V c (n - 1) (by omega)).1
      ∗ owns (c : Thread nD τ) sc6_1 fullShare (acc6 V c (n - 1) (by omega)).2 ∗ rest6 c ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => (acc6 V c t.val t.isLt).1
    | ⟨3, _⟩ => (acc6 V c t.val t.isLt).2
  Φ t := Phi6 V c t.val (Nat.le_of_lt_succ t.isLt)
  q _ := fullShare
  owed _ := 0

theorem dat6_A (c : Dev nD) (w : Fin cfg6.W) : (dat6 V c).A w = V c (Pipeline.arrRef spec6 w) := rfl

theorem dat6_after_0 (c : Dev nD) (t : Fin cfg6.N) : (dat6 V c).after 0 t = blk6 V c 0 t := rfl
theorem dat6_after_1 (c : Dev nD) (t : Fin cfg6.N) : (dat6 V c).after 1 t = blk6 V c 1 t := rfl
theorem dat6_after_2 (c : Dev nD) (t : Fin cfg6.N) : (dat6 V c).after 2 t = (acc6 V c t.val t.isLt).1 := rfl
theorem dat6_after_3 (c : Dev nD) (t : Fin cfg6.N) : (dat6 V c).after 3 t = (acc6 V c t.val t.isLt).2 := rfl

theorem dat6_Phi_castSucc (c : Dev nD) (t : Fin cfg6.N) :
    (dat6 V c).Φ t.castSucc = Phi6 V c t.val (Nat.le_of_lt t.isLt) := rfl

theorem dat6_before_0 (c : Dev nD) (t : Fin cfg6.N) (d) : (dat6 V c).before 0 t d = blk6 V c 0 t :=
  (dat6 V c).before_fetched 0 t (fetch6_0 t) d
theorem dat6_before_1 (c : Dev nD) (t : Fin cfg6.N) (d) : (dat6 V c).before 1 t d = blk6 V c 1 t :=
  (dat6 V c).before_fetched 1 t (fetch6_1 t) d

theorem live6_0 : ∀ t : Fin cfg6.N, cfg6.idle 0 (grid6.coords t) = false := by decide +kernel
theorem live6_1 : ∀ t : Fin cfg6.N, cfg6.idle 1 (grid6.coords t) = false := by decide +kernel

theorem idle6_2 : ∀ t : Fin cfg6.N, ¬last6 (grid6.coords t) → cfg6.idle 2 (grid6.coords t) = true := by decide +kernel
theorem idle6_3 : ∀ t : Fin cfg6.N, ¬last6 (grid6.coords t) → cfg6.idle 3 (grid6.coords t) = true := by decide +kernel
theorem noFlush6_2 : ∀ t : Fin cfg6.N, ¬last6 (grid6.coords t) → (cfg6.win 2).flush t = false := by decide +kernel
theorem noFlush6_3 : ∀ t : Fin cfg6.N, ¬last6 (grid6.coords t) → (cfg6.win 3).flush t = false := by decide +kernel
theorem live6_2 : ∀ t : Fin cfg6.N, last6 (grid6.coords t) → cfg6.idle 2 (grid6.coords t) = false := by decide +kernel
theorem live6_3 : ∀ t : Fin cfg6.N, last6 (grid6.coords t) → cfg6.idle 3 (grid6.coords t) = false := by decide +kernel

theorem leavesExact_live6 (c : Dev nD) (w : Fin cfg6.W) (t : Fin cfg6.N) (h : cfg6.idle w (grid6.coords t) = false) :
    (dat6 V c).leavesExact w t = owns (c : Thread nD τ) ((cfg6.win w).stage (cfg6.slots t w)) fullShare ((dat6 V c).after w t) := by
  unfold Dat.leavesExact; rw [h]

set_option maxHeartbeats 2000000 in
theorem body6_sound (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
      ⊢ wp frame (wpE (defs₀ (F := F)) Variants.none c none) Set.univ (bodyAt6 t) (fun _ =>
        iprop(Phi6 V c (t.val + 1) t.isLt ∗ (dat6 V c).owesAt () t.castSucc
          ∗ (dat6 V c).leavesExact 0 t ∗ (dat6 V c).leavesExact 1 t ∗ (dat6 V c).leavesExact 2 t ∗ (dat6 V c).leavesExact 3 t)) := by
  unfold bodyAt6
  simp only [dat6_before_0, dat6_before_1]
  rw [Phi6_succ, dat6_Phi_castSucc, leavesExact_live6 V c 0 t (live6_0 t), leavesExact_live6 V c 1 t (live6_1 t), dat6_after_0, dat6_after_1]
  have hN : t.val < 50 := lt_of_lt_of_eq t.isLt (show cfg6.N = 50 from N_6)
  have hfl : ¬(first6 (grid6.coords t) ∧ last6 (grid6.coords t)) := fun ⟨a, b⟩ => by
    have := (first6_iff t).mp a; have := (last6_iff t).mp b; omega
  by_cases hl : t.val = 49
  · have h1 : ¬first6 (grid6.coords t) := fun h => by have := (first6_iff t).mp h; omega
    have h2 : last6 (grid6.coords t) := (last6_iff t).mpr hl
    have hz : t.val ≠ 0 := by omega
    rw [leavesExact_live6 V c 2 t (live6_2 t h2), leavesExact_live6 V c 3 t (live6_3 t h2), dat6_after_2, dat6_after_3,
      Phi6_pos V c _ _ hz]
    simp only [acc6_pos V c t hz]
    iintro ⟨⟨HS0, HS1, HR, Hg⟩, Ho, ⟨%d0, H0⟩, ⟨%d1, H1⟩, ⟨%d2, H2⟩, ⟨%d3, H3⟩⟩
    iapply (body6_run c Set.univ (grid6.coords t) hfl _ _ _ _ _ _ _ _ _ _ _ _ (blk6 V c 0 t) (blk6 V c 1 t) _ _ _ _ _)
    simp only [if_neg h1, if_pos h2]
    iframe H0 H1 H2 H3 HS0 HS1
    iintro ⟨H0, H1, H2, H3, HS0, HS1⟩
    iframe
  · have h2 : ¬last6 (grid6.coords t) := fun h => hl ((last6_iff t).mp h)
    rw [Dat.leavesExact_idle (dat6 V c) 2 t (idle6_2 t h2) (noFlush6_2 t h2),
      Dat.leavesExact_idle (dat6 V c) 3 t (idle6_3 t h2) (noFlush6_3 t h2)]
    by_cases hz : t.val = 0
    · have h1 : first6 (grid6.coords t) := (first6_iff t).mpr hz
      rw [Phi6_zero V c _ _ hz, PhiA6_eq]
      simp only [acc6_first V c t hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩⟩
      iapply (body6_run c Set.univ (grid6.coords t) hfl _ _ _ _ _ _ _ _ _ _ _ _ (blk6 V c 0 t) (blk6 V c 1 t) _ _ _ _ _)
      simp only [if_pos h1, if_neg h2]
      iframe H0 H1 H2 H3 HS0 HS1
      iintro ⟨H0, H1, H2, H3, HS0, HS1⟩
      iframe HS0 HS1 HR Hg Ho H0 H1
      isplitl [H2]; · iexists _; iexact H2
      iexists _; iexact H3
    · have h1 : ¬first6 (grid6.coords t) := fun h => hz ((first6_iff t).mp h)
      rw [Phi6_pos V c _ _ hz]
      simp only [acc6_pos V c t hz]
      iintro ⟨⟨HS0, HS1, HR, Hg⟩, Ho, ⟨%d0, H0⟩, ⟨%d1, H1⟩, ⟨%d2, H2⟩, ⟨%d3, H3⟩⟩
      iapply (body6_run c Set.univ (grid6.coords t) hfl _ _ _ _ _ _ _ _ _ _ _ _ (blk6 V c 0 t) (blk6 V c 1 t) _ _ _ _ _)
      simp only [if_neg h1, if_neg h2]
      iframe H0 H1 H2 H3 HS0 HS1
      iintro ⟨H0, H1, H2, H3, HS0, HS1⟩
      iframe HS0 HS1 HR Hg Ho H0 H1
      isplitl [H2]; · iexists _; iexact H2
      iexists _; iexact H3

theorem body6_obligation (c : Dev nD) : BodyObligation (dat6 (F := F) V c) (defs₀ (F := F)) Variants.none () Set.univ := fun t => by
  rw [bigSep_W6, bigSep_W6]
  exact body6_sound V c t

theorem dat6_hin (c : Dev nD) : Pipeline.ΦA spec6 c ⊢ (dat6 V c).Φ 0 := by
  rw [show (dat6 V c).Φ 0 = Phi6 V c 0 (Nat.zero_le _) from rfl, Phi6_zero V c 0 _ rfl]

theorem dat6_hout (c : Dev nD) : (dat6 V c).Φ (Fin.last cfg6.N) ⊢ Pipeline.ΦA spec6 c := by
  have hne : (Fin.last cfg6.N).val ≠ 0 := by rw [Fin.val_last]; have : cfg6.N = 50 := N_6; omega
  rw [show (dat6 V c).Φ (Fin.last cfg6.N) = Phi6 V c (Fin.last cfg6.N).val (Nat.le_of_lt_succ (Fin.last cfg6.N).isLt) from rfl,
    Phi6_pos V c _ _ hne, PhiA6_eq]
  iintro ⟨HS0, HS1, HR, Hg⟩
  iframe HR Hg
  isplitl [HS0]; · iexists _; iexact HS0
  iexists _; iexact HS1

end Cert.Kernel.Hand

end
-- ==== Proof.KB.Cls7.lean ====
import proofs.«400505_j77171972374635_2_alg».proof.Proof.Gen.Kernel.Launch
import proofs.«400505_j77171972374635_2_alg».proof.Proof.Gen.Kernel.Skeleton
import proofs.«400505_j77171972374635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_p : Rect S256x128 := Rect.unit (s := S256x128) ![0, 0] S256x128.size inb_S256x128_S256x128_0_0
abbrev r7_w : Rect S128x64 := Rect.unit (s := S128x64) ![0, 0] S128x64.size inb_S128x64_S128x64_0_0
abbrev r7_b : Rect S1x64 := Rect.unit (s := S1x64) ![0, 0] S1x64.size inb_S1x64_S1x64_0_0
abbrev r7_u : Rect S64x3 := Rect.unit (s := S64x3) ![0, 0] S64x3.size inb_S64x3_S64x3_0_0
abbrev r7_e : Rect S1x3 := Rect.unit (s := S1x3) ![0, 0] S1x3.size inb_S1x3_S1x3_0_0
abbrev r7_o : Rect S256x3 := Rect.unit (s := S256x3) ![0, 0] S256x3.size inb_S256x3_S256x3_0_0

def left7_5 (x0 : Vec F S256x128 .f32) (x1 : Vec F S128x64 .f32) (x2 : Vec F S1x64 .f32) (x3 : Vec F S64x3 .f32) (x4 : Vec F S1x3 .f32) : Vec F S256x3 .f32 :=
  View.canon [⟨r7_o, k7_pay1 (View.ld x0 r7_p) (View.ld x1 r7_w) (View.ld x2 r7_b) (View.ld x3 r7_u) (View.ld x4 r7_e)⟩]

theorem cover7_o (p0 : Vec F S256x3 .f32) (y : S256x3.Idx) :
    ∃ pc ∈ ([⟨r7_o, p0⟩] : List (View.Piece (Elt F) S256x3 .f32)), y ∈ pc.1.set :=
  View.cover_of_tiled [⟨r7_o, p0⟩] S256x3.size (by rfl) y

set_option maxHeartbeats 1000000 in

theorem body7_run (c : Dev nD) (E : Set ℕ) (i : grid7.Coords)
    (arg1 : Memref sig .tc .vmem S256x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x3 .f32) (harg4 : arg4.IsWhole)
    (arg5 : Memref sig .tc .vmem S1x3 .f32) (harg5 : arg5.IsWhole) (arg6 : Memref sig .tc .vmem S256x3 .f32) (harg6 : arg6.IsWhole)
    (x0 : Vec F S256x128 .f32) (x1 : Vec F S128x64 .f32) (x2 : Vec F S1x64 .f32) (x3 : Vec F S64x3 .f32) (x4 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (left7_5 x0 x1 x2 x3 x4)) -∗ K ⟨⟩))
      ⊢ wp frame (wpE (defs₀ (F := F)) Variants.none c none) E (cc7__classifier_kernel i arg1 harg1 arg2 harg2 arg3 harg3 arg4 harg4 arg5 harg5 arg6 harg6) K := by
  simp only [cc7__classifier_kernel_eq_skeleton]; unfold cc7__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_o _)

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => left7_5 (blk7 V c 0 t) (blk7 V c 1 t) (blk7 V c 2 t) (blk7 V c 3 t) (blk7 V c 4 t)
  Φ _ := Pipeline.ΦA spec7 c
  q _ := fullShare
  owed _ := 0

theorem dat7_A (c : Dev nD) (w : Fin cfg7.W) : (dat7 V c).A w = V c (Pipeline.arrRef spec7 w) := rfl

theorem dat7_after_5 (c : Dev nD) (t : Fin cfg7.N) :
    (dat7 V c).after 5 t = left7_5 (blk7 V c 0 t) (blk7 V c 1 t) (blk7 V c 2 t) (blk7 V c 3 t) (blk7 V c 4 t) := rfl

theorem dat7_before_0 (c : Dev nD) (t : Fin cfg7.N) (d) : (dat7 V c).before 0 t d = blk7 V c 0 t :=
  (dat7 V c).before_fetched 0 t (fetch7_0 t) d
theorem dat7_before_1 (c : Dev nD) (t : Fin cfg7.N) (d) : (dat7 V c).before 1 t d = blk7 V c 1 t :=
  (dat7 V c).before_fetched 1 t (fetch7_1 t) d
theorem dat7_before_2 (c : Dev nD) (t : Fin cfg7.N) (d) : (dat7 V c).before 2 t d = blk7 V c 2 t :=
  (dat7 V c).before_fetched 2 t (fetch7_2 t) d
theorem dat7_before_3 (c : Dev nD) (t : Fin cfg7.N) (d) : (dat7 V c).before 3 t d = blk7 V c 3 t :=
  (dat7 V c).before_fetched 3 t (fetch7_3 t) d
theorem dat7_before_4 (c : Dev nD) (t : Fin cfg7.N) (d) : (dat7 V c).before 4 t d = blk7 V c 4 t :=
  (dat7 V c).before_fetched 4 t (fetch7_4 t) d

theorem body7_sound (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d)))
      ⊢ wp frame (wpE (defs₀ (F := F)) Variants.none c none) Set.univ (bodyAt7 t) (fun _ =>
        iprop((dat7 V c).Φ t.castSucc ∗ (dat7 V c).owesAt () t.castSucc
          ∗ owns (c : Thread nD τ) (st7_0 t) fullShare (blk7 V c 0 t)
          ∗ owns (c : Thread nD τ) (st7_1 t) fullShare (blk7 V c 1 t)
          ∗ owns (c : Thread nD τ) (st7_2 t) fullShare (blk7 V c 2 t)
          ∗ owns (c : Thread nD τ) (st7_3 t) fullShare (blk7 V c 3 t)
          ∗ owns (c : Thread nD τ) (st7_4 t) fullShare (blk7 V c 4 t)
          ∗ owns (c : Thread nD τ) (st7_5 t) fullShare
              (left7_5 (blk7 V c 0 t) (blk7 V c 1 t) (blk7 V c 2 t) (blk7 V c 3 t) (blk7 V c 4 t)))) := by
  unfold bodyAt7
  simp only [dat7_before_0, dat7_before_1, dat7_before_2, dat7_before_3, dat7_before_4]
  iintro ⟨HΦ, Ho, ⟨%d0, H0⟩, ⟨%d1, H1⟩, ⟨%d2, H2⟩, ⟨%d3, H3⟩, ⟨%d4, H4⟩, ⟨%d5, H5⟩⟩
  iapply (body7_run c Set.univ _ _ _ _ _ _ _ _ _ _ _ _ _ (blk7 V c 0 t) (blk7 V c 1 t) (blk7 V c 2 t) (blk7 V c 3 t) (blk7 V c 4 t) _)
  iframe H0 H1 H2 H3 H4
  isplitl [H5]; · iexists _; iexact H5
  iintro ⟨H0, H1, H2, H3, H4, H5⟩
  iframe

theorem body7_obligation (c : Dev nD) : BodyObligation (dat7 (F := F) V c) (defs₀ (F := F)) Variants.none () Set.univ := fun t => by
  rw [bigSep_W7, bigSep_W7]
  exact body7_sound V c t

end Cert.Kernel.Hand

end
-- ==== Proof.KB.Bounds2.lean ====
import proofs.«400505_j77171972374635_2_alg».proof.Proof.KB.Bounds1
import proofs.«400505_j77171972374635_2_alg».proof.Proof.KB.Pool6
import proofs.«400505_j77171972374635_2_alg».proof.Proof.KB.Cls7

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def Bd11 (c : Dev nD) : Valuation τ sig (Elt F) := afterL (p := 6) c (Bd10 m ρ c) (dat6 (En6 m ρ) c)
theorem Bd11_arr (c : Dev nD) (w : Fin cfg6.W) :
    Bd11 m ρ c (Proc.devRef .tc (Pipeline.arrRef spec6 w)) = (dat6 (En6 m ρ) c).arrAt w cfg6.N :=
  afterL_arr c _ _ launch6 w
theorem Bd11_keep (c : Dev nD) (b : Ref sig .tc) (hb : b ∉ ([main_v54_0, main_v54_1] : List (Ref sig .tc))) :
    Bd11 m ρ c (Proc.devRef .tc b) = Bd10 m ρ c (Proc.devRef .tc b) :=
  afterL_keep c _ _ launch6 (dat6_A (En6 m ρ) c) _ (by decide) b hb
abbrev Bd12 : Dev nD → Valuation τ sig (Elt F) := fun c => StableHlo.after hostOps7 (Bd11 m ρ c)
theorem Bd12_keep (c : Dev nD) (b : Ref sig .tc) (hb : b ∉ hostOps7_W) :
    Bd12 m ρ c (Proc.devRef .tc b) = Bd11 m ρ c (Proc.devRef .tc b) :=
  StableHlo.after_of_writes_sub hostOps7 _ hostOps7_writes hb
abbrev En7 : (c : Dev nD) → (b : Ref sig .tc) → Buf (Elt F) ((c : Thread nD τ).loc b) := fun c b => Bd12 m ρ c b
def Bd13 (c : Dev nD) : Valuation τ sig (Elt F) := afterL (p := 7) c (Bd12 m ρ c) (dat7 (En7 m ρ) c)
theorem Bd13_arr (c : Dev nD) (w : Fin cfg7.W) :
    Bd13 m ρ c (Proc.devRef .tc (Pipeline.arrRef spec7 w)) = (dat7 (En7 m ρ) c).arrAt w cfg7.N :=
  afterL_arr c _ _ launch7 w
theorem Bd13_keep (c : Dev nD) (b : Ref sig .tc) (hb : b ∉ ([main_v63] : List (Ref sig .tc))) :
    Bd13 m ρ c (Proc.devRef .tc b) = Bd12 m ρ c (Proc.devRef .tc b) :=
  afterL_keep c _ _ launch7 (dat7_A (En7 m ρ) c) _ (by decide) b hb

end Cert.Kernel.Hand

end
-- ==== Proof.KB.Run.lean ====
import proofs.«400505_j77171972374635_2_alg».proof.Proof.KB.Bounds2

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 8) → (c : Dev nD) → Dat τ (Elt F) Unit ℕ (UR sig nD τ) ℕ (cfgs p) c
  | ⟨0, _⟩ => fun c => dat0 (En0 m ρ) c
  | ⟨1, _⟩ => fun c => dat1 (En1 m ρ) c
  | ⟨2, _⟩ => fun c => dat2 (En2 m ρ) c
  | ⟨3, _⟩ => fun c => dat3 (En3 m ρ) c
  | ⟨4, _⟩ => fun c => dat4 (En4 m ρ) c
  | ⟨5, _⟩ => fun c => dat5 (En5 m ρ) c
  | ⟨6, _⟩ => fun c => dat6 (En6 m ρ) c
  | ⟨7, _⟩ => fun c => dat7 (En7 m ρ) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Bd13 m ρ c) ∗ ∃ r, prngReg c r)

set_option backward.isDefEq.respectTransparency.types false in
/-- One record serves all eight launches: what differs between them enters as arguments. -/
def reg (p : Fin 8) (lf : Pipeline.LaunchFacts (nD := nD) (τ := τ) cfgs p) (A B : Dev nD → Valuation τ sig (Elt F))
    (dat : (c : Dev nD) → Dat τ (Elt F) Unit ℕ (UR sig nD τ) ℕ (cfgs p) c) (hdat : ∀ c, pdats m ρ p c = dat c)
    (hbody : ∀ c, BodyObligation (dat c) (defs₀ (F := F)) Variants.none () Set.univ)
    (howed : ∀ c t, (dat c).owed t = 0) (hrec : ∀ c t, (dat c).recorded t = Set.univ) (hq : ∀ c w, (dat c).q w = fullShare)
    (hA : ∀ c w, (dat c).A w = A c (Proc.devRef .tc (Pipeline.arrRef (cfgs p).spec w)))
    (hin : ∀ c, (Pipeline.ΦA (cfgs p).spec c : sProp 𝕄) ⊢ (dat c).Φ 0)
    (hout : ∀ c, (dat c).Φ (Fin.last _) ⊢ (Pipeline.ΦA (cfgs p).spec c : sProp 𝕄))
    (hB : ∀ c, B c = afterL c (A c) (dat c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := by rw [hdat c]; exact (hbody c).loose
  hwaits := Pipeline.hwaits_of_owed_zero _ _ _ _ L lv p fun c t => by rw [hdat c]; exact howed c t
  pre c := iprop(StableHlo.held (c : Thread nD τ) (Pipeline.ucRefs τ sig) (A c) ∗ R c)
  post c := iprop(StableHlo.held (c : Thread nD τ) (Pipeline.ucRefs τ sig) (B c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => A c b
  hentry c := by
    have hsplit := Pipeline.arrays_of_unscopedBufs (p := p) (pcfgs (F := F)) adm (pdats m ρ) lf.win lf.arr_whole c
      (by rw [hdat c]; exact (dat c).share_full (hq c)) (fun b => A c b) (by rw [hdat c]; exact hA c)
    rw [Pipeline.unscopedBufs_held, hdat c] at hsplit
    rw [Pipeline.ownSems0_none, hdat c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    rw [hdat c]
    refine (?_ : _ ⊢ (Pipeline.ΦA (cfgs p).spec c : sProp 𝕄)).trans (hin c)
    unfold Pipeline.ΦA
    iintro ⟨Hp, -, Hr⟩
    isplitl [Hr]; · iexact Hr
    iexact Hp
  hout c := by
    rw [Pipeline.ownSems0_none, hdat c]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) (by rw [hdat c]; exact (dat c).share_full (hq c))
      (fun b => A c b) (fun b => B c b) ((dat c).arrAt · (cfgs p).N)
      (fun w => by rw [hB]; exact (afterL_arr c _ _ lf w).symm) (fun b hb => by rw [hB]; exact afterL_rest c _ _ b hb)
    rw [Pipeline.unscopedBufs_held, hdat c] at hjoin
    rw [hdat c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (Bd0 m ρ)),
    .region (reg m ρ 0 launch0 (Bd1 m ρ) (Bd2 m ρ) (dat0 (En0 m ρ)) (fun _ => rfl) (body0_obligation (En0 m ρ))
      (fun _ _ => rfl) (fun _ _ => rfl) (fun _ _ => rfl) (dat0_A (En0 m ρ)) (fun _ => .rfl) (fun _ => .rfl) fun _ => rfl),
    .host (hseg hostOps1 hostOps1_sub hostOps1_fresh (Bd2 m ρ)),
    .region (reg m ρ 1 launch1 (Bd3 m ρ) (Bd4 m ρ) (dat1 (En1 m ρ)) (fun _ => rfl) (body1_obligation (En1 m ρ))
      (fun _ _ => rfl) (fun _ _ => rfl) (fun _ _ => rfl) (dat1_A (En1 m ρ)) (fun _ => .rfl) (fun _ => .rfl) fun _ => rfl),
    .region (reg m ρ 2 launch2 (Bd4 m ρ) (Bd5 m ρ) (dat2 (En2 m ρ)) (fun _ => rfl) (body2_obligation (En2 m ρ))
      (fun _ _ => rfl) (fun _ _ => rfl) (fun _ _ => rfl) (dat2_A (En2 m ρ)) (fun _ => .rfl) (fun _ => .rfl) fun _ => rfl),
    .host (hseg hostOps3 hostOps3_sub hostOps3_fresh (Bd5 m ρ)),
    .region (reg m ρ 3 launch3 (Bd6 m ρ) (Bd7 m ρ) (dat3 (En3 m ρ)) (fun _ => rfl) (body3_obligation (En3 m ρ))
      (fun _ _ => rfl) (fun _ _ => rfl) (fun _ _ => rfl) (dat3_A (En3 m ρ)) (fun _ => .rfl) (fun _ => .rfl) fun _ => rfl),
    .region (reg m ρ 4 launch4 (Bd7 m ρ) (Bd8 m ρ) (dat4 (En4 m ρ)) (fun _ => rfl) (body4_obligation (En4 m ρ))
      (fun _ _ => rfl) (fun _ _ => rfl) (fun _ _ => rfl) (dat4_A (En4 m ρ)) (fun _ => .rfl) (fun _ => .rfl) fun _ => rfl),
    .host (hseg hostOps5 hostOps5_sub hostOps5_fresh (Bd8 m ρ)),
    .region (reg m ρ 5 launch5 (Bd9 m ρ) (Bd10 m ρ) (dat5 (En5 m ρ)) (fun _ => rfl) (body5_obligation (En5 m ρ))
      (fun _ _ => rfl) (fun _ _ => rfl) (fun _ _ => rfl) (dat5_A (En5 m ρ)) (fun _ => .rfl) (fun _ => .rfl) fun _ => rfl),
    .region (reg m ρ 6 launch6 (Bd10 m ρ) (Bd11 m ρ) (dat6 (En6 m ρ)) (fun _ => rfl) (body6_obligation (En6 m ρ))
      (fun _ _ => rfl) (fun _ _ => rfl) (fun _ _ => rfl) (dat6_A (En6 m ρ)) (dat6_hin (En6 m ρ)) (dat6_hout (En6 m ρ)) fun _ => rfl),
    .host (hseg hostOps7 hostOps7_sub hostOps7_fresh (Bd11 m ρ)),
    .region (reg m ρ 7 launch7 (Bd12 m ρ) (Bd13 m ρ) (dat7 (En7 m ρ)) (fun _ => rfl) (body7_obligation (En7 m ρ))
      (fun _ _ => rfl) (fun _ _ => rfl) (fun _ _ => rfl) (dat7_A (En7 m ρ)) (fun _ => .rfl) (fun _ => .rfl) fun _ => rfl) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = Bd13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (Bd13 m ρ c) ∗ R c) : sProp 𝕄)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd13 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd13 m ρ c) s')
      isplitl [Hh] <;> iassumption)
    (hQ := fun s h => h)

abbrev argRefs : List (Ref sig .tc) := [main_arg0, main_arg1, main_arg2, main_arg3, main_arg4, main_arg5, main_arg6, main_arg7, main_arg8, main_arg9, main_arg10, main_arg11, main_arg12]

/-- No item writes an argument array, which is why each ends as launched. -/
theorem args_untouched : ∀ b ∈ (argRefs : List (Ref sig .tc)),
    b ∉ hostOps0_W
    ∧ b ∉ ([main_v15_0, main_v15_1] : List (Ref sig .tc))
    ∧ b ∉ hostOps1_W
    ∧ b ∉ ([main_v27] : List (Ref sig .tc))
    ∧ b ∉ ([main_v28_0, main_v28_1] : List (Ref sig .tc))
    ∧ b ∉ hostOps3_W
    ∧ b ∉ ([main_v40] : List (Ref sig .tc))
    ∧ b ∉ ([main_v41_0, main_v41_1] : List (Ref sig .tc))
    ∧ b ∉ hostOps5_W
    ∧ b ∉ ([main_v53] : List (Ref sig .tc))
    ∧ b ∉ ([main_v54_0, main_v54_1] : List (Ref sig .tc))
    ∧ b ∉ hostOps7_W
    ∧ b ∉ ([main_v63] : List (Ref sig .tc)) := by
  decide

theorem Bd13_arg (c : Dev nD) (b : Ref sig .tc) (hb : b ∈ (argRefs : List (Ref sig .tc))) :
    Bd13 m ρ c (Proc.devRef .tc b) = m ((c : Thread nD τ).loc b) := by
  obtain ⟨h1, h2, h3, h4, h5, h6, h7, h8, h9, h10, h11, h12, h13⟩ := args_untouched b hb
  exact (Bd13_keep m ρ c b h13).trans <| (Bd12_keep m ρ c b h12).trans <| (Bd11_keep m ρ c b h11).trans <| (Bd10_keep m ρ c b h10).trans <| (Bd9_keep m ρ c b h9).trans <| (Bd8_keep m ρ c b h8).trans <| (Bd7_keep m ρ c b h7).trans <| (Bd6_keep m ρ c b h6).trans <| (Bd5_keep m ρ c b h5).trans <| (Bd4_keep m ρ c b h4).trans <| (Bd3_keep m ρ c b h3).trans <| (Bd2_keep m ρ c b h2).trans <| (Bd1_keep m ρ c b h1).trans <| rfl

theorem arg_end {c : Dev nD} {μ : (ℓ : Loc nD τ sig) → Buf (Elt F) ℓ} (h : ∀ b ∈ Pipeline.ucRefs τ sig, μ (((c : Thread nD τ)).1, b) = Bd13 m ρ c b)
    (b : Ref sig .tc) (hs : ¬ (Proc.devRef .tc b : DevRef τ sig).isScoped) (hb : b ∈ (argRefs : List (Ref sig .tc))) :
    μ ((c.tc : Thread nD τ).loc b) = m ((c.tc : Thread nD τ).loc b) :=
  (h _ (mem_uc b hs)).trans (Bd13_arg m ρ c b hb)

theorem run_result : θ_run defs (onTc (τ := τ) (main (F := F))) ⟨m, fun _ => 0, ρ⟩ (fun r => ∀ c : Dev nD,
      r.2.mem ((c.tc : Thread nD τ).loc main_v63) = Bd13 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v63 (by decide)),
      arg_end m ρ (h c) main_arg0 (by decide) (by decide),
      arg_end m ρ (h c) main_arg1 (by decide) (by decide),
      arg_end m ρ (h c) main_arg2 (by decide) (by decide),
      arg_end m ρ (h c) main_arg3 (by decide) (by decide),
      arg_end m ρ (h c) main_arg4 (by decide) (by decide),
      arg_end m ρ (h c) main_arg5 (by decide) (by decide),
      arg_end m ρ (h c) main_arg6 (by decide) (by decide),
      arg_end m ρ (h c) main_arg7 (by decide) (by decide),
      arg_end m ρ (h c) main_arg8 (by decide) (by decide),
      arg_end m ρ (h c) main_arg9 (by decide) (by decide),
      arg_end m ρ (h c) main_arg10 (by decide) (by decide),
      arg_end m ρ (h c) main_arg11 (by decide) (by decide),
      arg_end m ρ (h c) main_arg12 (by decide) (by decide)⟩) (run_all m ρ)

end Cert.Kernel.Hand

end
-- ==== Proof.KI.Lin0.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x66 := Rect.unit (s := S5000x66) ![0, 0] S5000x66.size inb_S5000x66_S5000x66_0_0
abbrev r0_w : Rect S66x128 := Rect.unit (s := S66x128) ![0, 0] S66x128.size inb_S66x128_S66x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

def left0_3 (x0 : Vec F S5000x66 .f32) (x1 : Vec F S66x128 .f32) : Vec F S5000x128 .f32 :=
  View.canon [⟨r0_o, k0_pay1 (View.ld x0 r0_x) (View.ld x1 r0_w)⟩]

def left0_4 (x0 : Vec F S5000x66 .f32) (x1 : Vec F S66x128 .f32) (x2 : Vec F S5000x1 .f32) : Vec F S5000x128 .f32 :=
  View.canon [⟨r0_o, k0_pay2 (View.ld x0 r0_x) (View.ld x1 r0_w) (View.ld x2 r0_d)⟩]

-- Each result is stored whole, once: its buffer ends as the closed form of that one store, and the operands are handed back as found.
theorem body0_run (c : Dev nD) (E : Set ℕ) (i : grid0.Coords)
    (arg1 : Memref sig .tc .vmem S5000x66 .f32) (harg1 : arg1.IsWhole) (arg2 : Memref sig .tc .vmem S66x128 .f32) (harg2 : arg2.IsWhole)
    (arg3 : Memref sig .tc .vmem S5000x1 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x66 .f32) (x1 : Vec F S66x128 .f32) (x2 : Vec F S5000x1 .f32) (d3 d4 : Vec F S5000x128 .f32) (K : PUnit → sProp 𝕄) :
    iprop(owns c arg1 fullShare x0 ∗ owns c arg2 fullShare x1 ∗ owns c arg3 fullShare x2
        ∗ owns c arg4 fullShare d3 ∗ owns c arg5 fullShare d4
        ∗ (iprop(owns c arg1 fullShare x0 ∗ owns c arg2 fullShare x1 ∗ owns c arg3 fullShare x2
            ∗ owns c arg4 fullShare (left0_3 x0 x1) ∗ owns c arg5 fullShare (left0_4 x0 x1 x2)) -∗ K ⟨⟩))
      ⊢ wp frame (wpE (defs₀ (F := F)) Variants.none c none) E (cc0__linear_scale_kernel i arg1 harg1 arg2 harg2 arg3 harg3 arg4 harg4 arg5 harg5) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%f3, -, H3⟩, ⟨%f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (View.cover_of_tiled _ S5000x128.size (by rfl))
  iexists _; isplitr
  swap; · iexact H4
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => left0_3 (blk0 V c 0 t) (blk0 V c 1 t)
    | ⟨4, _⟩ => left0_4 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_3 (c : Dev nD) (t : Fin cfg0.N) : (dat0 V c).after 3 t = left0_3 (blk0 V c 0 t) (blk0 V c 1 t) := by dsimp only [dat0]
theorem dat0_after_4 (c : Dev nD) (t : Fin cfg0.N) :
    (dat0 V c).after 4 t = left0_4 (blk0 V c 0 t) (blk0 V c 1 t) (blk0 V c 2 t) := by dsimp only [dat0]

-- The body leaves every operand block as it found it, so what it finds at any point is that point's block.
theorem dat0_before (c : Dev nD) (t : Fin cfg0.N) :
    (∀ d, (dat0 V c).before 0 t d = blk0 V c 0 t) ∧ (∀ d, (dat0 V c).before 1 t d = blk0 V c 1 t)
      ∧ ∀ d, (dat0 V c).before 2 t d = blk0 V c 2 t := by
  refine ⟨?_, ?_, ?_⟩ <;>
    exact fun d => ((dat0 V c).before_in_eq_fetched _ rfl (fun _ => rfl) (fun _ _ _ => rfl) (fun _ => rfl) t d).trans rfl

theorem body0_obligation (c : Dev nD) : BodyObligation (dat0 (F := F) V c) (defs₀ (F := F)) Variants.none () Set.univ := fun t => by
  obtain ⟨h0, h1, h2⟩ := dat0_before V c t
  simp only [bigSep_W0, h0, h1, h2]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩⟩
  iapply body0_run
  iframe
  iintro ⟨H0, H1, H2, H3, H4⟩
  iframe

end Cert.KernelIdeal.Hand

end
-- ==== Proof.KI.Post1.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_m : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

def left1_5 (x0 : Vec F S5000x128 .f32) (x1 : Vec F S5000x128 .f32) (x2 : Vec F S5000x1 .f32) (x3 : Vec F S5000x1 .f32)
    (x4 : Vec F S1x128 .f32) : Vec F S5000x128 .f32 :=
  View.canon [⟨r1_o, k1_pay1 (View.ld x0 r1_m) (View.ld x2 r1_d) (View.ld x1 r1_m) (View.ld x3 r1_d) (View.ld x4 r1_b)⟩]

-- The result is stored whole, once: its buffer ends as the closed form of that one store, and the operands are handed back as found.
theorem body1_run (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S5000x1 .f32) (x4 : Vec F S1x128 .f32)
    (d5 : Vec F S5000x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare d5
        ∗ (iprop(owns c arg1 fullShare x0 ∗ owns c arg2 fullShare x1 ∗ owns c arg3 fullShare x2
            ∗ owns c arg4 fullShare x3 ∗ owns c arg5 fullShare x4
            ∗ owns c arg6 fullShare (left1_5 x0 x1 x2 x3 x4)) -∗ K ⟨⟩))
      ⊢ wp frame (wpE (defs₀ (F := F)) Variants.none c none) E
          (cc1__postprocess_kernel i arg1 harg1 arg2 harg2 arg3 harg3 arg4 harg4 arg5 harg5 arg6 harg6) K := by
  simp only [cc1__postprocess_kernel_eq_skeleton]; unfold cc1__postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => left1_5 (blk1 V c 0 t) (blk1 V c 1 t) (blk1 V c 2 t) (blk1 V c 3 t) (blk1 V c 4 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_5 (c : Dev nD) (t : Fin cfg1.N) :
    (dat1 V c).after 5 t = left1_5 (blk1 V c 0 t) (blk1 V c 1 t) (blk1 V c 2 t) (blk1 V c 3 t) (blk1 V c 4 t) := by dsimp only [dat1]

-- The body leaves every operand block as it found it, so what it finds at any point is that point's block.
theorem dat1_before (c : Dev nD) (t : Fin cfg1.N) :
    (∀ d, (dat1 V c).before 0 t d = blk1 V c 0 t) ∧ (∀ d, (dat1 V c).before 1 t d = blk1 V c 1 t)
      ∧ (∀ d, (dat1 V c).before 2 t d = blk1 V c 2 t) ∧ (∀ d, (dat1 V c).before 3 t d = blk1 V c 3 t)
      ∧ ∀ d, (dat1 V c).before 4 t d = blk1 V c 4 t := by
  refine ⟨?_, ?_, ?_, ?_, ?_⟩ <;>
    exact fun d => ((dat1 V c).before_in_eq_fetched _ rfl (fun _ => rfl) (fun _ _ _ => rfl) (fun _ => rfl) t d).trans rfl

theorem body1_obligation (c : Dev nD) : BodyObligation (dat1 (F := F) V c) (defs₀ (F := F)) Variants.none () Set.univ := fun t => by
  obtain ⟨h0, h1, h2, h3, h4⟩ := dat1_before V c t
  simp only [bigSep_W1, h0, h1, h2, h3, h4]
  rw [show (dat1 V c).owesAt () t.succ = (dat1 V c).owesAt () t.castSucc from rfl]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply body1_run
  iframe
  iintro ⟨H0, H1, H2, H3, H4, H5⟩
  iframe

end Cert.KernelIdeal.Hand

end
-- ==== Proof.KI.Lin2.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_d : Rect S5000x1 := Rect.unit (s := S5000x1) ![0, 0] S5000x1.size inb_S5000x1_S5000x1_0_0
abbrev r2_o : Rect S5000x128 := Rect.unit (s := S5000x128) ![0, 0] S5000x128.size inb_S5000x128_S5000x128_0_0

def left2_3 (x0 : Vec F S5000x128 .f32) (x1 : Vec F S128x128 .f32) : Vec F S5000x128 .f32 :=
  View.canon [⟨r2_o, k2_pay1 (View.ld x0 r2_x) (View.ld x1 r2_w)⟩]

def left2_4 (x0 : Vec F S5000x128 .f32) (x1 : Vec F S128x128 .f32) (x2 : Vec F S5000x1 .f32) : Vec F S5000x128 .f32 :=
  View.canon [⟨r2_o, k2_pay2 (View.ld x0 r2_x) (View.ld x1 r2_w) (View.ld x2 r2_d)⟩]

-- Each result is stored whole, once: its buffer ends as the closed form of that one store, and the operands are handed back as found.
theorem body2_run (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x128 .f32) (x1 : Vec F S128x128 .f32) (x2 : Vec F S5000x1 .f32) (d3 d4 : Vec F S5000x128 .f32) (K : PUnit → sProp 𝕄) :
    iprop(owns c arg1 fullShare x0 ∗ owns c arg2 fullShare x1 ∗ owns c arg3 fullShare x2
        ∗ owns c arg4 fullShare d3 ∗ owns c arg5 fullShare d4
        ∗ (iprop(owns c arg1 fullShare x0 ∗ owns c arg2 fullShare x1 ∗ owns c arg3 fullShare x2
            ∗ owns c arg4 fullShare (left2_3 x0 x1) ∗ owns c arg5 fullShare (left2_4 x0 x1 x2)) -∗ K ⟨⟩))
      ⊢ wp frame (wpE (defs₀ (F := F)) Variants.none c none) E (cc2__linear_scale_kernel i arg1 harg1 arg2 harg2 arg3 harg3 arg4 harg4 arg5 harg5) K := by
  simp only [cc2__linear_scale_kernel_eq_skeleton]; unfold cc2__linear_scale_kernel_skel
  unfold owns
  iintro ⟨⟨%f0, %hf0, H0⟩, ⟨%f1, %hf1, H1⟩, ⟨%f2, %hf2, H2⟩, ⟨%f3, -, H3⟩, ⟨%f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (View.cover_of_tiled _ S5000x128.size (by rfl))
  iexists _; isplitr
  swap; · iexact H4
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => left2_3 (blk2 V c 0 t) (blk2 V c 1 t)
    | ⟨4, _⟩ => left2_4 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_3 (c : Dev nD) (t : Fin cfg2.N) : (dat2 V c).after 3 t = left2_3 (blk2 V c 0 t) (blk2 V c 1 t) := by dsimp only [dat2]
theorem dat2_after_4 (c : Dev nD) (t : Fin cfg2.N) :
    (dat2 V c).after 4 t = left2_4 (blk2 V c 0 t) (blk2 V c 1 t) (blk2 V c 2 t) := by dsimp only [dat2]

-- The body leaves every operand block as it found it, so what it finds at any point is that point's block.
theorem dat2_before (c : Dev nD) (t : Fin cfg2.N) :
    (∀ d, (dat2 V c).before 0 t d = blk2 V c 0 t) ∧ (∀ d, (dat2 V c).before 1 t d = blk2 V c 1 t)
      ∧ ∀ d, (dat2 V c).before 2 t d = blk2 V c 2 t := by
  refine ⟨?_, ?_, ?_⟩ <;>
    exact fun d => ((dat2 V c).before_in_eq_fetched _ rfl (fun _ => rfl) (fun _ _ _ => rfl) (fun _ => rfl) t d).trans rfl

theorem body2_obligation (c : Dev nD) : BodyObligation (dat2 (F := F) V c) (defs₀ (F := F)) Variants.none () Set.univ := fun t => by
  obtain ⟨h0, h1, h2⟩ := dat2_before V c t
  simp only [bigSep_W2, h0, h1, h2]
  rw [show (dat2 V c).owesAt () t.succ = (dat2 V c).owesAt () t.castSucc from rfl]
  dsimp only [dat2]
  show _ ⊢ wp _ _ _ (bodyAt2 t) _
  iintro ⟨HΦ, Ho, ⟨%d0, H0⟩, ⟨%d1, H1⟩, ⟨%d2, H2⟩, ⟨%d3, H3⟩, ⟨%d4, H4⟩⟩
  iapply body2_run
  iframe
  iintro ⟨H0, H1, H2, H3, H4⟩
  iframe

end Cert.KernelIdeal.Hand

end
-- ==== Proof.KI.Post3.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_m : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0
abbrev r3_o : Rect S5000x128 := Rect.unit (s := S5000x128) ![0, 0] S5000x128.size inb_S5000x128_S5000x128_0_0

def left3_5 (x0 : Vec F S5000x128 .f32) (x1 : Vec F S5000x128 .f32) (x2 : Vec F S5000x1 .f32) (x3 : Vec F S5000x1 .f32)
    (x4 : Vec F S1x128 .f32) : Vec F S5000x128 .f32 :=
  View.canon [⟨r3_o, k3_pay1 (View.ld x0 r3_m) (View.ld x2 r3_d) (View.ld x1 r3_m) (View.ld x3 r3_d) (View.ld x4 r3_b)⟩]

-- The result is stored whole, once: its buffer ends as the closed form of that one store, and the operands are handed back as found.
theorem body3_run (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S5000x1 .f32) (x4 : Vec F S1x128 .f32)
    (d5 : Vec F S5000x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare d5
        ∗ (iprop(owns c arg1 fullShare x0 ∗ owns c arg2 fullShare x1 ∗ owns c arg3 fullShare x2
            ∗ owns c arg4 fullShare x3 ∗ owns c arg5 fullShare x4
            ∗ owns c arg6 fullShare (left3_5 x0 x1 x2 x3 x4)) -∗ K ⟨⟩))
      ⊢ wp frame (wpE (defs₀ (F := F)) Variants.none c none) E
          (cc3__postprocess_kernel i arg1 harg1 arg2 harg2 arg3 harg3 arg4 harg4 arg5 harg5 arg6 harg6) K := by
  simp only [cc3__postprocess_kernel_eq_skeleton]; unfold cc3__postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => left3_5 (blk3 V c 0 t) (blk3 V c 1 t) (blk3 V c 2 t) (blk3 V c 3 t) (blk3 V c 4 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_5 (c : Dev nD) (t : Fin cfg3.N) :
    (dat3 V c).after 5 t = left3_5 (blk3 V c 0 t) (blk3 V c 1 t) (blk3 V c 2 t) (blk3 V c 3 t) (blk3 V c 4 t) := by dsimp only [dat3]

-- The body leaves every operand block as it found it, so what it finds at any point is that point's block.
theorem dat3_before (c : Dev nD) (t : Fin cfg3.N) :
    (∀ d, (dat3 V c).before 0 t d = blk3 V c 0 t) ∧ (∀ d, (dat3 V c).before 1 t d = blk3 V c 1 t)
      ∧ (∀ d, (dat3 V c).before 2 t d = blk3 V c 2 t) ∧ (∀ d, (dat3 V c).before 3 t d = blk3 V c 3 t)
      ∧ ∀ d, (dat3 V c).before 4 t d = blk3 V c 4 t := by
  refine ⟨?_, ?_, ?_, ?_, ?_⟩ <;>
    exact fun d => ((dat3 V c).before_in_eq_fetched _ rfl (fun _ => rfl) (fun _ _ _ => rfl) (fun _ => rfl) t d).trans rfl

theorem body3_obligation (c : Dev nD) : BodyObligation (dat3 (F := F) V c) (defs₀ (F := F)) Variants.none () Set.univ := fun t => by
  obtain ⟨h0, h1, h2, h3, h4⟩ := dat3_before V c t
  simp only [bigSep_W3, h0, h1, h2, h3, h4]
  rw [show (dat3 V c).owesAt () t.succ = (dat3 V c).owesAt () t.castSucc from rfl]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply body3_run
  iframe
  iintro ⟨H0, H1, H2, H3, H4, H5⟩
  iframe

end Cert.KernelIdeal.Hand

end
-- ==== Proof.KI.Lin4.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0
abbrev r4_d : Rect S5000x1 := Rect.unit (s := S5000x1) ![0, 0] S5000x1.size inb_S5000x1_S5000x1_0_0
abbrev r4_o : Rect S5000x128 := Rect.unit (s := S5000x128) ![0, 0] S5000x128.size inb_S5000x128_S5000x128_0_0

def left4_3 (x0 : Vec F S5000x128 .f32) (x1 : Vec F S128x128 .f32) : Vec F S5000x128 .f32 :=
  View.canon [⟨r4_o, k4_pay1 (View.ld x0 r4_x) (View.ld x1 r4_w)⟩]

def left4_4 (x0 : Vec F S5000x128 .f32) (x1 : Vec F S128x128 .f32) (x2 : Vec F S5000x1 .f32) : Vec F S5000x128 .f32 :=
  View.canon [⟨r4_o, k4_pay2 (View.ld x0 r4_x) (View.ld x1 r4_w) (View.ld x2 r4_d)⟩]

-- Each result is stored whole, once: its buffer ends as the closed form of that one store, and the operands are handed back as found.
theorem body4_run (c : Dev nD) (E : Set ℕ) (i : grid4.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x128 .f32) (x1 : Vec F S128x128 .f32) (x2 : Vec F S5000x1 .f32) (d3 d4 : Vec F S5000x128 .f32) (K : PUnit → sProp 𝕄) :
    iprop(owns c arg1 fullShare x0 ∗ owns c arg2 fullShare x1 ∗ owns c arg3 fullShare x2
        ∗ owns c arg4 fullShare d3 ∗ owns c arg5 fullShare d4
        ∗ (iprop(owns c arg1 fullShare x0 ∗ owns c arg2 fullShare x1 ∗ owns c arg3 fullShare x2
            ∗ owns c arg4 fullShare (left4_3 x0 x1) ∗ owns c arg5 fullShare (left4_4 x0 x1 x2)) -∗ K ⟨⟩))
      ⊢ wp frame (wpE (defs₀ (F := F)) Variants.none c none) E (cc4__linear_scale_kernel i arg1 harg1 arg2 harg2 arg3 harg3 arg4 harg4 arg5 harg5) K := by
  simp only [cc4__linear_scale_kernel_eq_skeleton]; unfold cc4__linear_scale_kernel_skel
  unfold owns
  iintro ⟨⟨%f0, %hf0, H0⟩, ⟨%f1, %hf1, H1⟩, ⟨%f2, %hf2, H2⟩, ⟨%f3, -, H3⟩, ⟨%f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (View.cover_of_tiled _ S5000x128.size (by rfl))
  iexists _; isplitr
  swap; · iexact H4
  ipureintro
  exact View.read_writes_eq_canon _ _ _ (View.cover_of_tiled _ S5000x128.size (by rfl))

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => left4_3 (blk4 V c 0 t) (blk4 V c 1 t)
    | ⟨4, _⟩ => left4_4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_3 (c : Dev nD) (t : Fin cfg4.N) : (dat4 V c).after 3 t = left4_3 (blk4 V c 0 t) (blk4 V c 1 t) := by dsimp only [dat4]
theorem dat4_after_4 (c : Dev nD) (t : Fin cfg4.N) :
    (dat4 V c).after 4 t = left4_4 (blk4 V c 0 t) (blk4 V c 1 t) (blk4 V c 2 t) := by dsimp only [dat4]

-- The body leaves every operand block as it found it, so what it finds at any point is that point's block.
theorem dat4_before (c : Dev nD) (t : Fin cfg4.N) :
    (∀ d, (dat4 V c).before 0 t d = blk4 V c 0 t) ∧ (∀ d, (dat4 V c).before 1 t d = blk4 V c 1 t)
      ∧ ∀ d, (dat4 V c).before 2 t d = blk4 V c 2 t := by
  refine ⟨?_, ?_, ?_⟩ <;>
    exact fun d => ((dat4 V c).before_in_eq_fetched _ rfl (fun _ => rfl) (fun _ _ _ => rfl) (fun _ => rfl) t d).trans rfl

theorem body4_obligation (c : Dev nD) : BodyObligation (dat4 (F := F) V c) (defs₀ (F := F)) Variants.none () Set.univ := fun t => by
  obtain ⟨h0, h1, h2⟩ := dat4_before V c t
  simp only [bigSep_W4, h0, h1, h2]
  rw [show (dat4 V c).owesAt () t.succ = (dat4 V c).owesAt () t.castSucc from rfl]
  dsimp only [dat4]
  show _ ⊢ wp _ _ _ (bodyAt4 t) _
  iintro ⟨HΦ, Ho, ⟨%d0, H0⟩, ⟨%d1, H1⟩, ⟨%d2, H2⟩, ⟨%d3, H3⟩, ⟨%d4, H4⟩⟩
  iapply body4_run
  iframe
  iintro ⟨H0, H1, H2, H3, H4⟩
  iframe

end Cert.KernelIdeal.Hand

end
-- ==== Proof.KI.Post5.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_m : Rect S5000x128 := Rect.unit (s := S5000x128) ![0, 0] S5000x128.size inb_S5000x128_S5000x128_0_0
abbrev r5_d : Rect S5000x1 := Rect.unit (s := S5000x1) ![0, 0] S5000x1.size inb_S5000x1_S5000x1_0_0
abbrev r5_b : Rect S1x128 := Rect.unit (s := S1x128) ![0, 0] S1x128.size inb_S1x128_S1x128_0_0
abbrev r5_o : Rect S5000x128 := Rect.unit (s := S5000x128) ![0, 0] S5000x128.size inb_S5000x128_S5000x128_0_0

def left5_5 (x0 : Vec F S5000x128 .f32) (x1 : Vec F S5000x128 .f32) (x2 : Vec F S5000x1 .f32) (x3 : Vec F S5000x1 .f32)
    (x4 : Vec F S1x128 .f32) : Vec F S5000x128 .f32 :=
  View.canon [⟨r5_o, k5_pay1 (View.ld x0 r5_m) (View.ld x2 r5_d) (View.ld x1 r5_m) (View.ld x3 r5_d) (View.ld x4 r5_b)⟩]

-- The result is stored whole, once: its buffer ends as the closed form of that one store, and the operands are handed back as found.
theorem body5_run (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S5000x1 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S5000x1 .f32) (x3 : Vec F S5000x1 .f32) (x4 : Vec F S1x128 .f32)
    (d5 : Vec F S5000x128 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare d5
        ∗ (iprop(owns c arg1 fullShare x0 ∗ owns c arg2 fullShare x1 ∗ owns c arg3 fullShare x2
            ∗ owns c arg4 fullShare x3 ∗ owns c arg5 fullShare x4
            ∗ owns c arg6 fullShare (left5_5 x0 x1 x2 x3 x4)) -∗ K ⟨⟩))
      ⊢ wp frame (wpE (defs₀ (F := F)) Variants.none c none) E
          (cc5__postprocess_kernel i arg1 harg1 arg2 harg2 arg3 harg3 arg4 harg4 arg5 harg5 arg6 harg6) K := by
  simp only [cc5__postprocess_kernel_eq_skeleton]; unfold cc5__postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => left5_5 (blk5 V c 0 t) (blk5 V c 1 t) (blk5 V c 2 t) (blk5 V c 3 t) (blk5 V c 4 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem dat5_after_5 (c : Dev nD) (t : Fin cfg5.N) :
    (dat5 V c).after 5 t = left5_5 (blk5 V c 0 t) (blk5 V c 1 t) (blk5 V c 2 t) (blk5 V c 3 t) (blk5 V c 4 t) := by dsimp only [dat5]

-- The body leaves every operand block as it found it, so what it finds at any point is that point's block.
theorem dat5_before (c : Dev nD) (t : Fin cfg5.N) :
    (∀ d, (dat5 V c).before 0 t d = blk5 V c 0 t) ∧ (∀ d, (dat5 V c).before 1 t d = blk5 V c 1 t)
      ∧ (∀ d, (dat5 V c).before 2 t d = blk5 V c 2 t) ∧ (∀ d, (dat5 V c).before 3 t d = blk5 V c 3 t)
      ∧ ∀ d, (dat5 V c).before 4 t d = blk5 V c 4 t := by
  refine ⟨?_, ?_, ?_, ?_, ?_⟩ <;>
    exact fun d => ((dat5 V c).before_in_eq_fetched _ rfl (fun _ => rfl) (fun _ _ _ => rfl) (fun _ => rfl) t d).trans rfl

theorem body5_obligation (c : Dev nD) : BodyObligation (dat5 (F := F) V c) (defs₀ (F := F)) Variants.none () Set.univ := fun t => by
  obtain ⟨h0, h1, h2, h3, h4⟩ := dat5_before V c t
  simp only [bigSep_W5, h0, h1, h2, h3, h4]
  rw [show (dat5 V c).owesAt () t.succ = (dat5 V c).owesAt () t.castSucc from rfl]
  dsimp only [dat5]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply body5_run
  iframe
  iintro ⟨H0, H1, H2, H3, H4, H5⟩
  iframe

end Cert.KernelIdeal.Hand

end
-- ==== Proof.KI.Bounds1.lean ====
import proofs.«400505_j77171972374635_2_alg».proof.Proof.KI.Lin0
import proofs.«400505_j77171972374635_2_alg».proof.Proof.KI.Post1
import proofs.«400505_j77171972374635_2_alg».proof.Proof.KI.Lin2
import proofs.«400505_j77171972374635_2_alg».proof.Proof.KI.Post3
import proofs.«400505_j77171972374635_2_alg».proof.Proof.KI.Lin4
import proofs.«400505_j77171972374635_2_alg».proof.Proof.KI.Post5
import proofs.«400505_j77171972374635_2_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Launch

variable {p : Fin 8} (c : Dev nD) (V : Valuation τ sig (Elt F))
  (dat : Dat τ (Elt F) Unit ℕ (UR sig nD τ) ℕ (cfgs p) c)

/-- The buffers after launch `p` entered at `V`: each window's array at its final contents, every other buffer as entered. -/
def afterL : Valuation τ sig (Elt F) := Pipeline.withArrays (cfgs p).spec c V fun w => dat.arrAt w (cfgs p).N

theorem afterL_arr (lf : Pipeline.LaunchFacts (nD := nD) (τ := τ) cfgs p) (w : Fin (cfgs p).W) :
    afterL c V dat (Proc.devRef .tc (Pipeline.arrRef (cfgs p).spec w)) = dat.arrAt w (cfgs p).N :=
  Pipeline.withArrays_arr _ lf.win.arr_inj c _ _ w

theorem afterL_rest (b : Ref sig .tc) (hb : b ∉ Finset.univ.image (Pipeline.arrRef (cfgs p).spec)) :
    afterL c V dat (Proc.devRef .tc b) = V (Proc.devRef .tc b) :=
  Pipeline.withArrays_of_ne _ c _ _ b fun w e => hb (Finset.mem_image.mpr ⟨w, Finset.mem_univ _, e⟩)

/-- Only an output window's array can differ from what it was on entry. -/
theorem afterL_keep (lf : Pipeline.LaunchFacts (nD := nD) (τ := τ) cfgs p) (hA : ∀ w, dat.A w = V (Proc.devRef .tc (Pipeline.arrRef (cfgs p).spec w))) (outs : List (Ref sig .tc))
    (hio : ∀ w, ((cfgs p).win w).isOut = true → Pipeline.arrRef (cfgs p).spec w ∈ outs) (b : Ref sig .tc) (hb : b ∉ outs) :
    afterL c V dat (Proc.devRef .tc b) = V (Proc.devRef .tc b) := by
  by_cases h : ∃ w, Pipeline.arrRef (cfgs p).spec w = b
  · obtain ⟨w, rfl⟩ := h
    rw [afterL_arr c V dat lf]
    cases hw : ((cfgs p).win w).isOut
    · exact (dat.arrAt_in w hw _).trans (hA w)
    · exact absurd (hio w hw) hb
  · exact afterL_rest c V dat b fun hm => h (by obtain ⟨w, -, e⟩ := Finset.mem_image.mp hm; exact ⟨w, e⟩)

end Launch

variable (m : (ℓ : Loc nD τ sig) → Buf (Elt F) ℓ) (ρ : Dev nD → PrngReg)

abbrev Bd0 : Dev nD → Valuation τ sig (Elt F) := fun c b => (s₀ m ρ).mem ((c : Dev nD), b)
abbrev Bd1 : Dev nD → Valuation τ sig (Elt F) := fun c => StableHlo.after hostOps0 (Bd0 m ρ c)
theorem Bd1_keep (c : Dev nD) (b : Ref sig .tc) (hb : b ∉ hostOps0_W) :
    Bd1 m ρ c (Proc.devRef .tc b) = Bd0 m ρ c (Proc.devRef .tc b) :=
  StableHlo.after_of_writes_sub hostOps0 _ hostOps0_writes hb
abbrev En0 : (c : Dev nD) → (b : Ref sig .tc) → Buf (Elt F) ((c : Thread nD τ).loc b) := fun c b => Bd1 m ρ c b
def Bd2 (c : Dev nD) : Valuation τ sig (Elt F) := afterL (p := 0) c (Bd1 m ρ c) (dat0 (En0 m ρ) c)
theorem Bd2_arr (c : Dev nD) (w : Fin cfg0.W) :
    Bd2 m ρ c (Proc.devRef .tc (Pipeline.arrRef spec0 w)) = (dat0 (En0 m ρ) c).arrAt w cfg0.N :=
  afterL_arr c _ _ launch0 w
theorem Bd2_keep (c : Dev nD) (b : Ref sig .tc) (hb : b ∉ ([main_v15_0, main_v15_1] : List (Ref sig .tc))) :
    Bd2 m ρ c (Proc.devRef .tc b) = Bd1 m ρ c (Proc.devRef .tc b) :=
  afterL_keep c _ _ launch0 (dat0_A (En0 m ρ) c) _ (by decide) b hb
abbrev Bd3 : Dev nD → Valuation τ sig (Elt F) := fun c => StableHlo.after hostOps1 (Bd2 m ρ c)
theorem Bd3_keep (c : Dev nD) (b : Ref sig .tc) (hb : b ∉ hostOps1_W) :
    Bd3 m ρ c (Proc.devRef .tc b) = Bd2 m ρ c (Proc.devRef .tc b) :=
  StableHlo.after_of_writes_sub hostOps1 _ hostOps1_writes hb
abbrev En1 : (c : Dev nD) → (b : Ref sig .tc) → Buf (Elt F) ((c : Thread nD τ).loc b) := fun c b => Bd3 m ρ c b
def Bd4 (c : Dev nD) : Valuation τ sig (Elt F) := afterL (p := 1) c (Bd3 m ρ c) (dat1 (En1 m ρ) c)
theorem Bd4_arr (c : Dev nD) (w : Fin cfg1.W) :
    Bd4 m ρ c (Proc.devRef .tc (Pipeline.arrRef spec1 w)) = (dat1 (En1 m ρ) c).arrAt w cfg1.N :=
  afterL_arr c _ _ launch1 w
theorem Bd4_keep (c : Dev nD) (b : Ref sig .tc) (hb : b ∉ ([main_v27] : List (Ref sig .tc))) :
    Bd4 m ρ c (Proc.devRef .tc b) = Bd3 m ρ c (Proc.devRef .tc b) :=
  afterL_keep c _ _ launch1 (dat1_A (En1 m ρ) c) _ (by decide) b hb
abbrev En2 : (c : Dev nD) → (b : Ref sig .tc) → Buf (Elt F) ((c : Thread nD τ).loc b) := fun c b => Bd4 m ρ c b
def Bd5 (c : Dev nD) : Valuation τ sig (Elt F) := afterL (p := 2) c (Bd4 m ρ c) (dat2 (En2 m ρ) c)
theorem Bd5_arr (c : Dev nD) (w : Fin cfg2.W) :
    Bd5 m ρ c (Proc.devRef .tc (Pipeline.arrRef spec2 w)) = (dat2 (En2 m ρ) c).arrAt w cfg2.N :=
  afterL_arr c _ _ launch2 w
theorem Bd5_keep (c : Dev nD) (b : Ref sig .tc) (hb : b ∉ ([main_v28_0, main_v28_1] : List (Ref sig .tc))) :
    Bd5 m ρ c (Proc.devRef .tc b) = Bd4 m ρ c (Proc.devRef .tc b) :=
  afterL_keep c _ _ launch2 (dat2_A (En2 m ρ) c) _ (by decide) b hb
abbrev Bd6 : Dev nD → Valuation τ sig (Elt F) := fun c => StableHlo.after hostOps3 (Bd5 m ρ c)
theorem Bd6_keep (c : Dev nD) (b : Ref sig .tc) (hb : b ∉ hostOps3_W) :
    Bd6 m ρ c (Proc.devRef .tc b) = Bd5 m ρ c (Proc.devRef .tc b) :=
  StableHlo.after_of_writes_sub hostOps3 _ hostOps3_writes hb
abbrev En3 : (c : Dev nD) → (b : Ref sig .tc) → Buf (Elt F) ((c : Thread nD τ).loc b) := fun c b => Bd6 m ρ c b
def Bd7 (c : Dev nD) : Valuation τ sig (Elt F) := afterL (p := 3) c (Bd6 m ρ c) (dat3 (En3 m ρ) c)
theorem Bd7_arr (c : Dev nD) (w : Fin cfg3.W) :
    Bd7 m ρ c (Proc.devRef .tc (Pipeline.arrRef spec3 w)) = (dat3 (En3 m ρ) c).arrAt w cfg3.N :=
  afterL_arr c _ _ launch3 w
theorem Bd7_keep (c : Dev nD) (b : Ref sig .tc) (hb : b ∉ ([main_v40] : List (Ref sig .tc))) :
    Bd7 m ρ c (Proc.devRef .tc b) = Bd6 m ρ c (Proc.devRef .tc b) :=
  afterL_keep c _ _ launch3 (dat3_A (En3 m ρ) c) _ (by decide) b hb
abbrev En4 : (c : Dev nD) → (b : Ref sig .tc) → Buf (Elt F) ((c : Thread nD τ).loc b) := fun c b => Bd7 m ρ c b
def Bd8 (c : Dev nD) : Valuation τ sig (Elt F) := afterL (p := 4) c (Bd7 m ρ c) (dat4 (En4 m ρ) c)
theorem Bd8_arr (c : Dev nD) (w : Fin cfg4.W) :
    Bd8 m ρ c (Proc.devRef .tc (Pipeline.arrRef spec4 w)) = (dat4 (En4 m ρ) c).arrAt w cfg4.N :=
  afterL_arr c _ _ launch4 w
theorem Bd8_keep (c : Dev nD) (b : Ref sig .tc) (hb : b ∉ ([main_v41_0, main_v41_1] : List (Ref sig .tc))) :
    Bd8 m ρ c (Proc.devRef .tc b) = Bd7 m ρ c (Proc.devRef .tc b) :=
  afterL_keep c _ _ launch4 (dat4_A (En4 m ρ) c) _ (by decide) b hb
abbrev Bd9 : Dev nD → Valuation τ sig (Elt F) := fun c => StableHlo.after hostOps5 (Bd8 m ρ c)
theorem Bd9_keep (c : Dev nD) (b : Ref sig .tc) (hb : b ∉ hostOps5_W) :
    Bd9 m ρ c (Proc.devRef .tc b) = Bd8 m ρ c (Proc.devRef .tc b) :=
  StableHlo.after_of_writes_sub hostOps5 _ hostOps5_writes hb
abbrev En5 : (c : Dev nD) → (b : Ref sig .tc) → Buf (Elt F) ((c : Thread nD τ).loc b) := fun c b => Bd9 m ρ c b
def Bd10 (c : Dev nD) : Valuation τ sig (Elt F) := afterL (p := 5) c (Bd9 m ρ c) (dat5 (En5 m ρ) c)
theorem Bd10_arr (c : Dev nD) (w : Fin cfg5.W) :
    Bd10 m ρ c (Proc.devRef .tc (Pipeline.arrRef spec5 w)) = (dat5 (En5 m ρ) c).arrAt w cfg5.N :=
  afterL_arr c _ _ launch5 w
theorem Bd10_keep (c : Dev nD) (b : Ref sig .tc) (hb : b ∉ ([main_v53] : List (Ref sig .tc))) :
    Bd10 m ρ c (Proc.devRef .tc b) = Bd9 m ρ c (Proc.devRef .tc b) :=
  afterL_keep c _ _ launch5 (dat5_A (En5 m ρ) c) _ (by decide) b hb
abbrev En6 : (c : Dev nD) → (b : Ref sig .tc) → Buf (Elt F) ((c : Thread nD τ).loc b) := fun c b => Bd10 m ρ c b

end Cert.KernelIdeal.Hand

end
-- ==== Proof.KI.Pool6.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def zero6a : Vec F S128x256 .f32 := k6_pay1

def zero6b : Vec F S1x256 .f32 := k6_pay2

def step6a (s0 : Vec F S128x256 .f32) (ids : Vec F S2000x1 .i32) (x : Vec F S2000x128 .f32) : Vec F S128x256 .f32 :=
  k6_pay4 ids x s0

def step6b (s1 : Vec F S1x256 .f32) (ids : Vec F S2000x1 .i32) : Vec F S1x256 .f32 := k6_pay5 ids s1

abbrev first6 (i : grid6.Coords) : Prop :=
  (Scalar.cmpi .ne (Scalar.extui (Scalar.cmpi .eq (BitVec.ofNat 32 (i 0).val) 0#32)) 0#32) = 1#1

abbrev last6 (i : grid6.Coords) : Prop := k6_cond2 i = 1#1

theorem first6_iff : ∀ t : Fin cfg6.N, first6 (grid6.coords t) ↔ t.val = 0 :=
  (by decide +kernel : ∀ t : Fin grid6.N, first6 (grid6.coords t) ↔ t.val = 0)

theorem last6_iff : ∀ t : Fin cfg6.N, last6 (grid6.coords t) ↔ t.val = 49 :=
  (by decide +kernel : ∀ t : Fin grid6.N, last6 (grid6.coords t) ↔ t.val = 49)

theorem off6 : (![0, 0] : Fin 2 → Nat) = fun _ => 0 := funext fun a => by fin_cases a <;> rfl

theorem read_writes_whole_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_of_cover_last v f v f ⟨Rect.unit off S.size inb, w⟩ L [] (View.mem_set_unit_zero h inb)).trans
    ((View.read_writes_eq_canon v f _ fun y => ⟨_, List.mem_singleton_self _, View.mem_set_unit_zero h inb y⟩).trans
      (View.canon_unit_zero h inb w))

theorem zero6a_eq : zero6a (F := F) = k6_pay1 := rfl
theorem zero6b_eq : zero6b (F := F) = k6_pay2 := rfl

theorem step6a_eq (s0 : Vec F S128x256 .f32) (ids : Vec F S2000x1 .i32) (x : Vec F S2000x128 .f32) :
    step6a s0 ids x = k6_pay4 ids x s0 := rfl

theorem step6b_eq (s1 : Vec F S1x256 .f32) (ids : Vec F S2000x1 .i32) : step6b s1 ids = k6_pay5 ids s1 := rfl

theorem readAt_whole {S : Shape} {e : EltTy} {sp : Space} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

set_option maxHeartbeats 1000000 in
theorem body6_run (c : Dev nD) (E : Set ℕ) (i : grid6.Coords) (hfl : ¬(first6 i ∧ last6 i))
    (arg1 : Memref sig .tc .vmem S2000x128 .f32) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S128x256 .f32) (harg5 : arg5.IsWhole) (arg6 : Memref sig .tc .vmem S1x256 .f32) (harg6 : arg6.IsWhole)
    (x : Vec F S2000x128 .f32) (ids : Vec F S2000x1 .i32) (o0 : Vec F S128x256 .f32) (o1 : Vec F S1x256 .f32)
    (s0 : Vec F S128x256 .f32) (s1 : Vec F S1x256 .f32) (K : PUnit → sProp 𝕄) :
    iprop(owns (c : Thread nD τ) arg1 fullShare x ∗ owns (c : Thread nD τ) arg2 fullShare ids
        ∗ owns (c : Thread nD τ) arg3 fullShare o0 ∗ owns (c : Thread nD τ) arg4 fullShare o1
        ∗ owns (c : Thread nD τ) arg5 fullShare s0 ∗ owns (c : Thread nD τ) arg6 fullShare s1
        ∗ (iprop(owns (c : Thread nD τ) arg1 fullShare x ∗ owns (c : Thread nD τ) arg2 fullShare ids
            ∗ owns (c : Thread nD τ) arg3 fullShare (if last6 i then step6a s0 ids x else o0)
            ∗ owns (c : Thread nD τ) arg4 fullShare (if last6 i then step6b s1 ids else o1)
            ∗ owns (c : Thread nD τ) arg5 fullShare (step6a (if first6 i then zero6a else s0) ids x)
            ∗ owns (c : Thread nD τ) arg6 fullShare (step6b (if first6 i then zero6b else s1) ids)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  by_cases h1 : first6 i <;> by_cases h2 : last6 i
  · exact absurd ⟨h1, h2⟩ hfl
  · simp only [if_pos h1, if_neg h2]
    sl_exec (disch := first | exact h1 | exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [step6a_eq, zero6a_eq]
      sl_unfold_words
      rw [read_writes_whole_last _ _ off6, View.readCov_unit_zero _ off6]
      repeat rw [readAt_whole _ _ off6]
    iexists _; isplitr
    swap; · iexact H5
    ipureintro
    rw [step6b_eq, zero6b_eq]
    sl_unfold_words
    rw [read_writes_whole_last _ _ off6, View.readCov_unit_zero _ off6]
    repeat rw [readAt_whole _ _ off6]
  · simp only [if_neg h1, if_pos h2]
    sl_exec (disch := first | exact h1 | exact h2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      rw [step6a_eq]
      sl_unfold_words
      rw [read_writes_whole_last _ _ off6, View.readCov_unit_zero _ off6]
      repeat rw [readAt_whole _ _ off6]
    isplitl [H3]
    · iexists _; isplitr
      swap; · iexact H3
      ipureintro
      rw [step6b_eq]
      sl_unfold_words
      rw [read_writes_whole_last _ _ off6, View.readCov_unit_zero _ off6]
      repeat rw [readAt_whole _ _ off6]
    isplitl [H4]
    · iexists _; isplitr
      swap; · iexact H4
      ipureintro
      rw [step6a_eq]
      sl_unfold_words
      rw [read_writes_whole_last _ _ off6]
      repeat rw [readAt_whole _ _ off6]
    iexists _; isplitr
    swap; · iexact H5
    ipureintro
    rw [step6b_eq]
    sl_unfold_words
    rw [read_writes_whole_last _ _ off6]
    repeat rw [readAt_whole _ _ off6]
  · simp only [if_neg h1, if_neg h2]
    sl_exec (disch := first | exact h1 | exact h2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      rw [step6a_eq, read_writes_whole_last _ _ off6]
      repeat rw [readAt_whole _ _ off6]
    iexists _; isplitr
    swap; · iexact H5
    ipureintro
    rw [step6b_eq, read_writes_whole_last _ _ off6]
    repeat rw [readAt_whole _ _ off6]

def acc6 (c : Dev nD) : (n : ℕ) → n < cfg6.N → Vec F S128x256 .f32 × Vec F S1x256 .f32
  | 0, h => (step6a zero6a (blk6 V c 1 ⟨0, h⟩) (blk6 V c 0 ⟨0, h⟩), step6b zero6b (blk6 V c 1 ⟨0, h⟩))
  | n + 1, h => (step6a (acc6 c n (Nat.lt_of_succ_lt h)).1 (blk6 V c 1 ⟨n + 1, h⟩) (blk6 V c 0 ⟨n + 1, h⟩),
      step6b (acc6 c n (Nat.lt_of_succ_lt h)).2 (blk6 V c 1 ⟨n + 1, h⟩))

theorem acc6_zero (c : Dev nD) (h : 0 < cfg6.N) :
    acc6 V c 0 h = (step6a zero6a (blk6 V c 1 ⟨0, h⟩) (blk6 V c 0 ⟨0, h⟩), step6b zero6b (blk6 V c 1 ⟨0, h⟩)) := rfl

theorem acc6_succ (c : Dev nD) (n : ℕ) (h : n + 1 < cfg6.N) :
    acc6 V c (n + 1) h = (step6a (acc6 V c n (Nat.lt_of_succ_lt h)).1 (blk6 V c 1 ⟨n + 1, h⟩) (blk6 V c 0 ⟨n + 1, h⟩),
      step6b (acc6 V c n (Nat.lt_of_succ_lt h)).2 (blk6 V c 1 ⟨n + 1, h⟩)) := rfl

theorem acc6_first (c : Dev nD) (t : Fin cfg6.N) (hz : t.val = 0) :
    acc6 V c t.val t.isLt = (step6a zero6a (blk6 V c 1 t) (blk6 V c 0 t), step6b zero6b (blk6 V c 1 t)) := by
  obtain ⟨_ | n, hn⟩ := t
  exacts [rfl, absurd hz (Nat.succ_ne_zero n)]

theorem acc6_pos (c : Dev nD) (t : Fin cfg6.N) (hz : t.val ≠ 0) :
    acc6 V c t.val t.isLt = (step6a (acc6 V c (t.val - 1) (Nat.lt_of_le_of_lt (Nat.sub_le _ _) t.isLt)).1 (blk6 V c 1 t) (blk6 V c 0 t),
      step6b (acc6 V c (t.val - 1) (Nat.lt_of_le_of_lt (Nat.sub_le _ _) t.isLt)).2 (blk6 V c 1 t)) := by
  obtain ⟨_ | n, hn⟩ := t
  exacts [absurd rfl hz, rfl]

abbrev sc6_0 : Memref sig .tc .vmem S128x256 .f32 := Memref.whole cc6_scratch0
abbrev sc6_1 : Memref sig .tc .vmem S1x256 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) sc6_0 fullShare d) ∗ (∃ d, owns (c : Thread nD τ) sc6_1 fullShare d)) ∗ rest6 c)
          ∗ (∃ r, prngReg c r)) := by
  unfold Pipeline.ΦA; rw [scopedRest6_split]; simp only [sc6_0, sc6_1, rest6, owns_whole]; try rfl

def Phi6 (c : Dev nD) : (n : ℕ) → n ≤ cfg6.N → sProp 𝕄
  | 0, _ => Pipeline.ΦA spec6 c
  | n + 1, hn => iprop(owns (c : Thread nD τ) sc6_0 fullShare (acc6 V c n hn).1 ∗ owns (c : Thread nD τ) sc6_1 fullShare (acc6 V c n hn).2
      ∗ rest6 c ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(owns (c : Thread nD τ) sc6_0 fullShare (acc6 V c n hn).1 ∗ owns (c : Thread nD τ) sc6_1 fullShare (acc6 V c n hn).2
      ∗ rest6 c ∗ (∃ r, prngReg c r)) := rfl

theorem Phi6_pos (c : Dev nD) (n : ℕ) (h : n ≤ cfg6.N) (hz : n ≠ 0) :
    Phi6 V c n h = iprop(owns (c : Thread nD τ) sc6_0 fullShare (acc6 V c (n - 1) (by omega)).1
      ∗ owns (c : Thread nD τ) sc6_1 fullShare (acc6 V c (n - 1) (by omega)).2 ∗ rest6 c ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => (acc6 V c t.val t.isLt).1
    | ⟨3, _⟩ => (acc6 V c t.val t.isLt).2
  Φ t := Phi6 V c t.val (Nat.le_of_lt_succ t.isLt)
  q _ := fullShare
  owed _ := 0

theorem dat6_A (c : Dev nD) (w : Fin cfg6.W) : (dat6 V c).A w = V c (Pipeline.arrRef spec6 w) := rfl

theorem dat6_after_0 (c : Dev nD) (t : Fin cfg6.N) : (dat6 V c).after 0 t = blk6 V c 0 t := rfl
theorem dat6_after_1 (c : Dev nD) (t : Fin cfg6.N) : (dat6 V c).after 1 t = blk6 V c 1 t := rfl
theorem dat6_after_2 (c : Dev nD) (t : Fin cfg6.N) : (dat6 V c).after 2 t = (acc6 V c t.val t.isLt).1 := rfl
theorem dat6_after_3 (c : Dev nD) (t : Fin cfg6.N) : (dat6 V c).after 3 t = (acc6 V c t.val t.isLt).2 := rfl

theorem dat6_Phi_castSucc (c : Dev nD) (t : Fin cfg6.N) :
    (dat6 V c).Φ t.castSucc = Phi6 V c t.val (Nat.le_of_lt t.isLt) := rfl

theorem dat6_before_0 (c : Dev nD) (t : Fin cfg6.N) (d) : (dat6 V c).before 0 t d = blk6 V c 0 t :=
  (dat6 V c).before_fetched 0 t (fetch6_0 t) d
theorem dat6_before_1 (c : Dev nD) (t : Fin cfg6.N) (d) : (dat6 V c).before 1 t d = blk6 V c 1 t :=
  (dat6 V c).before_fetched 1 t (fetch6_1 t) d

theorem live6_0 : ∀ t : Fin cfg6.N, cfg6.idle 0 (grid6.coords t) = false := by decide +kernel
theorem live6_1 : ∀ t : Fin cfg6.N, cfg6.idle 1 (grid6.coords t) = false := by decide +kernel

theorem idle6_2 : ∀ t : Fin cfg6.N, ¬last6 (grid6.coords t) → cfg6.idle 2 (grid6.coords t) = true := by decide +kernel
theorem idle6_3 : ∀ t : Fin cfg6.N, ¬last6 (grid6.coords t) → cfg6.idle 3 (grid6.coords t) = true := by decide +kernel
theorem noFlush6_2 : ∀ t : Fin cfg6.N, ¬last6 (grid6.coords t) → (cfg6.win 2).flush t = false := by decide +kernel
theorem noFlush6_3 : ∀ t : Fin cfg6.N, ¬last6 (grid6.coords t) → (cfg6.win 3).flush t = false := by decide +kernel
theorem live6_2 : ∀ t : Fin cfg6.N, last6 (grid6.coords t) → cfg6.idle 2 (grid6.coords t) = false := by decide +kernel
theorem live6_3 : ∀ t : Fin cfg6.N, last6 (grid6.coords t) → cfg6.idle 3 (grid6.coords t) = false := by decide +kernel

theorem leavesExact_live6 (c : Dev nD) (w : Fin cfg6.W) (t : Fin cfg6.N) (h : cfg6.idle w (grid6.coords t) = false) :
    (dat6 V c).leavesExact w t = owns (c : Thread nD τ) ((cfg6.win w).stage (cfg6.slots t w)) fullShare ((dat6 V c).after w t) := by
  unfold Dat.leavesExact; rw [h]

set_option maxHeartbeats 2000000 in
theorem body6_sound (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
      ⊢ wp frame (wpE (defs₀ (F := F)) Variants.none c none) Set.univ (bodyAt6 t) (fun _ =>
        iprop(Phi6 V c (t.val + 1) t.isLt ∗ (dat6 V c).owesAt () t.castSucc
          ∗ (dat6 V c).leavesExact 0 t ∗ (dat6 V c).leavesExact 1 t ∗ (dat6 V c).leavesExact 2 t ∗ (dat6 V c).leavesExact 3 t)) := by
  unfold bodyAt6
  simp only [dat6_before_0, dat6_before_1]
  rw [Phi6_succ, dat6_Phi_castSucc, leavesExact_live6 V c 0 t (live6_0 t), leavesExact_live6 V c 1 t (live6_1 t), dat6_after_0, dat6_after_1]
  have hN : t.val < 50 := lt_of_lt_of_eq t.isLt (show cfg6.N = 50 from N_6)
  have hfl : ¬(first6 (grid6.coords t) ∧ last6 (grid6.coords t)) := fun ⟨a, b⟩ => by
    have := (first6_iff t).mp a; have := (last6_iff t).mp b; omega
  by_cases hl : t.val = 49
  · have h1 : ¬first6 (grid6.coords t) := fun h => by have := (first6_iff t).mp h; omega
    have h2 : last6 (grid6.coords t) := (last6_iff t).mpr hl
    have hz : t.val ≠ 0 := by omega
    rw [leavesExact_live6 V c 2 t (live6_2 t h2), leavesExact_live6 V c 3 t (live6_3 t h2), dat6_after_2, dat6_after_3,
      Phi6_pos V c _ _ hz]
    simp only [acc6_pos V c t hz]
    iintro ⟨⟨HS0, HS1, HR, Hg⟩, Ho, ⟨%d0, H0⟩, ⟨%d1, H1⟩, ⟨%d2, H2⟩, ⟨%d3, H3⟩⟩
    iapply (body6_run c Set.univ (grid6.coords t) hfl _ _ _ _ _ _ _ _ _ _ _ _ (blk6 V c 0 t) (blk6 V c 1 t) _ _ _ _ _)
    simp only [if_neg h1, if_pos h2]
    iframe H0 H1 H2 H3 HS0 HS1
    iintro ⟨H0, H1, H2, H3, HS0, HS1⟩
    iframe
  · have h2 : ¬last6 (grid6.coords t) := fun h => hl ((last6_iff t).mp h)
    rw [Dat.leavesExact_idle (dat6 V c) 2 t (idle6_2 t h2) (noFlush6_2 t h2),
      Dat.leavesExact_idle (dat6 V c) 3 t (idle6_3 t h2) (noFlush6_3 t h2)]
    by_cases hz : t.val = 0
    · have h1 : first6 (grid6.coords t) := (first6_iff t).mpr hz
      rw [Phi6_zero V c _ _ hz, PhiA6_eq]
      simp only [acc6_first V c t hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩⟩
      iapply (body6_run c Set.univ (grid6.coords t) hfl _ _ _ _ _ _ _ _ _ _ _ _ (blk6 V c 0 t) (blk6 V c 1 t) _ _ _ _ _)
      simp only [if_pos h1, if_neg h2]
      iframe H0 H1 H2 H3 HS0 HS1
      iintro ⟨H0, H1, H2, H3, HS0, HS1⟩
      iframe HS0 HS1 HR Hg Ho H0 H1
      isplitl [H2]; · iexists _; iexact H2
      iexists _; iexact H3
    · have h1 : ¬first6 (grid6.coords t) := fun h => hz ((first6_iff t).mp h)
      rw [Phi6_pos V c _ _ hz]
      simp only [acc6_pos V c t hz]
      iintro ⟨⟨HS0, HS1, HR, Hg⟩, Ho, ⟨%d0, H0⟩, ⟨%d1, H1⟩, ⟨%d2, H2⟩, ⟨%d3, H3⟩⟩
      iapply (body6_run c Set.univ (grid6.coords t) hfl _ _ _ _ _ _ _ _ _ _ _ _ (blk6 V c 0 t) (blk6 V c 1 t) _ _ _ _ _)
      simp only [if_neg h1, if_neg h2]
      iframe H0 H1 H2 H3 HS0 HS1
      iintro ⟨H0, H1, H2, H3, HS0, HS1⟩
      iframe HS0 HS1 HR Hg Ho H0 H1
      isplitl [H2]; · iexists _; iexact H2
      iexists _; iexact H3

theorem body6_obligation (c : Dev nD) : BodyObligation (dat6 (F := F) V c) (defs₀ (F := F)) Variants.none () Set.univ := fun t => by
  rw [bigSep_W6, bigSep_W6]
  exact body6_sound V c t

theorem dat6_hin (c : Dev nD) : Pipeline.ΦA spec6 c ⊢ (dat6 V c).Φ 0 := by
  rw [show (dat6 V c).Φ 0 = Phi6 V c 0 (Nat.zero_le _) from rfl, Phi6_zero V c 0 _ rfl]

theorem dat6_hout (c : Dev nD) : (dat6 V c).Φ (Fin.last cfg6.N) ⊢ Pipeline.ΦA spec6 c := by
  have hne : (Fin.last cfg6.N).val ≠ 0 := by rw [Fin.val_last]; have : cfg6.N = 50 := N_6; omega
  rw [show (dat6 V c).Φ (Fin.last cfg6.N) = Phi6 V c (Fin.last cfg6.N).val (Nat.le_of_lt_succ (Fin.last cfg6.N).isLt) from rfl,
    Phi6_pos V c _ _ hne, PhiA6_eq]
  iintro ⟨HS0, HS1, HR, Hg⟩
  iframe HR Hg
  isplitl [HS0]; · iexists _; iexact HS0
  iexists _; iexact HS1

end Cert.KernelIdeal.Hand

end
-- ==== Proof.KI.Cls7.lean ====
import proofs.«400505_j77171972374635_2_alg».proof.Proof.Gen.KernelIdeal.Launch
import proofs.«400505_j77171972374635_2_alg».proof.Proof.Gen.KernelIdeal.Skeleton
import proofs.«400505_j77171972374635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_p : Rect S256x128 := Rect.unit (s := S256x128) ![0, 0] S256x128.size inb_S256x128_S256x128_0_0
abbrev r7_w : Rect S128x64 := Rect.unit (s := S128x64) ![0, 0] S128x64.size inb_S128x64_S128x64_0_0
abbrev r7_b : Rect S1x64 := Rect.unit (s := S1x64) ![0, 0] S1x64.size inb_S1x64_S1x64_0_0
abbrev r7_u : Rect S64x3 := Rect.unit (s := S64x3) ![0, 0] S64x3.size inb_S64x3_S64x3_0_0
abbrev r7_e : Rect S1x3 := Rect.unit (s := S1x3) ![0, 0] S1x3.size inb_S1x3_S1x3_0_0
abbrev r7_o : Rect S256x3 := Rect.unit (s := S256x3) ![0, 0] S256x3.size inb_S256x3_S256x3_0_0

def left7_5 (x0 : Vec F S256x128 .f32) (x1 : Vec F S128x64 .f32) (x2 : Vec F S1x64 .f32) (x3 : Vec F S64x3 .f32) (x4 : Vec F S1x3 .f32) : Vec F S256x3 .f32 :=
  View.canon [⟨r7_o, k7_pay1 (View.ld x0 r7_p) (View.ld x1 r7_w) (View.ld x2 r7_b) (View.ld x3 r7_u) (View.ld x4 r7_e)⟩]

theorem cover7_o (p0 : Vec F S256x3 .f32) (y : S256x3.Idx) :
    ∃ pc ∈ ([⟨r7_o, p0⟩] : List (View.Piece (Elt F) S256x3 .f32)), y ∈ pc.1.set :=
  View.cover_of_tiled [⟨r7_o, p0⟩] S256x3.size (by rfl) y

set_option maxHeartbeats 1000000 in

theorem body7_run (c : Dev nD) (E : Set ℕ) (i : grid7.Coords)
    (arg1 : Memref sig .tc .vmem S256x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x3 .f32) (harg4 : arg4.IsWhole)
    (arg5 : Memref sig .tc .vmem S1x3 .f32) (harg5 : arg5.IsWhole) (arg6 : Memref sig .tc .vmem S256x3 .f32) (harg6 : arg6.IsWhole)
    (x0 : Vec F S256x128 .f32) (x1 : Vec F S128x64 .f32) (x2 : Vec F S1x64 .f32) (x3 : Vec F S64x3 .f32) (x4 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (left7_5 x0 x1 x2 x3 x4)) -∗ K ⟨⟩))
      ⊢ wp frame (wpE (defs₀ (F := F)) Variants.none c none) E (cc7__classifier_kernel i arg1 harg1 arg2 harg2 arg3 harg3 arg4 harg4 arg5 harg5 arg6 harg6) K := by
  simp only [cc7__classifier_kernel_eq_skeleton]; unfold cc7__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_o _)

def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => left7_5 (blk7 V c 0 t) (blk7 V c 1 t) (blk7 V c 2 t) (blk7 V c 3 t) (blk7 V c 4 t)
  Φ _ := Pipeline.ΦA spec7 c
  q _ := fullShare
  owed _ := 0

theorem dat7_A (c : Dev nD) (w : Fin cfg7.W) : (dat7 V c).A w = V c (Pipeline.arrRef spec7 w) := rfl

theorem dat7_after_5 (c : Dev nD) (t : Fin cfg7.N) :
    (dat7 V c).after 5 t = left7_5 (blk7 V c 0 t) (blk7 V c 1 t) (blk7 V c 2 t) (blk7 V c 3 t) (blk7 V c 4 t) := rfl

theorem dat7_before_0 (c : Dev nD) (t : Fin cfg7.N) (d) : (dat7 V c).before 0 t d = blk7 V c 0 t :=
  (dat7 V c).before_fetched 0 t (fetch7_0 t) d
theorem dat7_before_1 (c : Dev nD) (t : Fin cfg7.N) (d) : (dat7 V c).before 1 t d = blk7 V c 1 t :=
  (dat7 V c).before_fetched 1 t (fetch7_1 t) d
theorem dat7_before_2 (c : Dev nD) (t : Fin cfg7.N) (d) : (dat7 V c).before 2 t d = blk7 V c 2 t :=
  (dat7 V c).before_fetched 2 t (fetch7_2 t) d
theorem dat7_before_3 (c : Dev nD) (t : Fin cfg7.N) (d) : (dat7 V c).before 3 t d = blk7 V c 3 t :=
  (dat7 V c).before_fetched 3 t (fetch7_3 t) d
theorem dat7_before_4 (c : Dev nD) (t : Fin cfg7.N) (d) : (dat7 V c).before 4 t d = blk7 V c 4 t :=
  (dat7 V c).before_fetched 4 t (fetch7_4 t) d

theorem body7_sound (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d)))
      ⊢ wp frame (wpE (defs₀ (F := F)) Variants.none c none) Set.univ (bodyAt7 t) (fun _ =>
        iprop((dat7 V c).Φ t.castSucc ∗ (dat7 V c).owesAt () t.castSucc
          ∗ owns (c : Thread nD τ) (st7_0 t) fullShare (blk7 V c 0 t)
          ∗ owns (c : Thread nD τ) (st7_1 t) fullShare (blk7 V c 1 t)
          ∗ owns (c : Thread nD τ) (st7_2 t) fullShare (blk7 V c 2 t)
          ∗ owns (c : Thread nD τ) (st7_3 t) fullShare (blk7 V c 3 t)
          ∗ owns (c : Thread nD τ) (st7_4 t) fullShare (blk7 V c 4 t)
          ∗ owns (c : Thread nD τ) (st7_5 t) fullShare
              (left7_5 (blk7 V c 0 t) (blk7 V c 1 t) (blk7 V c 2 t) (blk7 V c 3 t) (blk7 V c 4 t)))) := by
  unfold bodyAt7
  simp only [dat7_before_0, dat7_before_1, dat7_before_2, dat7_before_3, dat7_before_4]
  iintro ⟨HΦ, Ho, ⟨%d0, H0⟩, ⟨%d1, H1⟩, ⟨%d2, H2⟩, ⟨%d3, H3⟩, ⟨%d4, H4⟩, ⟨%d5, H5⟩⟩
  iapply (body7_run c Set.univ _ _ _ _ _ _ _ _ _ _ _ _ _ (blk7 V c 0 t) (blk7 V c 1 t) (blk7 V c 2 t) (blk7 V c 3 t) (blk7 V c 4 t) _)
  iframe H0 H1 H2 H3 H4
  isplitl [H5]; · iexists _; iexact H5
  iintro ⟨H0, H1, H2, H3, H4, H5⟩
  iframe

theorem body7_obligation (c : Dev nD) : BodyObligation (dat7 (F := F) V c) (defs₀ (F := F)) Variants.none () Set.univ := fun t => by
  rw [bigSep_W7, bigSep_W7]
  exact body7_sound V c t

end Cert.KernelIdeal.Hand

end
-- ==== Proof.KI.Bounds2.lean ====
import proofs.«400505_j77171972374635_2_alg».proof.Proof.KI.Bounds1
import proofs.«400505_j77171972374635_2_alg».proof.Proof.KI.Pool6
import proofs.«400505_j77171972374635_2_alg».proof.Proof.KI.Cls7

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def Bd11 (c : Dev nD) : Valuation τ sig (Elt F) := afterL (p := 6) c (Bd10 m ρ c) (dat6 (En6 m ρ) c)
theorem Bd11_arr (c : Dev nD) (w : Fin cfg6.W) :
    Bd11 m ρ c (Proc.devRef .tc (Pipeline.arrRef spec6 w)) = (dat6 (En6 m ρ) c).arrAt w cfg6.N :=
  afterL_arr c _ _ launch6 w
theorem Bd11_keep (c : Dev nD) (b : Ref sig .tc) (hb : b ∉ ([main_v54_0, main_v54_1] : List (Ref sig .tc))) :
    Bd11 m ρ c (Proc.devRef .tc b) = Bd10 m ρ c (Proc.devRef .tc b) :=
  afterL_keep c _ _ launch6 (dat6_A (En6 m ρ) c) _ (by decide) b hb
abbrev Bd12 : Dev nD → Valuation τ sig (Elt F) := fun c => StableHlo.after hostOps7 (Bd11 m ρ c)
theorem Bd12_keep (c : Dev nD) (b : Ref sig .tc) (hb : b ∉ hostOps7_W) :
    Bd12 m ρ c (Proc.devRef .tc b) = Bd11 m ρ c (Proc.devRef .tc b) :=
  StableHlo.after_of_writes_sub hostOps7 _ hostOps7_writes hb
abbrev En7 : (c : Dev nD) → (b : Ref sig .tc) → Buf (Elt F) ((c : Thread nD τ).loc b) := fun c b => Bd12 m ρ c b
def Bd13 (c : Dev nD) : Valuation τ sig (Elt F) := afterL (p := 7) c (Bd12 m ρ c) (dat7 (En7 m ρ) c)
theorem Bd13_arr (c : Dev nD) (w : Fin cfg7.W) :
    Bd13 m ρ c (Proc.devRef .tc (Pipeline.arrRef spec7 w)) = (dat7 (En7 m ρ) c).arrAt w cfg7.N :=
  afterL_arr c _ _ launch7 w
theorem Bd13_keep (c : Dev nD) (b : Ref sig .tc) (hb : b ∉ ([main_v63] : List (Ref sig .tc))) :
    Bd13 m ρ c (Proc.devRef .tc b) = Bd12 m ρ c (Proc.devRef .tc b) :=
  afterL_keep c _ _ launch7 (dat7_A (En7 m ρ) c) _ (by decide) b hb

end Cert.KernelIdeal.Hand

end
-- ==== Proof.KI.Run.lean ====
import proofs.«400505_j77171972374635_2_alg».proof.Proof.KI.Bounds2

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 8) → (c : Dev nD) → Dat τ (Elt F) Unit ℕ (UR sig nD τ) ℕ (cfgs p) c
  | ⟨0, _⟩ => fun c => dat0 (En0 m ρ) c
  | ⟨1, _⟩ => fun c => dat1 (En1 m ρ) c
  | ⟨2, _⟩ => fun c => dat2 (En2 m ρ) c
  | ⟨3, _⟩ => fun c => dat3 (En3 m ρ) c
  | ⟨4, _⟩ => fun c => dat4 (En4 m ρ) c
  | ⟨5, _⟩ => fun c => dat5 (En5 m ρ) c
  | ⟨6, _⟩ => fun c => dat6 (En6 m ρ) c
  | ⟨7, _⟩ => fun c => dat7 (En7 m ρ) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Bd13 m ρ c) ∗ ∃ r, prngReg c r)

set_option backward.isDefEq.respectTransparency.types false in
/-- One record serves all eight launches: what differs between them enters as arguments. -/
def reg (p : Fin 8) (lf : Pipeline.LaunchFacts (nD := nD) (τ := τ) cfgs p) (A B : Dev nD → Valuation τ sig (Elt F))
    (dat : (c : Dev nD) → Dat τ (Elt F) Unit ℕ (UR sig nD τ) ℕ (cfgs p) c) (hdat : ∀ c, pdats m ρ p c = dat c)
    (hbody : ∀ c, BodyObligation (dat c) (defs₀ (F := F)) Variants.none () Set.univ)
    (howed : ∀ c t, (dat c).owed t = 0) (hrec : ∀ c t, (dat c).recorded t = Set.univ) (hq : ∀ c w, (dat c).q w = fullShare)
    (hA : ∀ c w, (dat c).A w = A c (Proc.devRef .tc (Pipeline.arrRef (cfgs p).spec w)))
    (hin : ∀ c, (Pipeline.ΦA (cfgs p).spec c : sProp 𝕄) ⊢ (dat c).Φ 0)
    (hout : ∀ c, (dat c).Φ (Fin.last _) ⊢ (Pipeline.ΦA (cfgs p).spec c : sProp 𝕄))
    (hB : ∀ c, B c = afterL c (A c) (dat c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := by rw [hdat c]; exact (hbody c).loose
  hwaits := Pipeline.hwaits_of_owed_zero _ _ _ _ L lv p fun c t => by rw [hdat c]; exact howed c t
  pre c := iprop(StableHlo.held (c : Thread nD τ) (Pipeline.ucRefs τ sig) (A c) ∗ R c)
  post c := iprop(StableHlo.held (c : Thread nD τ) (Pipeline.ucRefs τ sig) (B c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => A c b
  hentry c := by
    have hsplit := Pipeline.arrays_of_unscopedBufs (p := p) (pcfgs (F := F)) adm (pdats m ρ) lf.win lf.arr_whole c
      (by rw [hdat c]; exact (dat c).share_full (hq c)) (fun b => A c b) (by rw [hdat c]; exact hA c)
    rw [Pipeline.unscopedBufs_held, hdat c] at hsplit
    rw [Pipeline.ownSems0_none, hdat c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    rw [hdat c]
    refine (?_ : _ ⊢ (Pipeline.ΦA (cfgs p).spec c : sProp 𝕄)).trans (hin c)
    unfold Pipeline.ΦA
    iintro ⟨Hp, -, Hr⟩
    isplitl [Hr]; · iexact Hr
    iexact Hp
  hout c := by
    rw [Pipeline.ownSems0_none, hdat c]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) (by rw [hdat c]; exact (dat c).share_full (hq c))
      (fun b => A c b) (fun b => B c b) ((dat c).arrAt · (cfgs p).N)
      (fun w => by rw [hB]; exact (afterL_arr c _ _ lf w).symm) (fun b hb => by rw [hB]; exact afterL_rest c _ _ b hb)
    rw [Pipeline.unscopedBufs_held, hdat c] at hjoin
    rw [hdat c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (Bd0 m ρ)),
    .region (reg m ρ 0 launch0 (Bd1 m ρ) (Bd2 m ρ) (dat0 (En0 m ρ)) (fun _ => rfl) (body0_obligation (En0 m ρ))
      (fun _ _ => rfl) (fun _ _ => rfl) (fun _ _ => rfl) (dat0_A (En0 m ρ)) (fun _ => .rfl) (fun _ => .rfl) fun _ => rfl),
    .host (hseg hostOps1 hostOps1_sub hostOps1_fresh (Bd2 m ρ)),
    .region (reg m ρ 1 launch1 (Bd3 m ρ) (Bd4 m ρ) (dat1 (En1 m ρ)) (fun _ => rfl) (body1_obligation (En1 m ρ))
      (fun _ _ => rfl) (fun _ _ => rfl) (fun _ _ => rfl) (dat1_A (En1 m ρ)) (fun _ => .rfl) (fun _ => .rfl) fun _ => rfl),
    .region (reg m ρ 2 launch2 (Bd4 m ρ) (Bd5 m ρ) (dat2 (En2 m ρ)) (fun _ => rfl) (body2_obligation (En2 m ρ))
      (fun _ _ => rfl) (fun _ _ => rfl) (fun _ _ => rfl) (dat2_A (En2 m ρ)) (fun _ => .rfl) (fun _ => .rfl) fun _ => rfl),
    .host (hseg hostOps3 hostOps3_sub hostOps3_fresh (Bd5 m ρ)),
    .region (reg m ρ 3 launch3 (Bd6 m ρ) (Bd7 m ρ) (dat3 (En3 m ρ)) (fun _ => rfl) (body3_obligation (En3 m ρ))
      (fun _ _ => rfl) (fun _ _ => rfl) (fun _ _ => rfl) (dat3_A (En3 m ρ)) (fun _ => .rfl) (fun _ => .rfl) fun _ => rfl),
    .region (reg m ρ 4 launch4 (Bd7 m ρ) (Bd8 m ρ) (dat4 (En4 m ρ)) (fun _ => rfl) (body4_obligation (En4 m ρ))
      (fun _ _ => rfl) (fun _ _ => rfl) (fun _ _ => rfl) (dat4_A (En4 m ρ)) (fun _ => .rfl) (fun _ => .rfl) fun _ => rfl),
    .host (hseg hostOps5 hostOps5_sub hostOps5_fresh (Bd8 m ρ)),
    .region (reg m ρ 5 launch5 (Bd9 m ρ) (Bd10 m ρ) (dat5 (En5 m ρ)) (fun _ => rfl) (body5_obligation (En5 m ρ))
      (fun _ _ => rfl) (fun _ _ => rfl) (fun _ _ => rfl) (dat5_A (En5 m ρ)) (fun _ => .rfl) (fun _ => .rfl) fun _ => rfl),
    .region (reg m ρ 6 launch6 (Bd10 m ρ) (Bd11 m ρ) (dat6 (En6 m ρ)) (fun _ => rfl) (body6_obligation (En6 m ρ))
      (fun _ _ => rfl) (fun _ _ => rfl) (fun _ _ => rfl) (dat6_A (En6 m ρ)) (dat6_hin (En6 m ρ)) (dat6_hout (En6 m ρ)) fun _ => rfl),
    .host (hseg hostOps7 hostOps7_sub hostOps7_fresh (Bd11 m ρ)),
    .region (reg m ρ 7 launch7 (Bd12 m ρ) (Bd13 m ρ) (dat7 (En7 m ρ)) (fun _ => rfl) (body7_obligation (En7 m ρ))
      (fun _ _ => rfl) (fun _ _ => rfl) (fun _ _ => rfl) (dat7_A (En7 m ρ)) (fun _ => .rfl) (fun _ => .rfl) fun _ => rfl) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = Bd13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (Bd13 m ρ c) ∗ R c) : sProp 𝕄)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd13 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd13 m ρ c) s')
      isplitl [Hh] <;> iassumption)
    (hQ := fun s h => h)

abbrev argRefs : List (Ref sig .tc) := [main_arg0, main_arg1, main_arg2, main_arg3, main_arg4, main_arg5, main_arg6, main_arg7, main_arg8, main_arg9, main_arg10, main_arg11, main_arg12]

/-- No item writes an argument array, which is why each ends as launched. -/
theorem args_untouched : ∀ b ∈ (argRefs : List (Ref sig .tc)),
    b ∉ hostOps0_W
    ∧ b ∉ ([main_v15_0, main_v15_1] : List (Ref sig .tc))
    ∧ b ∉ hostOps1_W
    ∧ b ∉ ([main_v27] : List (Ref sig .tc))
    ∧ b ∉ ([main_v28_0, main_v28_1] : List (Ref sig .tc))
    ∧ b ∉ hostOps3_W
    ∧ b ∉ ([main_v40] : List (Ref sig .tc))
    ∧ b ∉ ([main_v41_0, main_v41_1] : List (Ref sig .tc))
    ∧ b ∉ hostOps5_W
    ∧ b ∉ ([main_v53] : List (Ref sig .tc))
    ∧ b ∉ ([main_v54_0, main_v54_1] : List (Ref sig .tc))
    ∧ b ∉ hostOps7_W
    ∧ b ∉ ([main_v63] : List (Ref sig .tc)) := by
  decide

theorem Bd13_arg (c : Dev nD) (b : Ref sig .tc) (hb : b ∈ (argRefs : List (Ref sig .tc))) :
    Bd13 m ρ c (Proc.devRef .tc b) = m ((c : Thread nD τ).loc b) := by
  obtain ⟨h1, h2, h3, h4, h5, h6, h7, h8, h9, h10, h11, h12, h13⟩ := args_untouched b hb
  exact (Bd13_keep m ρ c b h13).trans <| (Bd12_keep m ρ c b h12).trans <| (Bd11_keep m ρ c b h11).trans <| (Bd10_keep m ρ c b h10).trans <| (Bd9_keep m ρ c b h9).trans <| (Bd8_keep m ρ c b h8).trans <| (Bd7_keep m ρ c b h7).trans <| (Bd6_keep m ρ c b h6).trans <| (Bd5_keep m ρ c b h5).trans <| (Bd4_keep m ρ c b h4).trans <| (Bd3_keep m ρ c b h3).trans <| (Bd2_keep m ρ c b h2).trans <| (Bd1_keep m ρ c b h1).trans <| rfl

theorem arg_end {c : Dev nD} {μ : (ℓ : Loc nD τ sig) → Buf (Elt F) ℓ} (h : ∀ b ∈ Pipeline.ucRefs τ sig, μ (((c : Thread nD τ)).1, b) = Bd13 m ρ c b)
    (b : Ref sig .tc) (hs : ¬ (Proc.devRef .tc b : DevRef τ sig).isScoped) (hb : b ∈ (argRefs : List (Ref sig .tc))) :
    μ ((c.tc : Thread nD τ).loc b) = m ((c.tc : Thread nD τ).loc b) :=
  (h _ (mem_uc b hs)).trans (Bd13_arg m ρ c b hb)

theorem run_result : θ_run defs (onTc (τ := τ) (main (F := F))) ⟨m, fun _ => 0, ρ⟩ (fun r => ∀ c : Dev nD,
      r.2.mem ((c.tc : Thread nD τ).loc main_v63) = Bd13 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v63 (by decide)),
      arg_end m ρ (h c) main_arg0 (by decide) (by decide),
      arg_end m ρ (h c) main_arg1 (by decide) (by decide),
      arg_end m ρ (h c) main_arg2 (by decide) (by decide),
      arg_end m ρ (h c) main_arg3 (by decide) (by decide),
      arg_end m ρ (h c) main_arg4 (by decide) (by decide),
      arg_end m ρ (h c) main_arg5 (by decide) (by decide),
      arg_end m ρ (h c) main_arg6 (by decide) (by decide),
      arg_end m ρ (h c) main_arg7 (by decide) (by decide),
      arg_end m ρ (h c) main_arg8 (by decide) (by decide),
      arg_end m ρ (h c) main_arg9 (by decide) (by decide),
      arg_end m ρ (h c) main_arg10 (by decide) (by decide),
      arg_end m ρ (h c) main_arg11 (by decide) (by decide),
      arg_end m ρ (h c) main_arg12 (by decide) (by decide)⟩) (run_all m ρ)

end Cert.KernelIdeal.Hand

end
-- ==== Proof.Frames.lean ====
import proofs.«400505_j77171972374635_2_alg».proof.Defs
import proofs.«400505_j77171972374635_2_alg».proof.Proof.KB.Run
import proofs.«400505_j77171972374635_2_alg».proof.Proof.KI.Run
import proofs.«400505_j77171972374635_2_alg».proof.Proof.Gen.ReferenceIdeal.Run
import proofs.«400505_j77171972374635_2_alg».proof.Proof.Gen.Pre_finite_inputs

noncomputable section

namespace Cert.Proof

open Idealize.ShloMosaic Idealize.SL.Sem

/-- Each kernel program's frame is its run with the result array's conjunct dropped. -/
theorem frame_kernel : Cert.frame_Kernel := fun m ρ _ =>
  (θ_run Cert.Kernel.defs _ _).mono (fun _ h c => (h c).2) (Cert.Kernel.Hand.run_result (F := Bits) m ρ)

theorem frame_kernelIdeal : Cert.frame_KernelIdeal := fun m ρ _ =>
  (θ_run Cert.KernelIdeal.defs _ _).mono (fun _ h c => (h c).2) (Cert.KernelIdeal.Hand.run_result (F := Ideal) m ρ)

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

end Cert.Proof

end
-- ==== Proof.KI.Carry.lean ====
import proofs.«400505_j77171972374635_2_alg».proof.Proof.KI.Run
import Idealize.ShloMosaic.Lib.ValueIdx
import Idealize.ShloMosaic.PureOps.Ideal

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-- `V` and `V'` hold the same buffer at every reference of `L`. -/
abbrev Same (L : List (Ref sig .tc)) (V V' : Valuation τ sig (Elt Ideal)) : Prop :=
  ∀ b ∈ L, V (Proc.devRef .tc b) = V' (Proc.devRef .tc b)

/-- A step that changes only the references of `W`, none of them in `L`, keeps what `L` holds. -/
theorem Same.step {L W : List (Ref sig .tc)} {V V' V'' : Valuation τ sig (Elt Ideal)}
    (k : ∀ b, b ∉ W → V (Proc.devRef .tc b) = V' (Proc.devRef .tc b)) (hW : ∀ b ∈ L, b ∉ W) (h : Same L V' V'') :
    Same L V V'' := fun b hb => (k b (hW b hb)).trans (h b hb)

theorem Bd1_arg : Same argRefs (Bd1 m ρ c) (Bd0 m ρ c) := Same.step (Bd1_keep m ρ c) (by decide) fun _ _ => rfl
theorem Bd2_arg : Same argRefs (Bd2 m ρ c) (Bd0 m ρ c) := Same.step (Bd2_keep m ρ c) (by decide) (Bd1_arg m ρ c)
theorem Bd3_arg : Same argRefs (Bd3 m ρ c) (Bd0 m ρ c) := Same.step (Bd3_keep m ρ c) (by decide) (Bd2_arg m ρ c)
theorem Bd4_arg : Same argRefs (Bd4 m ρ c) (Bd0 m ρ c) := Same.step (Bd4_keep m ρ c) (by decide) (Bd3_arg m ρ c)
theorem Bd5_arg : Same argRefs (Bd5 m ρ c) (Bd0 m ρ c) := Same.step (Bd5_keep m ρ c) (by decide) (Bd4_arg m ρ c)
theorem Bd6_arg : Same argRefs (Bd6 m ρ c) (Bd0 m ρ c) := Same.step (Bd6_keep m ρ c) (by decide) (Bd5_arg m ρ c)
theorem Bd7_arg : Same argRefs (Bd7 m ρ c) (Bd0 m ρ c) := Same.step (Bd7_keep m ρ c) (by decide) (Bd6_arg m ρ c)
theorem Bd8_arg : Same argRefs (Bd8 m ρ c) (Bd0 m ρ c) := Same.step (Bd8_keep m ρ c) (by decide) (Bd7_arg m ρ c)
theorem Bd9_arg : Same argRefs (Bd9 m ρ c) (Bd0 m ρ c) := Same.step (Bd9_keep m ρ c) (by decide) (Bd8_arg m ρ c)
theorem Bd10_arg : Same argRefs (Bd10 m ρ c) (Bd0 m ρ c) := Same.step (Bd10_keep m ρ c) (by decide) (Bd9_arg m ρ c)
theorem Bd11_arg : Same argRefs (Bd11 m ρ c) (Bd0 m ρ c) := Same.step (Bd11_keep m ρ c) (by decide) (Bd10_arg m ρ c)
theorem Bd12_arg : Same argRefs (Bd12 m ρ c) (Bd0 m ρ c) := Same.step (Bd12_keep m ρ c) (by decide) (Bd11_arg m ρ c)

abbrev carryRefs : List (Ref sig .tc) := [main_v1, main_v3, main_v4, main_v12, main_v14]

theorem Bd1_carry : Same carryRefs (Bd1 m ρ c) (Bd1 m ρ c) := fun _ _ => rfl
theorem Bd2_carry : Same carryRefs (Bd2 m ρ c) (Bd1 m ρ c) := Same.step (Bd2_keep m ρ c) (by decide) (Bd1_carry m ρ c)
theorem Bd3_carry : Same carryRefs (Bd3 m ρ c) (Bd1 m ρ c) := Same.step (Bd3_keep m ρ c) (by decide) (Bd2_carry m ρ c)
theorem Bd4_carry : Same carryRefs (Bd4 m ρ c) (Bd1 m ρ c) := Same.step (Bd4_keep m ρ c) (by decide) (Bd3_carry m ρ c)
theorem Bd5_carry : Same carryRefs (Bd5 m ρ c) (Bd1 m ρ c) := Same.step (Bd5_keep m ρ c) (by decide) (Bd4_carry m ρ c)
theorem Bd6_carry : Same carryRefs (Bd6 m ρ c) (Bd1 m ρ c) := Same.step (Bd6_keep m ρ c) (by decide) (Bd5_carry m ρ c)
theorem Bd7_carry : Same carryRefs (Bd7 m ρ c) (Bd1 m ρ c) := Same.step (Bd7_keep m ρ c) (by decide) (Bd6_carry m ρ c)
theorem Bd8_carry : Same carryRefs (Bd8 m ρ c) (Bd1 m ρ c) := Same.step (Bd8_keep m ρ c) (by decide) (Bd7_carry m ρ c)
theorem Bd9_carry : Same carryRefs (Bd9 m ρ c) (Bd1 m ρ c) := Same.step (Bd9_keep m ρ c) (by decide) (Bd8_carry m ρ c)
theorem Bd10_carry : Same carryRefs (Bd10 m ρ c) (Bd1 m ρ c) := Same.step (Bd10_keep m ρ c) (by decide) (Bd9_carry m ρ c)

end Cert.KernelIdeal.Hand

end
-- ==== Proof.LibRowDims.lean ====
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

theorem app_eq_of_val {α : Type*} {n0 n1 : Nat} (f : (⟨2, ![n0, n1]⟩ : Shape).Idx → α) {i j : (⟨2, ![n0, n1]⟩ : Shape).Idx}
    (h0 : (i 0).val = (j 0).val) (h1 : (i 1).val = (j 1).val) : f i = f j :=
  congrArg f (funext fun a => Fin.ext (by
    match a with
    | ⟨0, _⟩ => exact h0
    | ⟨1, _⟩ => exact h1))

theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by

  rw [← Equiv.sum_comp (contrEquiv1 (DotDims.plain M K N) K rfl rfl).symm]
  exact Finset.sum_congr rfl fun k _ => congrArg₂ (· * ·)
    (app_eq_of_val lhs rfl (((DotDims.plain M K N).lhsIdx_val_of_single (cl := 1) rfl _ _).trans
      (contrEquiv1_symm_val (DotDims.plain M K N) K rfl rfl k)))
    (app_eq_of_val rhs (((DotDims.plain M K N).rhsIdx_val_of_single (cr := 0) rfl _ _).trans
      (contrEquiv1_symm_val (DotDims.plain M K N) K rfl rfl k)) rfl)

theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

theorem zero_off : (![0, 0] : Fin 2 → Nat) = fun _ => 0 := funext fun a => by fin_cases a <;> rfl

-- Row i₀ lies in the block of B rows numbered i₀ / B, when block t starts at row t * B and spans every column.
theorem exists_rowBlock {T B C : Nat} (hB : 0 < B) (ix : Fin T → Fin 2 → Nat) (h : ∀ t, ix t 0 = t.val ∧ ix t 1 = 0)
    (i : Fin 2 → Nat) (h0 : i 0 < T * B) (h1 : i 1 < C) :
    ∃ t : Fin T, ∀ a : Fin 2, ix t a * ![B, C] a ≤ i a ∧ i a < ix t a * ![B, C] a + ![B, C] a := by
  have ht := (Nat.div_lt_iff_lt_mul hB).2 h0
  obtain ⟨e0, e1⟩ := h ⟨i 0 / B, ht⟩
  refine ⟨⟨i 0 / B, ht⟩, fun a => ?_⟩
  match a with
  | ⟨0, _⟩ =>
    show ix _ 0 * B ≤ i 0 ∧ i 0 < ix _ 0 * B + B
    rw [e0]; exact ⟨Nat.div_mul_le_self _ _, Nat.lt_div_mul_add hB⟩
  | ⟨1, _⟩ =>
    show ix _ 1 * C ≤ i 1 ∧ i 1 < ix _ 1 * C + C
    rw [e1]; omega

abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (v : BitVec w) : Fin N := ⟨min v.toInt.toNat (N - 1), by omega⟩

theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  have g0 : ((rowGather N C R wf).operandIdx (ix2 r c) idx 0).val = (clampRow N hN (idx (ix2 r 0))).val := by
    show (rowGather N C R wf).start (ix2 r c) idx 0 + (rowGather N C R wf).batchCoord (ix2 r c) 0
      + (rowGather N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C R wf).startIndexMap from List.mem_singleton.mpr rfl)]
    rw [rowGather_siIdx wf r c]
    rfl
  have g1 : ((rowGather N C R wf).operandIdx (ix2 r c) idx 1).val = c.val := by
    show (rowGather N C R wf).start (ix2 r c) idx 1 + (rowGather N C R wf).batchCoord (ix2 r c) 1
      + (rowGather N C R wf).offCoord (ix2 r c) 1 = _
    rw [GatherDims.batchCoord_eq_zero _ _ _ List.not_mem_nil]
    unfold GatherDims.start
    rw [dif_neg (show ¬ (1 : Fin 2) ∈ (rowGather N C R wf).startIndexMap from
      fun h => absurd (congrArg Fin.val (List.mem_singleton.mp h)) Nat.one_ne_zero)]
    simp only [Nat.add_zero, Nat.zero_add]
    rfl
  unfold Host.gather
  exact app_eq_of_val x g0 g1

abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

-- An update lands on result index j exactly when, on every axis, its start plus its window offset is j's coordinate.
theorem resultIdx?_eq_some_iff {s si su : Shape} (d : ScatterDims s si su) {w : Nat} (u : su.Idx) (idx : IVec si w)
    (j : s.Idx) : d.resultIdx? u idx = some j ↔ ∀ a, d.start u idx a + d.window u a = ((j a).val : Int) := by
  unfold ScatterDims.resultIdx?
  constructor
  · intro h a
    split at h
    · rename_i hin
      have e : (d.start u idx a + d.window u a).toNat = (j a).val := congrArg (fun f => (f a).val) (Option.some.inj h)
      have := hin a
      omega
    · exact absurd h (by simp)
  · intro h
    have hin : ∀ a, 0 ≤ d.start u idx a + d.window u a ∧ d.start u idx a + d.window u a < s.size a :=
      fun a => by rw [h a]; have := (j a).isLt; omega
    rw [dif_pos hin]
    congr 1
    funext a
    refine Fin.ext ?_
    show (d.start u idx a + d.window u a).toNat = (j a).val
    rw [h a]; omega

theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have k0 : (rowScatter N C R wf).start (ix2 r c) idx 0 + (rowScatter N C R wf).window (ix2 r c) 0
      = (idx (ix2 r 0)).toInt := by
    unfold ScatterDims.start
    rw [dif_pos (show (0 : Fin 2) ∈ (rowScatter N C R wf).scatterDimsToOperandDims from List.mem_singleton.mpr rfl),
      rowScatter_siIdx wf r c]
    exact Int.add_zero _
  have k1 : (rowScatter N C R wf).start (ix2 r c) idx 1 + (rowScatter N C R wf).window (ix2 r c) 1 = (c.val : Int) := by
    unfold ScatterDims.start
    rw [dif_neg (show ¬ (1 : Fin 2) ∈ (rowScatter N C R wf).scatterDimsToOperandDims from
      fun h => absurd (congrArg Fin.val (List.mem_singleton.mp h)) Nat.one_ne_zero)]
    exact Int.zero_add _
  rw [resultIdx?_eq_some_iff]
  constructor
  · intro h
    have e : (c.val : Int) = (b.val : Int) := k1.symm.trans (h 1)
    exact ⟨k0.symm.trans (h 0), Fin.ext (by omega)⟩
  · rintro ⟨hv, rfl⟩ a'
    match a' with
    | ⟨0, _⟩ => exact k0.trans hv
    | ⟨1, _⟩ => exact k1

theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1

  rw [Finset.sum_filter, sum_idx2]
  refine Finset.sum_congr rfl fun r _ => ?_
  simp only [rowScatter_resultIdx?_eq_some_iff]

  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
import proofs.«400505_j77171972374635_2_alg».proof.Proof.LibRowDims
import Idealize.ShloMosaic.PureOps.Ideal
import Idealize.ShloMosaic.PureOps.Ideal.Laws
import Idealize.ShloMosaic.Lib.ValueIdx
import Mathlib.Data.EReal.Operations

noncomputable section

open scoped BigOperators

namespace Cert.Spec

open Idealize.ShloMosaic

def lit1 : EReal := Ideal.ofBits .f32 0x3F800000#32

theorem lit1_eq : lit1 = 1 := by

  simp [lit1, Ideal.ofBits, Ideal.ieee, -EReal.coe_mul]
  norm_num

def gRow (v : BitVec 32) : Fin 100000 :=
  Idealize.ShloMosaic.RowDims.clampRow 100000 (by decide) (if v.slt 0#32 then v + 100000#32 else v)

theorem gRow_of_toInt {v : BitVec 32} {p : Fin 100000} (h : v.toInt = (p.val : Int)) : gRow v = p := by
  have hp := p.isLt

  have hneg : v.slt 0#32 = false := by
    unfold BitVec.slt
    rw [h]
    simp
  unfold gRow
  rw [hneg]

  refine Fin.ext ?_
  show min (if false = true then v + 100000#32 else v).toInt.toNat (100000 - 1) = p.val
  rw [if_neg (by decide), h]
  omega

theorem sum_ite_one_real {ι : Type} (s : Finset ι) (c : ι → Prop) [DecidablePred c] :
    ∃ r : ℝ, 0 ≤ r ∧ (∑ e ∈ s, if c e then (1 : EReal) else 0) = (r : EReal) := by
  classical
  induction s using Finset.induction_on with
  | empty => exact ⟨0, le_refl _, by simp⟩
  | insert a s ha ih =>
    obtain ⟨r, hr, e⟩ := ih
    rw [Finset.sum_insert ha, e]
    by_cases h : c a
    ·
      refine ⟨1 + r, by linarith, ?_⟩
      rw [if_pos h, EReal.coe_add, EReal.coe_one]
    ·
      exact ⟨r, hr, by rw [if_neg h, zero_add]⟩

theorem sum_mul_of_nonneg_of_ne_top {ι : Type} (s : Finset ι) (f : ι → EReal) {d : EReal} (hd : 0 ≤ d) (hd' : d ≠ ⊤) :
    (∑ e ∈ s, f e) * d = ∑ e ∈ s, f e * d := by
  classical
  induction s using Finset.induction_on with
  | empty => rw [Finset.sum_empty, Finset.sum_empty, zero_mul]
  | insert a s ha ih =>
    rw [Finset.sum_insert ha, Finset.sum_insert ha, EReal.right_distrib_of_nonneg_of_ne_top hd hd', ih]

variable (src dst : Fin 1600000 → BitVec 32)

def deg (i : Fin 100000) : EReal :=
  ((0 : EReal) + ∑ e : Fin 1600000, if (dst e).toInt = (i.val : Int) then lit1 else 0) + lit1

def dis (i : Fin 100000) : EReal := Ideal.rsqrt (deg dst i)

theorem deg_real (i : Fin 100000) : ∃ r : ℝ, 1 ≤ r ∧ deg dst i = (r : EReal) := by
  obtain ⟨r, hr, e⟩ := sum_ite_one_real Finset.univ (fun e : Fin 1600000 => (dst e).toInt = (i.val : Int))
  refine ⟨r + 1, by linarith, ?_⟩
  unfold deg
  rw [lit1_eq, e, zero_add, EReal.coe_add, EReal.coe_one]

theorem dis_real (i : Fin 100000) : ∃ r : ℝ, 0 ≤ r ∧ dis dst i = (r : EReal) := by
  obtain ⟨r, hr, e⟩ := deg_real dst i
  refine ⟨(Real.sqrt r)⁻¹, inv_nonneg.mpr (Real.sqrt_nonneg r), ?_⟩
  unfold dis
  rw [e, Ideal.rsqrt_coe, if_neg (by linarith), if_neg (by linarith)]

theorem dis_nonneg (i : Fin 100000) : 0 ≤ dis dst i := by
  obtain ⟨r, hr, e⟩ := dis_real dst i
  rw [e]
  exact EReal.coe_nonneg.mpr hr

theorem dis_ne_top (i : Fin 100000) : dis dst i ≠ ⊤ := by
  obtain ⟨r, _, e⟩ := dis_real dst i
  rw [e]
  exact EReal.coe_ne_top r

def prod {M K N : Nat} (a : Fin M → Fin K → EReal) (b : Fin K → Fin N → EReal) (p : Fin M) (q : Fin N) : EReal :=
  ∑ k : Fin K, a p k * b k q

def act (relu : Bool) (x : EReal) : EReal := if relu then max x 0 else x

def layerK (relu : Bool) {K : Nat} (x : Fin 100000 → Fin K → EReal) (w : Fin K → Fin 128 → EReal) (b : Fin 128 → EReal)
    (p : Fin 100000) (q : Fin 128) : EReal :=
  act relu ((((0 : EReal) + ∑ e : Fin 1600000, if (dst e).toInt = (p.val : Int)
        then prod x w (gRow (src e)) q * dis dst (gRow (src e)) else 0) * dis dst p
      + prod x w p q * (dis dst p * dis dst p)) + b q)

def layerR (relu : Bool) {K : Nat} (x : Fin 100000 → Fin K → EReal) (w : Fin K → Fin 128 → EReal) (b : Fin 128 → EReal)
    (p : Fin 100000) (q : Fin 128) : EReal :=
  act relu ((((0 : EReal) + ∑ e : Fin 1600000, if (dst e).toInt = (p.val : Int)
        then prod x w (gRow (src e)) q * (dis dst (gRow (src e)) * dis dst (gRow (dst e))) else 0)
      + prod x w p q * (dis dst p * dis dst p)) + b q)

theorem layerK_eq_layerR (relu : Bool) {K : Nat} (x : Fin 100000 → Fin K → EReal) (w : Fin K → Fin 128 → EReal)
    (b : Fin 128 → EReal) : layerK src dst relu x w b = layerR src dst relu x w b := by
  funext p q
  have hd := dis_nonneg dst p
  have hd' := dis_ne_top dst p

  have key : ((0 : EReal) + ∑ e : Fin 1600000, if (dst e).toInt = (p.val : Int)
        then prod x w (gRow (src e)) q * dis dst (gRow (src e)) else 0) * dis dst p
      = (0 : EReal) + ∑ e : Fin 1600000, if (dst e).toInt = (p.val : Int)
        then prod x w (gRow (src e)) q * (dis dst (gRow (src e)) * dis dst (gRow (dst e))) else 0 := by
    rw [zero_add, zero_add, sum_mul_of_nonneg_of_ne_top _ _ hd hd']
    refine Finset.sum_congr rfl fun e _ => ?_
    by_cases h : (dst e).toInt = (p.val : Int)
    · rw [if_pos h, if_pos h, gRow_of_toInt h, mul_assoc]
    · rw [if_neg h, if_neg h, zero_mul]
  unfold layerK layerR
  rw [key]

variable (batch : Fin 100000 → BitVec 32)

def poolSum (h : Fin 100000 → Fin 128 → EReal) (g : Fin 256) (f : Fin 128) : EReal :=
  (0 : EReal) + ∑ n : Fin 100000, if (batch n).toInt = (g.val : Int) then h n f else 0

def poolCnt (g : Fin 256) : EReal :=
  (0 : EReal) + ∑ n : Fin 100000, if (batch n).toInt = (g.val : Int) then lit1 else 0

def pooled (h : Fin 100000 → Fin 128 → EReal) (g : Fin 256) (f : Fin 128) : EReal :=
  Ideal.div (poolSum batch h g f) (max (poolCnt batch g) lit1)

def cls (p : Fin 256 → Fin 128 → EReal) (w4 : Fin 128 → Fin 64 → EReal) (b4 : Fin 64 → EReal) (w5 : Fin 64 → Fin 3 → EReal)
    (b5 : Fin 3 → EReal) (g : Fin 256) (k : Fin 3) : EReal :=
  (∑ j : Fin 64, max (prod p w4 g j + b4 j) 0 * w5 j k) + b5 k

def netK (x : Fin 100000 → Fin 66 → EReal) (w1 : Fin 66 → Fin 128 → EReal) (b1 : Fin 128 → EReal)
    (w2 : Fin 128 → Fin 128 → EReal) (b2 : Fin 128 → EReal) (w3 : Fin 128 → Fin 128 → EReal) (b3 : Fin 128 → EReal)
    (w4 : Fin 128 → Fin 64 → EReal) (b4 : Fin 64 → EReal) (w5 : Fin 64 → Fin 3 → EReal) (b5 : Fin 3 → EReal) : Fin 256 → Fin 3 → EReal :=
  cls (pooled batch (layerK src dst false (layerK src dst true (layerK src dst true x w1 b1) w2 b2) w3 b3)) w4 b4 w5 b5

def netR (x : Fin 100000 → Fin 66 → EReal) (w1 : Fin 66 → Fin 128 → EReal) (b1 : Fin 128 → EReal)
    (w2 : Fin 128 → Fin 128 → EReal) (b2 : Fin 128 → EReal) (w3 : Fin 128 → Fin 128 → EReal) (b3 : Fin 128 → EReal)
    (w4 : Fin 128 → Fin 64 → EReal) (b4 : Fin 64 → EReal) (w5 : Fin 64 → Fin 3 → EReal) (b5 : Fin 3 → EReal) : Fin 256 → Fin 3 → EReal :=
  cls (pooled batch (layerR src dst false (layerR src dst true (layerR src dst true x w1 b1) w2 b2) w3 b3)) w4 b4 w5 b5

theorem netK_eq_netR (x : Fin 100000 → Fin 66 → EReal) (w1 : Fin 66 → Fin 128 → EReal) (b1 : Fin 128 → EReal)
    (w2 : Fin 128 → Fin 128 → EReal) (b2 : Fin 128 → EReal) (w3 : Fin 128 → Fin 128 → EReal) (b3 : Fin 128 → EReal)
    (w4 : Fin 128 → Fin 64 → EReal) (b4 : Fin 64 → EReal) (w5 : Fin 64 → Fin 3 → EReal) (b5 : Fin 3 → EReal) :
    netK src dst batch x w1 b1 w2 b2 w3 b3 w4 b4 w5 b5 = netR src dst batch x w1 b1 w2 b2 w3 b3 w4 b4 w5 b5 := by
  unfold netK netR
  simp only [layerK_eq_layerR]

end Cert.Spec

end
-- ==== Proof.LibRow1.lean ====
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate
import proofs.«400505_j77171972374635_2_alg».proof.Proof.LibRowDims

noncomputable section

open scoped BigOperators

namespace Idealize.ShloMosaic.RowDims

open Idealize.ShloMosaic Idealize.ShloMosaic.ValueIdx

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev vecGather (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGather N R wf) x idx (ix1 r) = x (ix1 (clampRow N hN (idx (ix2 r 0)))) := by
  have e : ∀ {n : Nat} (a : Fin n), (ix1 a : (⟨1, ![n]⟩ : Shape).Idx) = Shape.Idx.ofFin a :=
    fun a => funext fun d => by match d with | ⟨0, _⟩ => exact Fin.ext rfl
  rw [e, e, show (ix2 r 0 : (⟨2, ![R, 1]⟩ : Shape).Idx) = StableHlo.Predicate.ixP r from
    funext fun d => by match d with | ⟨0, _⟩ => rfl | ⟨1, _⟩ => rfl]
  exact StableHlo.Predicate.gather_take (vecGather N R wf) rfl rfl rfl rfl x idx r hN

abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem vecScatter_siIdx {N R : Nat} (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have k0 : (vecScatter N R wf).start (ix1 r) idx 0 + (vecScatter N R wf).window (ix1 r) 0 = (idx (ix2 r 0)).toInt := by
    unfold ScatterDims.start
    rw [dif_pos (show (0 : Fin 1) ∈ (vecScatter N R wf).scatterDimsToOperandDims from List.mem_singleton.mpr rfl),
      vecScatter_siIdx wf r]
    exact Int.add_zero _
  rw [resultIdx?_eq_some_iff]
  constructor
  · intro h; exact k0.symm.trans (h 0)
  · intro hv a'
    match a' with
    | ⟨0, _⟩ => exact k0.trans hv

theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1

  rw [Finset.sum_filter, sum_idx1]
  refine Finset.sum_congr rfl fun r _ => ?_
  simp only [vecScatter_resultIdx?_eq_some_iff]

end Idealize.ShloMosaic.RowDims

end
-- ==== Proof.KI.HostVal0.lean ====
import proofs.«400505_j77171972374635_2_alg».proof.Proof.Gen.KernelIdeal.Launch
import proofs.«400505_j77171972374635_2_alg».proof.Proof.Spec
import proofs.«400505_j77171972374635_2_alg».proof.Proof.LibRowDims
import proofs.«400505_j77171972374635_2_alg».proof.Proof.LibRow1
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open scoped BigOperators
open Idealize.ShloMosaic Idealize.ShloMosaic.TcCoe Idealize.SL.Sem Idealize.ShloMosaic.ValueIdx Cert.KernelIdeal Cert.KernelIdeal.Gen

variable (W : Valuation τ sig (Elt Ideal))

theorem h0_node_col_apply {α : Type} (x : S100000.Idx → α) (n : Fin 100000) :
    shapeCast S100000x1 x shapeCasts_S100000_S100000x1 (ix2 n 0) = x (ix1 n) :=
  shapeCast_apply x _ _ _ (by
    rw [Shape.rowMajor_val_one, Shape.rowMajor_val_two]
    show n.val = n.val * 1 + 0
    omega)

theorem host0_src (e : Fin 1600000) :
    (StableHlo.after (hostOps0 (F := Ideal)) W (Proc.devRef .tc main_v1) : S1600000.Idx → BitVec 32) (ix1 e)
      = (W (Proc.devRef .tc main_arg1) : S2x1600000.Idx → BitVec 32) (ix2 0 e) := by
  after_results
  exact (shapeCast_1a_a_apply _ _ e).trans (slice2_axis0_apply 0 _ _ 0 e 0 rfl)

theorem h0_dst_vec_apply {α : Type} (x : S2x1600000.Idx → α) (e : Fin 1600000) :
    shapeCast S1600000 (extractStridedSlice S1x1600000 ![1, 0] x slices_S2x1600000_S1x1600000_1_0)
        shapeCasts_S1x1600000_S1600000 (ix1 e) = x (ix2 1 e) :=
  (shapeCast_1a_a_apply _ _ e).trans (slice2_axis0_apply 1 _ _ 0 e 1 rfl)

theorem host0_dst (e : Fin 1600000) :
    (StableHlo.after (hostOps0 (F := Ideal)) W (Proc.devRef .tc main_v3) : S1600000.Idx → BitVec 32) (ix1 e)
      = (W (Proc.devRef .tc main_arg1) : S2x1600000.Idx → BitVec 32) (ix2 1 e) := by
  after_results
  exact h0_dst_vec_apply _ e

theorem host0_batch (n : Fin 100000) :
    (StableHlo.after (hostOps0 (F := Ideal)) W (Proc.devRef .tc main_v4) : S100000x1.Idx → BitVec 32) (ix2 n 0)
      = (W (Proc.devRef .tc main_arg2) : S100000.Idx → BitVec 32) (ix1 n) := by
  after_results
  exact h0_node_col_apply _ n

theorem h0_scatter_vec_eq :
    scatter_S100000_S1600000x1_S1600000_n_0_0_1 = RowDims.vecScatter 100000 1600000 scatter_S100000_S1600000x1_S1600000_n_0_0_1_wf := rfl

theorem h0_edge_col_apply {α : Type} (x : S1600000.Idx → α) (e : Fin 1600000) :
    broadcastInDim S1600000x1 ![0] bcast_S1600000_S1600000x1_0 x (ix2 e 0) = x (ix1 e) :=
  broadcastInDim_apply _ _ x _ _ fun a => match a with | ⟨0, _⟩ => rfl

theorem h0_vecScatterAdd_host_apply {N R w : Nat} (wf : ScatterDims.WF ⟨1, ![N]⟩ ⟨2, ![R, 1]⟩ ⟨1, ![R]⟩ [] [0] [0] 1)
    (x : FVec Ideal ⟨1, ![N]⟩ .f32) (idx : IVec ⟨2, ![R, 1]⟩ w) (upd : FVec Ideal ⟨1, ![R]⟩ .f32) (a : Fin N) :
    Host.scatterAdd (RowDims.vecScatter N R wf) x idx upd (ix1 a)
      = x (ix1 a) + ∑ r : Fin R, if (idx (ix2 r 0)).toInt = (a.val : Int) then upd (ix1 r) else 0 :=
  RowDims.vecScatterAdd_apply wf x idx upd a

theorem h0_count_apply (dstv : S1600000.Idx → BitVec 32) (p : Fin 100000) :
    Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 dstv)
        (broadcastInDim S1600000 ![] bcast_S_S1600000 (constant (F := Ideal) S_ .f32 0x3F800000#32)) (ix1 p)
      = (0 : EReal) + ∑ e : Fin 1600000, if (dstv (ix1 e)).toInt = (p.val : Int) then Cert.Spec.lit1 else 0 := by
  rw [h0_scatter_vec_eq, h0_vecScatterAdd_host_apply, broadcastInDim_scalar_apply, constant_apply, Ideal.ofBits_zero_f32]
  refine congrArg (fun s => (0 : EReal) + s) (Finset.sum_congr rfl fun e _ => ?_)
  rw [h0_edge_col_apply, broadcastInDim_scalar_apply]
  rfl

theorem h0_rsqrt_host_apply {s : Shape} (x : FVec Ideal s .f32) (i : s.Idx) : Host.rsqrt x i = Ideal.rsqrt (x i) := rfl

theorem h0_dis_vec_apply (dstv : S1600000.Idx → BitVec 32) (p : Fin 100000) :
    Host.rsqrt (F := Ideal) (φ := .f32)
        (addf (F := Ideal) (φ := .f32)
          (Host.scatterAdd (F := Ideal) (φ := .f32) scatter_S100000_S1600000x1_S1600000_n_0_0_1
            (broadcastInDim S100000 ![] bcast_S_S100000 (constant (F := Ideal) S_ .f32 0x00000000#32))
            (broadcastInDim S1600000x1 ![0] bcast_S1600000_S1600000x1_0 dstv)
            (broadcastInDim S1600000 ![] bcast_S_S1600000 (constant (F := Ideal) S_ .f32 0x3F800000#32)))
          (broadcastInDim S100000 ![] bcast_S_S100000 (constant (F := Ideal) S_ .f32 0x3F800000#32))) (ix1 p)
      = Cert.Spec.dis (fun e => dstv (ix1 e)) p := by
  rw [h0_rsqrt_host_apply, addf_apply, h0_count_apply, broadcastInDim_scalar_apply]
  rfl

theorem host0_dis (p : Fin 100000) :
    (StableHlo.after (hostOps0 (F := Ideal)) W (Proc.devRef .tc main_v12) : S100000x1.Idx → EReal) (ix2 p 0)
      = Cert.Spec.dis (fun e => (W (Proc.devRef .tc main_arg1) : S2x1600000.Idx → BitVec 32) (ix2 1 e)) p := by
  after_results
  exact (h0_node_col_apply _ p).trans <| (h0_dis_vec_apply _ p).trans <|
    congrArg (Cert.Spec.dis · p) (funext (h0_dst_vec_apply _))

theorem host0_dis2 (p : Fin 100000) :
    (StableHlo.after (hostOps0 (F := Ideal)) W (Proc.devRef .tc main_v14) : S100000x1.Idx → EReal) (ix2 p 0)
      = Cert.Spec.dis (fun e => (W (Proc.devRef .tc main_arg1) : S2x1600000.Idx → BitVec 32) (ix2 1 e)) p
        * Cert.Spec.dis (fun e => (W (Proc.devRef .tc main_arg1) : S2x1600000.Idx → BitVec 32) (ix2 1 e)) p := by
  after_results
  refine (h0_node_col_apply _ p).trans <| (mulf_apply _ _ (ix1 p)).trans ?_
  rw [h0_dis_vec_apply]
  exact congrArg (fun d => Cert.Spec.dis d p * Cert.Spec.dis d p) (funext (h0_dst_vec_apply _))

end Cert.KernelIdeal.Hand

end
-- ==== Proof.KI.First.lean ====
import proofs.«400505_j77171972374635_2_alg».proof.Proof.KI.Carry
import proofs.«400505_j77171972374635_2_alg».proof.Proof.KI.HostVal0
import proofs.«400505_j77171972374635_2_alg».proof.Proof.Spec
import Idealize.ShloMosaic.Lib.ValueIdx
import Idealize.ShloMosaic.PureOps.Ideal

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

abbrev rdF {M N : Nat} (x : (⟨2, ![M, N]⟩ : Shape).Idx → EReal) (p : Fin M) (q : Fin N) : EReal := x (ix2 p q)

abbrev rdV {N : Nat} (x : (⟨1, ![N]⟩ : Shape).Idx → EReal) (p : Fin N) : EReal := x (ix1 p)

abbrev rdI {M N : Nat} (x : (⟨2, ![M, N]⟩ : Shape).Idx → BitVec 32) (p : Fin M) (q : Fin N) : BitVec 32 := x (ix2 p q)

abbrev rdJ {N : Nat} (x : (⟨1, ![N]⟩ : Shape).Idx → BitVec 32) (p : Fin N) : BitVec 32 := x (ix1 p)

abbrev aSrc : Fin 1600000 → BitVec 32 := fun e => (m ((c : Thread nD τ).loc main_arg1) : S2x1600000.Idx → BitVec 32) (ix2 0 e)

abbrev aDst : Fin 1600000 → BitVec 32 := fun e => (m ((c : Thread nD τ).loc main_arg1) : S2x1600000.Idx → BitVec 32) (ix2 1 e)

abbrev aBatch : Fin 100000 → BitVec 32 := fun n => (m ((c : Thread nD τ).loc main_arg2) : S100000.Idx → BitVec 32) (ix1 n)

theorem src_at1 (e : Fin 1600000) : rdJ (Bd1 m ρ c (Proc.devRef .tc main_v1)) e = aSrc m c e := host0_src (Bd0 m ρ c) e
theorem dst_at1 (e : Fin 1600000) : rdJ (Bd1 m ρ c (Proc.devRef .tc main_v3)) e = aDst m c e := host0_dst (Bd0 m ρ c) e
theorem batch_at1 (n : Fin 100000) : rdI (Bd1 m ρ c (Proc.devRef .tc main_v4)) n 0 = aBatch m c n :=
  host0_batch (Bd0 m ρ c) n
theorem dis_at1 (p : Fin 100000) : rdF (Bd1 m ρ c (Proc.devRef .tc main_v12)) p 0 = Cert.Spec.dis (aDst m c) p :=
  host0_dis (Bd0 m ρ c) p
theorem dis2_at1 (p : Fin 100000) :
    rdF (Bd1 m ρ c (Proc.devRef .tc main_v14)) p 0 = Cert.Spec.dis (aDst m c) p * Cert.Spec.dis (aDst m c) p :=
  host0_dis2 (Bd0 m ρ c) p

end Cert.KernelIdeal.Hand

end
-- ==== Proof.KI.LinVal0.lean ====
import proofs.«400505_j77171972374635_2_alg».proof.Proof.KI.Lin0
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe
open Idealize.ShloMosaic.Pipeline (Dat)
open Idealize.ShloMosaic.ValueIdx Idealize.ShloMosaic.RowDims
open Cert.KernelIdeal Cert.KernelIdeal.Gen
open scoped BigOperators

variable (V : (c : Dev nD) → (b : Ref sig .tc) → Buf (Elt Ideal) ((c : Thread nD τ).loc b))

theorem dot0_plain : dot_S5000x66_S66x128_S5000x128_1_0_0_1_n_n = DotDims.plain 5000 66 128 := rfl

theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem blk0_d_apply (c : Dev nD) (t : Fin cfg0.N) (p : Fin 5000) (r : Fin 100000) (hr : r.val = t.val * 5000 + p.val) :
    (blk0 V c 2 t : S5000x1.Idx → EReal) (ix2 p 0) = (V c main_v12 : S100000x1.Idx → EReal) (ix2 r 0) := by
  obtain ⟨-, -, -, -, e0, e1, -⟩ := idx0_facts t
  exact app_eq_of_val (V c main_v12 : S100000x1.Idx → EReal) (i := ((cfg0.win 2).blk t).view.emb (ix2 p 0))
    (by show win0_2.index t (0 : Fin 2) * 5000 + 1 * p.val = r.val; omega) (by show win0_2.index t (1 : Fin 2) * 1 + 1 * (0 : Fin 1).val = (0 : Fin 1).val; omega)

def prod0 (x : S100000x66.Idx → EReal) (w : S66x128.Idx → EReal) : S100000x128.Idx → EReal :=
  fun i => ∑ k : Fin 66, x (ix2 (i 0 : Fin 100000) k) * w (ix2 k (i 1 : Fin 128))

-- A block's product entry is the whole arrays' product entry at the block's row offset.
theorem pay0_prod_at (c : Dev nD) (t : Fin cfg0.N) (p : Fin 5000) (q : Fin 128) (i : S100000x128.Idx)
    (h0 : (i 0 : Fin 100000).val = t.val * 5000 + p.val) (h1 : (i 1 : Fin 128).val = q.val) :
    (k0_pay1 (blk0 V c 0 t) (blk0 V c 1 t) : S5000x128.Idx → EReal) (ix2 p q)
      = prod0 (V c main_arg0) (V c main_arg3) i := by
  obtain ⟨a0, a1, b0, b1, -⟩ := idx0_facts t
  unfold k0_pay1 prod0
  rw [dot0_plain]
  refine (matmul_plain_zero_apply none _ _ p q).trans (Finset.sum_congr rfl fun k _ => congrArg₂ (· * ·) ?_ ?_)
  · exact app_eq_of_val (V c main_arg0 : S100000x66.Idx → EReal) (i := ((cfg0.win 0).blk t).view.emb (ix2 p k))
      (by show win0_0.index t (0 : Fin 2) * 5000 + 1 * p.val = (i 0 : Fin 100000).val; omega)
      (by show win0_0.index t (1 : Fin 2) * 66 + 1 * k.val = k.val; omega)
  · exact app_eq_of_val (V c main_arg3 : S66x128.Idx → EReal) (i := ((cfg0.win 1).blk t).view.emb (ix2 k q))
      (by show win0_1.index t (0 : Fin 2) * 66 + 1 * k.val = k.val; omega)
      (by show win0_1.index t (1 : Fin 2) * 128 + 1 * q.val = (i 1 : Fin 128).val; omega)

theorem flushed0_prod (c : Dev nD) (t : Fin cfg0.N) :
    (dat0 (F := Ideal) V c).flushed 3 t
      = ((cfg0.win 3).blk t).view.read (Elt Ideal) (prod0 (V c main_arg0) (V c main_arg3)) := by
  show (cfg0.win 3).cut (grid0.coords t) ((dat0 (F := Ideal) V c).after 3 t) = _
  rw [dat0_after_3]
  unfold left0_3
  rw [View.canon_unit_zero zero_off]
  simp only [View.ld_unit_zero (S := S5000x66) zero_off, View.ld_unit_zero (S := S66x128) zero_off]
  obtain ⟨-, -, -, -, -, -, e0, e1, -⟩ := idx0_facts t
  funext j
  obtain ⟨p, q, rfl⟩ : ∃ (p : Fin 5000) (q : Fin 128), j = (ix2 p q : S5000x128.Idx) :=
    ⟨j 0, j 1, eq_ix2 (n0 := 5000) (n1 := 128) j⟩
  exact pay0_prod_at V c t p q (((cfg0.win 3).blk t).view.emb (ix2 p q))
    (by show win0_3.index t (0 : Fin 2) * 5000 + 1 * p.val = _; omega)
    (by show win0_3.index t (1 : Fin 2) * 128 + 1 * q.val = q.val; omega)

theorem cover0_3 (i : S100000x128.Idx) :
    ∃ t : Fin cfg0.N, (cfg0.win 3).flush t = true ∧ i ∈ ((cfg0.win 3).blk t).view.set := by
  obtain ⟨t, h⟩ := exists_rowBlock (T := cfg0.N) (B := 5000) (C := 128) (by omega) win0_3.index
    (fun t => by obtain ⟨-, -, -, -, -, -, e0, e1, -⟩ := idx0_facts t; exact ⟨e0, e1⟩) (fun a => (i a).val)
    (by rw [show cfg0.N = 20 from N_0]; exact (i 0).isLt) (i 1).isLt
  refine ⟨t, flush0_3 t, ?_⟩
  show i ∈ ((View.whole main_v15_0).slice (win0_3.rect t)).set
  rw [View.set_slice_whole, Rect.mem_set_unit]
  exact h

theorem lin0_prod_apply (c : Dev nD) (p : Fin 100000) (q : Fin 128) :
    ((dat0 (F := Ideal) V c).arrAt 3 cfg0.N : S100000x128.Idx → EReal) (ix2 p q)
      = ∑ k : Fin 66, HMul.hMul (α := EReal) (β := EReal)
          ((V c main_arg0 : S100000x66.Idx → EReal) (ix2 p k)) ((V c main_arg3 : S66x128.Idx → EReal) (ix2 k q)) := by
  rw [(dat0 (F := Ideal) V c).arrAt_eq_of_cover 3 (prod0 (V c main_arg0) (V c main_arg3))
    (fun t _ => flushed0_prod V c t) cover0_3]
  rfl

def scaled0 (x : S100000x66.Idx → EReal) (w : S66x128.Idx → EReal) (d : S100000x1.Idx → EReal) : S100000x128.Idx → EReal :=
  fun i => prod0 x w i * d (ix2 (i 0 : Fin 100000) 0)

theorem flushed0_scaled (c : Dev nD) (t : Fin cfg0.N) :
    (dat0 (F := Ideal) V c).flushed 4 t
      = ((cfg0.win 4).blk t).view.read (Elt Ideal) (scaled0 (V c main_arg0) (V c main_arg3) (V c main_v12)) := by
  show (cfg0.win 4).cut (grid0.coords t) ((dat0 (F := Ideal) V c).after 4 t) = _
  rw [dat0_after_4]
  unfold left0_4
  rw [View.canon_unit_zero zero_off]
  simp only [View.ld_unit_zero (S := S5000x66) zero_off, View.ld_unit_zero (S := S66x128) zero_off,
    View.ld_unit_zero (S := S5000x1) zero_off]
  obtain ⟨-, -, -, -, -, -, -, -, e0, e1⟩ := idx0_facts t
  funext j
  obtain ⟨p, q, rfl⟩ : ∃ (p : Fin 5000) (q : Fin 128), j = (ix2 p q : S5000x128.Idx) :=
    ⟨j 0, j 1, eq_ix2 (n0 := 5000) (n1 := 128) j⟩
  show (k0_pay2 (blk0 V c 0 t) (blk0 V c 1 t) (blk0 V c 2 t) : S5000x128.Idx → EReal) (ix2 p q)
    = scaled0 (V c main_arg0) (V c main_arg3) (V c main_v12) (((cfg0.win 4).blk t).view.emb (ix2 p q))
  have h0 : ((((cfg0.win 4).blk t).view.emb (ix2 p q) : S100000x128.Idx) 0 : Fin 100000).val = t.val * 5000 + p.val := by
    show win0_4.index t (0 : Fin 2) * 5000 + 1 * p.val = _; omega
  unfold k0_pay2
  rw [mulf_apply, shapeCast_self]
  exact congrArg₂ (· * ·)
    (pay0_prod_at V c t p q _ h0 (by show win0_4.index t (1 : Fin 2) * 128 + 1 * q.val = q.val; omega))
    ((broadcastTo_apply _ _ (ix2 p q) (ix2 p 0) fun a => by
      match a with
      | ⟨0, _⟩ => rfl
      | ⟨1, _⟩ => rfl).trans (blk0_d_apply V c t p _ h0))

theorem cover0_4 (i : S100000x128.Idx) :
    ∃ t : Fin cfg0.N, (cfg0.win 4).flush t = true ∧ i ∈ ((cfg0.win 4).blk t).view.set := by
  obtain ⟨t, h⟩ := exists_rowBlock (T := cfg0.N) (B := 5000) (C := 128) (by omega) win0_4.index
    (fun t => by obtain ⟨-, -, -, -, -, -, -, -, e0, e1⟩ := idx0_facts t; exact ⟨e0, e1⟩) (fun a => (i a).val)
    (by rw [show cfg0.N = 20 from N_0]; exact (i 0).isLt) (i 1).isLt
  refine ⟨t, flush0_4 t, ?_⟩
  show i ∈ ((View.whole main_v15_1).slice (win0_4.rect t)).set
  rw [View.set_slice_whole, Rect.mem_set_unit]
  exact h

theorem lin0_scaled_apply (c : Dev nD) (p : Fin 100000) (q : Fin 128) :
    ((dat0 (F := Ideal) V c).arrAt 4 cfg0.N : S100000x128.Idx → EReal) (ix2 p q)
      = HMul.hMul (α := EReal) (β := EReal)
          (∑ k : Fin 66, HMul.hMul (α := EReal) (β := EReal)
            ((V c main_arg0 : S100000x66.Idx → EReal) (ix2 p k)) ((V c main_arg3 : S66x128.Idx → EReal) (ix2 k q)))
          ((V c main_v12 : S100000x1.Idx → EReal) (ix2 p 0)) := by
  rw [(dat0 (F := Ideal) V c).arrAt_eq_of_cover 4 (scaled0 (V c main_arg0) (V c main_arg3) (V c main_v12))
    (fun t _ => flushed0_scaled V c t) cover0_4]
  rfl

end Cert.KernelIdeal.Hand

end
-- ==== Proof.KI.PostVal1.lean ====
import proofs.«400505_j77171972374635_2_alg».proof.Proof.KI.Post1
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe
open Idealize.ShloMosaic.Pipeline (Dat)
open Idealize.ShloMosaic.ValueIdx Idealize.ShloMosaic.RowDims
open Cert.KernelIdeal Cert.KernelIdeal.Gen

variable (V : (c : Dev nD) → (b : Ref sig .tc) → Buf (Elt Ideal) ((c : Thread nD τ).loc b))

def act1 (a h d e b : EReal) : EReal := max (a * d + h * e + b) 0

theorem col1_apply (x : Vec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) fun a => by
    match a with
    | ⟨0, _⟩ => rfl
    | ⟨1, _⟩ => rfl

theorem pay1_apply (x0 : Vec Ideal S5000x128 .f32) (x2 : Vec Ideal S5000x1 .f32) (x1 : Vec Ideal S5000x128 .f32)
    (x3 : Vec Ideal S5000x1 .f32) (x4 : Vec Ideal S1x128 .f32) (p : Fin 5000) (q : Fin 128) :
    k1_pay1 x0 x2 x1 x3 x4 (ix2 p q) = act1 (x0 (ix2 p q)) (x1 (ix2 p q)) (x2 (ix2 p 0)) (x3 (ix2 p 0)) (x4 (ix2 0 q)) := by
  unfold k1_pay1 act1

  rw [maximumf_apply, broadcast_apply, show (Scalar.ofBits .f32 0x00000000#32 : Ideal .f32) = 0 from Ideal.ofBits_zero_f32]

  simp only [shapeCast_self]
  rw [addf_apply, addf_apply, mulf_apply, mulf_apply, col1_apply, col1_apply, broadcastTo_1b_ab_apply]

theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

def G1 (c : Dev nD) : S100000x128.Idx → EReal := fun i =>
  act1 ((V c main_v25 : S100000x128.Idx → EReal) i) ((V c main_v15_0 : S100000x128.Idx → EReal) i)
    ((V c main_v12 : S100000x1.Idx → EReal) (ix2 (i 0 : Fin 100000) (0 : Fin 1)))
    ((V c main_v14 : S100000x1.Idx → EReal) (ix2 (i 0 : Fin 100000) (0 : Fin 1)))
    ((V c main_v26 : S1x128.Idx → EReal) (ix2 (0 : Fin 1) (i 1 : Fin 128)))

theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [dat1_after_5]
  unfold left1_5
  rw [View.canon_unit_zero zero_off]
  simp only [View.ld_unit_zero (S := S5000x128) zero_off, View.ld_unit_zero (S := S5000x1) zero_off,
    View.ld_unit_zero (S := S1x128) zero_off]
  obtain ⟨a0, a1, b0, b1, c0, c1, d0, d1, f0, f1, e0, e1⟩ := idx1_facts t
  funext j
  obtain ⟨p, q, rfl⟩ : ∃ (p : Fin 5000) (q : Fin 128), j = ix2 p q := ⟨j 0, j 1, eq_ix2 j⟩
  obtain ⟨E, hE⟩ : ∃ E : S100000x128.Idx, E = ((cfg1.win 5).blk t).view.emb (ix2 p q) := ⟨_, rfl⟩
  have h0 : (E 0).val = t.val * 5000 + p.val := by
    rw [hE]; show win1_5.index t (0 : Fin 2) * 5000 + 1 * p.val = _; omega
  have h1 : (E 1).val = q.val := by
    rw [hE]; show win1_5.index t (1 : Fin 2) * 128 + 1 * q.val = _; omega
  show k1_pay1 (blk1 V c 0 t) (blk1 V c 2 t) (blk1 V c 1 t) (blk1 V c 3 t) (blk1 V c 4 t) (ix2 p q)
    = G1 V c (((cfg1.win 5).blk t).view.emb (ix2 p q))
  rw [← hE, pay1_apply]
  unfold G1
  refine congr (congr (congr (congr (congrArg act1 ?_) ?_) ?_) ?_) ?_
  · exact app_eq_of_val (V c main_v25 : S100000x128.Idx → EReal) (i := ((cfg1.win 0).blk t).view.emb (ix2 p q))
      (by show win1_0.index t (0 : Fin 2) * 5000 + 1 * p.val = (E 0).val; omega)
      (by show win1_0.index t (1 : Fin 2) * 128 + 1 * q.val = (E 1).val; omega)
  · exact app_eq_of_val (V c main_v15_0 : S100000x128.Idx → EReal) (i := ((cfg1.win 1).blk t).view.emb (ix2 p q))
      (by show win1_1.index t (0 : Fin 2) * 5000 + 1 * p.val = (E 0).val; omega)
      (by show win1_1.index t (1 : Fin 2) * 128 + 1 * q.val = (E 1).val; omega)
  · exact app_eq_of_val (V c main_v12 : S100000x1.Idx → EReal) (i := ((cfg1.win 2).blk t).view.emb (ix2 p 0))
      (by show win1_2.index t (0 : Fin 2) * 5000 + 1 * p.val = (E 0).val; omega)
      (by show win1_2.index t (1 : Fin 2) * 1 + 1 * 0 = 0; omega)
  · exact app_eq_of_val (V c main_v14 : S100000x1.Idx → EReal) (i := ((cfg1.win 3).blk t).view.emb (ix2 p 0))
      (by show win1_3.index t (0 : Fin 2) * 5000 + 1 * p.val = (E 0).val; omega)
      (by show win1_3.index t (1 : Fin 2) * 1 + 1 * 0 = 0; omega)
  · exact app_eq_of_val (V c main_v26 : S1x128.Idx → EReal) (i := ((cfg1.win 4).blk t).view.emb (ix2 0 q))
      (by show win1_4.index t (0 : Fin 2) * 1 + 1 * 0 = 0; omega)
      (by show win1_4.index t (1 : Fin 2) * 128 + 1 * q.val = (E 1).val; omega)

theorem cover1_5 (i : S100000x128.Idx) :
    ∃ t : Fin cfg1.N, (cfg1.win 5).flush t = true ∧ i ∈ ((cfg1.win 5).blk t).view.set := by
  obtain ⟨t, h⟩ := exists_rowBlock (T := cfg1.N) (B := 5000) (C := 128) (by omega) win1_5.index
    (fun t => by obtain ⟨-, -, -, -, -, -, -, -, -, -, e0, e1⟩ := idx1_facts t; exact ⟨e0, e1⟩) (fun a => (i a).val)
    (by rw [show cfg1.N = 20 from N_1]; exact (i 0).isLt) (i 1).isLt
  refine ⟨t, flush1_5 t, ?_⟩
  show i ∈ ((View.whole main_v27).slice (win1_5.rect t)).set
  rw [View.set_slice_whole, Rect.mem_set_unit]
  exact h

theorem post1_apply (c : Dev nD) (p : Fin 100000) (q : Fin 128) :
    ((dat1 (F := Ideal) V c).arrAt 5 cfg1.N : S100000x128.Idx → EReal) (ix2 p q)
      = @max EReal _
          (@HAdd.hAdd EReal EReal EReal _
            (@HAdd.hAdd EReal EReal EReal _
              (@HMul.hMul EReal EReal EReal _ ((V c main_v25 : S100000x128.Idx → EReal) (ix2 p q))
                ((V c main_v12 : S100000x1.Idx → EReal) (ix2 p 0)))
              (@HMul.hMul EReal EReal EReal _ ((V c main_v15_0 : S100000x128.Idx → EReal) (ix2 p q))
                ((V c main_v14 : S100000x1.Idx → EReal) (ix2 p 0))))
            ((V c main_v26 : S1x128.Idx → EReal) (ix2 0 q)))
          0 := by
  rw [(dat1 (F := Ideal) V c).arrAt_eq_of_cover 5 (G1 V c) (fun t _ => flushed1_5_eq V c t) cover1_5]
  rfl

end Cert.KernelIdeal.Hand

end
-- ==== Proof.KI.HostVal1.lean ====
import proofs.«400505_j77171972374635_2_alg».proof.Proof.Gen.KernelIdeal.Launch
import proofs.«400505_j77171972374635_2_alg».proof.Proof.Spec
import proofs.«400505_j77171972374635_2_alg».proof.Proof.LibRowDims
import Idealize.ShloMosaic.Lib.StableHlo.Run
import Idealize.ShloMosaic.Lib.Pipeline.Value
import Idealize.ShloMosaic.Lib.IdealHost
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe Idealize.SL.Sem Idealize.ShloMosaic.ValueIdx Idealize.ShloMosaic.RowDims
open scoped BigOperators
open Cert.KernelIdeal Cert.KernelIdeal.Gen

variable (W : Valuation τ sig (Elt Ideal))

private theorem host1_col_apply {α : Type} (v : S1600000.Idx → α) (e : Fin 1600000) :
    broadcastInDim S1600000x1 ![0] bcast_S1600000_S1600000x1_0 v (ix2 e 0) = v (ix1 e) :=
  broadcastInDim_apply _ _ v _ (ix1 e) (fun a => match a with | ⟨0, _⟩ => rfl)

private theorem host1_raise_apply (s : IVec S1600000 32) (e : Fin 1600000) :
    select (cmpi .slt s (broadcastInDim S1600000 ![] bcast_S_S1600000 (constantI S_ 32 0#32)))
        (addi s (broadcastInDim S1600000 ![] bcast_S_S1600000 (constantI S_ 32 100000#32))) s (ix1 e)
      = if (s (ix1 e)).slt 0#32 then s (ix1 e) + 100000#32 else s (ix1 e) := by
  show (if BitVec.ofBool ((s (ix1 e)).slt 0#32) = 1#1 then s (ix1 e) + 100000#32 else s (ix1 e)) = _
  generalize (s (ix1 e)).slt 0#32 = b
  cases b <;> rfl

private theorem host1_scat_apply (x : FVec Ideal S100000x128 .f32) (idx : IVec S1600000x1 32) (upd : FVec Ideal S1600000x128 .f32)
    (p : Fin 100000) (q : Fin 128) :
    (Host.scatterAdd (F := Ideal) scatter_S100000x128_S1600000x1_S1600000x128_1_0_0_1 x idx upd : S100000x128.Idx → EReal) (ix2 p q)
      = (x : S100000x128.Idx → EReal) (ix2 p q) + ∑ r : Fin 1600000, if (idx (ix2 r 0)).toInt = (p.val : Int)
          then (upd : S1600000x128.Idx → EReal) (ix2 r q) else 0 :=
  rowScatterAdd_apply scatter_S100000x128_S1600000x1_S1600000x128_1_0_0_1.wf x idx upd p q

private theorem host1_gath_apply (tbl : FVec Ideal S100000x128 .f32) (idx : IVec S1600000x1 32) (r : Fin 1600000) (q : Fin 128) :
    (Host.gather gather_S100000x128_S1600000x1_S1600000x128_1_0_n_n_0_1_1128 tbl idx : S1600000x128.Idx → EReal) (ix2 r q)
      = (tbl : S100000x128.Idx → EReal) (ix2 (clampRow 100000 (by decide) (idx (ix2 r 0))) q) :=
  rowGather_apply (by decide) gather_S100000x128_S1600000x1_S1600000x128_1_0_n_n_0_1_1128.wf tbl idx r q

private theorem host1_agg_apply (tbl : FVec Ideal S100000x128 .f32) (s d : IVec S1600000 32) (p : Fin 100000) (q : Fin 128) :
    (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 d)
        (Host.gather gather_S100000x128_S1600000x1_S1600000x128_1_0_n_n_0_1_1128 tbl
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s))) : S100000x128.Idx → EReal) (ix2 p q)
      = (0 : EReal) + ∑ e : Fin 1600000, if (d (ix1 e)).toInt = (p.val : Int)
          then (tbl : S100000x128.Idx → EReal) (ix2 (Cert.Spec.gRow (s (ix1 e))) q) else 0 := by
  rw [host1_scat_apply, broadcastInDim_scalar_apply, constant_apply, Ideal.ofBits_zero_f32]
  refine congrArg (fun t => (0 : EReal) + t) (Finset.sum_congr rfl fun e _ => ?_)
  rw [host1_col_apply, host1_gath_apply, host1_col_apply, host1_raise_apply]
  rfl

theorem host1_agg (p : Fin 100000) (q : Fin 128) :
      (StableHlo.after hostOps1 W (Proc.devRef .tc main_v25) : S100000x128.Idx → EReal) (ix2 p q)
        = (0 : EReal) + ∑ e : Fin 1600000, (if ((W (Proc.devRef .tc main_v3) : S1600000.Idx → BitVec 32) (ix1 e)).toInt = (p.val : Int)
            then (W (Proc.devRef .tc main_v15_1) : S100000x128.Idx → EReal) (ix2 (Cert.Spec.gRow ((W (Proc.devRef .tc main_v1) : S1600000.Idx → BitVec 32) (ix1 e))) q) else 0 : EReal) := by
  after_results_simp
  exact host1_agg_apply _ _ _ p q

theorem host1_bias (q : Fin 128) : (StableHlo.after hostOps1 W (Proc.devRef .tc main_v26) : S1x128.Idx → EReal) (ix2 0 q) = (W (Proc.devRef .tc main_arg4) : S128.Idx → EReal) (ix1 q) := by
  after_results_simp
  exact shapeCast_a_1a_apply _ _ 0 q

end Cert.KernelIdeal.Hand

end
-- ==== Proof.KI.Kv1.lean ====
import proofs.«400505_j77171972374635_2_alg».proof.Proof.KI.First
import proofs.«400505_j77171972374635_2_alg».proof.Proof.KI.LinVal0
import proofs.«400505_j77171972374635_2_alg».proof.Proof.KI.PostVal1
import proofs.«400505_j77171972374635_2_alg».proof.Proof.KI.HostVal1
import Idealize.ShloMosaic.Lib.ValueIdx
import Idealize.ShloMosaic.PureOps.Ideal

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

abbrev wgt1 : Fin 66 → Fin 128 → EReal := fun k q => rdF (m ((c : Thread nD τ).loc main_arg3)) k q
abbrev bias1 : Fin 128 → EReal := fun q => rdV (m ((c : Thread nD τ).loc main_arg4)) q

variable (X : Fin 100000 → Fin 66 → EReal)
  (hX : ∀ (p : Fin 100000) (k : Fin 66), rdF (Bd1 m ρ c (Proc.devRef .tc main_arg0)) p k = X p k)
  (p : Fin 100000) (q : Fin 128)
include hX

theorem kinner1 :
    (∑ k : Fin 66, rdF (Bd1 m ρ c (Proc.devRef .tc main_arg0)) p k
        * rdF (Bd1 m ρ c (Proc.devRef .tc main_arg3)) k q)
      = Cert.Spec.prod X (wgt1 m c) p q :=
  Finset.sum_congr rfl fun k _ => congrArg₂ (· * ·) (hX p k) (congrFun (Bd1_arg m ρ c main_arg3 (by decide)) (ix2 k q))

theorem kprod1 :
    rdF (Bd2 m ρ c (Proc.devRef .tc main_v15_0)) p q = Cert.Spec.prod X (wgt1 m c) p q :=
  (congrFun (Bd2_arr m ρ c 3) (ix2 p q)).trans <| (lin0_prod_apply (En0 m ρ) c p q).trans (kinner1 m ρ c X hX p q)

theorem kscaled1 :
    rdF (Bd2 m ρ c (Proc.devRef .tc main_v15_1)) p q
      = Cert.Spec.prod X (wgt1 m c) p q * Cert.Spec.dis (aDst m c) p :=
  (congrFun (Bd2_arr m ρ c 4) (ix2 p q)).trans <| (lin0_scaled_apply (En0 m ρ) c p q).trans <|
    congrArg₂ (· * ·) (kinner1 m ρ c X hX p q)
      ((congrFun (Bd1_carry m ρ c main_v12 (by decide)) (ix2 p 0)).trans (dis_at1 m ρ c p))

theorem kagg1 :
    rdF (Bd3 m ρ c (Proc.devRef .tc main_v25)) p q
      = (0 : EReal) + ∑ e : Fin 1600000, if (aDst m c e).toInt = (p.val : Int)
          then Cert.Spec.prod X (wgt1 m c) (Cert.Spec.gRow (aSrc m c e)) q * Cert.Spec.dis (aDst m c) (Cert.Spec.gRow (aSrc m c e)) else 0 := by
  refine (host1_agg (Bd2 m ρ c) p q).trans <| congrArg ((0 : EReal) + ·) <| Finset.sum_congr rfl fun e _ => ?_
  rw [(congrFun (Bd2_carry m ρ c main_v3 (by decide)) (ix1 e)).trans (dst_at1 m ρ c e),
    (congrFun (Bd2_carry m ρ c main_v1 (by decide)) (ix1 e)).trans (src_at1 m ρ c e)]
  exact if_congr Iff.rfl (kscaled1 m ρ c X hX _ q) rfl

theorem out1 :
    rdF (Bd4 m ρ c (Proc.devRef .tc main_v27)) p q
      = Cert.Spec.layerK (aSrc m c) (aDst m c) true X (wgt1 m c) (bias1 m c) p q := by
  refine (congrFun (Bd4_arr m ρ c 5) (ix2 p q)).trans <| (post1_apply (En1 m ρ) c p q).trans ?_
  unfold Cert.Spec.layerK Cert.Spec.act
  rw [if_pos rfl]
  exact congrArg (max · (0 : EReal)) <| congrArg₂ (fun a b : EReal => a + b)
    (congrArg₂ (· + ·)
      (congrArg₂ (· * ·) (kagg1 m ρ c X hX p q)
        ((congrFun (Bd3_carry m ρ c main_v12 (by decide)) (ix2 p 0)).trans (dis_at1 m ρ c p)))
      (congrArg₂ (· * ·) ((congrFun (Bd3_keep m ρ c main_v15_0 (by decide)) (ix2 p q)).trans (kprod1 m ρ c X hX p q))
        ((congrFun (Bd3_carry m ρ c main_v14 (by decide)) (ix2 p 0)).trans (dis2_at1 m ρ c p))))
    ((host1_bias (Bd2 m ρ c) q).trans (congrFun (Bd2_arg m ρ c main_arg4 (by decide)) (ix1 q)))

end Cert.KernelIdeal.Hand

end
-- ==== Proof.KI.LinVal2.lean ====
import proofs.«400505_j77171972374635_2_alg».proof.Proof.KI.Lin2
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe
open Idealize.ShloMosaic.Pipeline (Dat)
open Idealize.ShloMosaic.ValueIdx Idealize.ShloMosaic.RowDims
open Cert.KernelIdeal Cert.KernelIdeal.Gen
open scoped BigOperators

variable (V : (c : Dev nD) → (b : Ref sig .tc) → Buf (Elt Ideal) ((c : Thread nD τ).loc b))

theorem dot2_plain : dot_S5000x128_S128x128_S5000x128_1_0_0_1_n_n = DotDims.plain 5000 128 128 := rfl

theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem blk2_d_apply (c : Dev nD) (t : Fin cfg2.N) (p : Fin 5000) (r : Fin 100000) (hr : r.val = t.val * 5000 + p.val) :
    (blk2 V c 2 t : S5000x1.Idx → EReal) (ix2 p 0) = (V c main_v12 : S100000x1.Idx → EReal) (ix2 r 0) := by
  obtain ⟨-, -, -, -, e0, e1, -⟩ := idx2_facts t
  exact app_eq_of_val (V c main_v12 : S100000x1.Idx → EReal) (i := ((cfg2.win 2).blk t).view.emb (ix2 p 0))
    (by show win2_2.index t (0 : Fin 2) * 5000 + 1 * p.val = r.val; omega) (by show win2_2.index t (1 : Fin 2) * 1 + 1 * (0 : Fin 1).val = (0 : Fin 1).val; omega)

def prod2 (x : S100000x128.Idx → EReal) (w : S128x128.Idx → EReal) : S100000x128.Idx → EReal :=
  fun i => ∑ k : Fin 128, x (ix2 (i 0 : Fin 100000) k) * w (ix2 k (i 1 : Fin 128))

-- A block's product entry is the whole arrays' product entry at the block's row offset.
theorem pay2_prod_at (c : Dev nD) (t : Fin cfg2.N) (p : Fin 5000) (q : Fin 128) (i : S100000x128.Idx)
    (h0 : (i 0 : Fin 100000).val = t.val * 5000 + p.val) (h1 : (i 1 : Fin 128).val = q.val) :
    (k2_pay1 (blk2 V c 0 t) (blk2 V c 1 t) : S5000x128.Idx → EReal) (ix2 p q)
      = prod2 (V c main_v27) (V c main_arg5) i := by
  obtain ⟨a0, a1, b0, b1, -⟩ := idx2_facts t
  unfold k2_pay1 prod2
  rw [dot2_plain, shapeCast_self]
  refine (matmul_plain_zero_apply none _ _ p q).trans (Finset.sum_congr rfl fun k _ => congrArg₂ (· * ·) ?_ ?_)
  · exact app_eq_of_val (V c main_v27 : S100000x128.Idx → EReal) (i := ((cfg2.win 0).blk t).view.emb (ix2 p k))
      (by show win2_0.index t (0 : Fin 2) * 5000 + 1 * p.val = (i 0 : Fin 100000).val; omega)
      (by show win2_0.index t (1 : Fin 2) * 128 + 1 * k.val = k.val; omega)
  · exact app_eq_of_val (V c main_arg5 : S128x128.Idx → EReal) (i := ((cfg2.win 1).blk t).view.emb (ix2 k q))
      (by show win2_1.index t (0 : Fin 2) * 128 + 1 * k.val = k.val; omega)
      (by show win2_1.index t (1 : Fin 2) * 128 + 1 * q.val = (i 1 : Fin 128).val; omega)

theorem flushed2_prod (c : Dev nD) (t : Fin cfg2.N) :
    (dat2 (F := Ideal) V c).flushed 3 t
      = ((cfg2.win 3).blk t).view.read (Elt Ideal) (prod2 (V c main_v27) (V c main_arg5)) := by
  show (cfg2.win 3).cut (grid2.coords t) ((dat2 (F := Ideal) V c).after 3 t) = _
  rw [dat2_after_3]
  unfold left2_3
  rw [View.canon_unit_zero zero_off]
  simp only [View.ld_unit_zero (S := S5000x128) zero_off, View.ld_unit_zero (S := S128x128) zero_off]
  obtain ⟨-, -, -, -, -, -, e0, e1, -⟩ := idx2_facts t
  funext j
  obtain ⟨p, q, rfl⟩ : ∃ (p : Fin 5000) (q : Fin 128), j = (ix2 p q : S5000x128.Idx) :=
    ⟨j 0, j 1, eq_ix2 (n0 := 5000) (n1 := 128) j⟩
  exact pay2_prod_at V c t p q (((cfg2.win 3).blk t).view.emb (ix2 p q))
    (by show win2_3.index t (0 : Fin 2) * 5000 + 1 * p.val = _; omega)
    (by show win2_3.index t (1 : Fin 2) * 128 + 1 * q.val = q.val; omega)

theorem cover2_3 (i : S100000x128.Idx) :
    ∃ t : Fin cfg2.N, (cfg2.win 3).flush t = true ∧ i ∈ ((cfg2.win 3).blk t).view.set := by
  obtain ⟨t, h⟩ := exists_rowBlock (T := cfg2.N) (B := 5000) (C := 128) (by omega) win2_3.index
    (fun t => by obtain ⟨-, -, -, -, -, -, e0, e1, -⟩ := idx2_facts t; exact ⟨e0, e1⟩) (fun a => (i a).val)
    (by rw [show cfg2.N = 20 from N_2]; exact (i 0).isLt) (i 1).isLt
  refine ⟨t, flush2_3 t, ?_⟩
  show i ∈ ((View.whole main_v28_0).slice (win2_3.rect t)).set
  rw [View.set_slice_whole, Rect.mem_set_unit]
  exact h

theorem lin2_prod_apply (c : Dev nD) (p : Fin 100000) (q : Fin 128) :
    ((dat2 (F := Ideal) V c).arrAt 3 cfg2.N : S100000x128.Idx → EReal) (ix2 p q)
      = ∑ k : Fin 128, HMul.hMul (α := EReal) (β := EReal)
          ((V c main_v27 : S100000x128.Idx → EReal) (ix2 p k)) ((V c main_arg5 : S128x128.Idx → EReal) (ix2 k q)) := by
  rw [(dat2 (F := Ideal) V c).arrAt_eq_of_cover 3 (prod2 (V c main_v27) (V c main_arg5))
    (fun t _ => flushed2_prod V c t) cover2_3]
  rfl

def scaled2 (x : S100000x128.Idx → EReal) (w : S128x128.Idx → EReal) (d : S100000x1.Idx → EReal) : S100000x128.Idx → EReal :=
  fun i => prod2 x w i * d (ix2 (i 0 : Fin 100000) 0)

theorem flushed2_scaled (c : Dev nD) (t : Fin cfg2.N) :
    (dat2 (F := Ideal) V c).flushed 4 t
      = ((cfg2.win 4).blk t).view.read (Elt Ideal) (scaled2 (V c main_v27) (V c main_arg5) (V c main_v12)) := by
  show (cfg2.win 4).cut (grid2.coords t) ((dat2 (F := Ideal) V c).after 4 t) = _
  rw [dat2_after_4]
  unfold left2_4
  rw [View.canon_unit_zero zero_off]
  simp only [View.ld_unit_zero (S := S5000x128) zero_off, View.ld_unit_zero (S := S128x128) zero_off,
    View.ld_unit_zero (S := S5000x1) zero_off]
  obtain ⟨-, -, -, -, -, -, -, -, e0, e1⟩ := idx2_facts t
  funext j
  obtain ⟨p, q, rfl⟩ : ∃ (p : Fin 5000) (q : Fin 128), j = (ix2 p q : S5000x128.Idx) :=
    ⟨j 0, j 1, eq_ix2 (n0 := 5000) (n1 := 128) j⟩
  show (k2_pay2 (blk2 V c 0 t) (blk2 V c 1 t) (blk2 V c 2 t) : S5000x128.Idx → EReal) (ix2 p q)
    = scaled2 (V c main_v27) (V c main_arg5) (V c main_v12) (((cfg2.win 4).blk t).view.emb (ix2 p q))
  have h0 : ((((cfg2.win 4).blk t).view.emb (ix2 p q) : S100000x128.Idx) 0 : Fin 100000).val = t.val * 5000 + p.val := by
    show win2_4.index t (0 : Fin 2) * 5000 + 1 * p.val = _; omega
  unfold k2_pay2
  rw [mulf_apply, shapeCast_self]
  exact congrArg₂ (· * ·)
    (pay2_prod_at V c t p q _ h0 (by show win2_4.index t (1 : Fin 2) * 128 + 1 * q.val = q.val; omega))
    ((broadcastTo_apply _ _ (ix2 p q) (ix2 p 0) fun a => by
      match a with
      | ⟨0, _⟩ => rfl
      | ⟨1, _⟩ => rfl).trans (blk2_d_apply V c t p _ h0))

theorem cover2_4 (i : S100000x128.Idx) :
    ∃ t : Fin cfg2.N, (cfg2.win 4).flush t = true ∧ i ∈ ((cfg2.win 4).blk t).view.set := by
  obtain ⟨t, h⟩ := exists_rowBlock (T := cfg2.N) (B := 5000) (C := 128) (by omega) win2_4.index
    (fun t => by obtain ⟨-, -, -, -, -, -, -, -, e0, e1⟩ := idx2_facts t; exact ⟨e0, e1⟩) (fun a => (i a).val)
    (by rw [show cfg2.N = 20 from N_2]; exact (i 0).isLt) (i 1).isLt
  refine ⟨t, flush2_4 t, ?_⟩
  show i ∈ ((View.whole main_v28_1).slice (win2_4.rect t)).set
  rw [View.set_slice_whole, Rect.mem_set_unit]
  exact h

theorem lin2_scaled_apply (c : Dev nD) (p : Fin 100000) (q : Fin 128) :
    ((dat2 (F := Ideal) V c).arrAt 4 cfg2.N : S100000x128.Idx → EReal) (ix2 p q)
      = HMul.hMul (α := EReal) (β := EReal)
          (∑ k : Fin 128, HMul.hMul (α := EReal) (β := EReal)
            ((V c main_v27 : S100000x128.Idx → EReal) (ix2 p k)) ((V c main_arg5 : S128x128.Idx → EReal) (ix2 k q)))
          ((V c main_v12 : S100000x1.Idx → EReal) (ix2 p 0)) := by
  rw [(dat2 (F := Ideal) V c).arrAt_eq_of_cover 4 (scaled2 (V c main_v27) (V c main_arg5) (V c main_v12))
    (fun t _ => flushed2_scaled V c t) cover2_4]
  rfl

end Cert.KernelIdeal.Hand

end
-- ==== Proof.KI.PostVal3.lean ====
import proofs.«400505_j77171972374635_2_alg».proof.Proof.KI.Post3
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe
open Idealize.ShloMosaic.Pipeline (Dat)
open Idealize.ShloMosaic.ValueIdx Idealize.ShloMosaic.RowDims
open Cert.KernelIdeal Cert.KernelIdeal.Gen

variable (V : (c : Dev nD) → (b : Ref sig .tc) → Buf (Elt Ideal) ((c : Thread nD τ).loc b))

def act3 (a h d e b : EReal) : EReal := max (a * d + h * e + b) 0

theorem col3_apply (x : Vec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) fun a => by
    match a with
    | ⟨0, _⟩ => rfl
    | ⟨1, _⟩ => rfl

theorem pay3_apply (x0 : Vec Ideal S5000x128 .f32) (x2 : Vec Ideal S5000x1 .f32) (x1 : Vec Ideal S5000x128 .f32)
    (x3 : Vec Ideal S5000x1 .f32) (x4 : Vec Ideal S1x128 .f32) (p : Fin 5000) (q : Fin 128) :
    k3_pay1 x0 x2 x1 x3 x4 (ix2 p q) = act3 (x0 (ix2 p q)) (x1 (ix2 p q)) (x2 (ix2 p 0)) (x3 (ix2 p 0)) (x4 (ix2 0 q)) := by
  unfold k3_pay1 act3

  rw [maximumf_apply, broadcast_apply, show (Scalar.ofBits .f32 0x00000000#32 : Ideal .f32) = 0 from Ideal.ofBits_zero_f32]

  simp only [shapeCast_self]
  rw [addf_apply, addf_apply, mulf_apply, mulf_apply, col3_apply, col3_apply, broadcastTo_1b_ab_apply]

theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

def G3 (c : Dev nD) : S100000x128.Idx → EReal := fun i =>
  act3 ((V c main_v38 : S100000x128.Idx → EReal) i) ((V c main_v28_0 : S100000x128.Idx → EReal) i)
    ((V c main_v12 : S100000x1.Idx → EReal) (ix2 (i 0 : Fin 100000) (0 : Fin 1)))
    ((V c main_v14 : S100000x1.Idx → EReal) (ix2 (i 0 : Fin 100000) (0 : Fin 1)))
    ((V c main_v39 : S1x128.Idx → EReal) (ix2 (0 : Fin 1) (i 1 : Fin 128)))

theorem flushed3_5_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [dat3_after_5]
  unfold left3_5
  rw [View.canon_unit_zero zero_off]
  simp only [View.ld_unit_zero (S := S5000x128) zero_off, View.ld_unit_zero (S := S5000x1) zero_off,
    View.ld_unit_zero (S := S1x128) zero_off]
  obtain ⟨a0, a1, b0, b1, c0, c1, d0, d1, f0, f1, e0, e1⟩ := idx3_facts t
  funext j
  obtain ⟨p, q, rfl⟩ : ∃ (p : Fin 5000) (q : Fin 128), j = ix2 p q := ⟨j 0, j 1, eq_ix2 j⟩
  obtain ⟨E, hE⟩ : ∃ E : S100000x128.Idx, E = ((cfg3.win 5).blk t).view.emb (ix2 p q) := ⟨_, rfl⟩
  have h0 : (E 0).val = t.val * 5000 + p.val := by
    rw [hE]; show win3_5.index t (0 : Fin 2) * 5000 + 1 * p.val = _; omega
  have h1 : (E 1).val = q.val := by
    rw [hE]; show win3_5.index t (1 : Fin 2) * 128 + 1 * q.val = _; omega
  show k3_pay1 (blk3 V c 0 t) (blk3 V c 2 t) (blk3 V c 1 t) (blk3 V c 3 t) (blk3 V c 4 t) (ix2 p q)
    = G3 V c (((cfg3.win 5).blk t).view.emb (ix2 p q))
  rw [← hE, pay3_apply]
  unfold G3
  refine congr (congr (congr (congr (congrArg act3 ?_) ?_) ?_) ?_) ?_
  · exact app_eq_of_val (V c main_v38 : S100000x128.Idx → EReal) (i := ((cfg3.win 0).blk t).view.emb (ix2 p q))
      (by show win3_0.index t (0 : Fin 2) * 5000 + 1 * p.val = (E 0).val; omega)
      (by show win3_0.index t (1 : Fin 2) * 128 + 1 * q.val = (E 1).val; omega)
  · exact app_eq_of_val (V c main_v28_0 : S100000x128.Idx → EReal) (i := ((cfg3.win 1).blk t).view.emb (ix2 p q))
      (by show win3_1.index t (0 : Fin 2) * 5000 + 1 * p.val = (E 0).val; omega)
      (by show win3_1.index t (1 : Fin 2) * 128 + 1 * q.val = (E 1).val; omega)
  · exact app_eq_of_val (V c main_v12 : S100000x1.Idx → EReal) (i := ((cfg3.win 2).blk t).view.emb (ix2 p 0))
      (by show win3_2.index t (0 : Fin 2) * 5000 + 1 * p.val = (E 0).val; omega)
      (by show win3_2.index t (1 : Fin 2) * 1 + 1 * 0 = 0; omega)
  · exact app_eq_of_val (V c main_v14 : S100000x1.Idx → EReal) (i := ((cfg3.win 3).blk t).view.emb (ix2 p 0))
      (by show win3_3.index t (0 : Fin 2) * 5000 + 1 * p.val = (E 0).val; omega)
      (by show win3_3.index t (1 : Fin 2) * 1 + 1 * 0 = 0; omega)
  · exact app_eq_of_val (V c main_v39 : S1x128.Idx → EReal) (i := ((cfg3.win 4).blk t).view.emb (ix2 0 q))
      (by show win3_4.index t (0 : Fin 2) * 1 + 1 * 0 = 0; omega)
      (by show win3_4.index t (1 : Fin 2) * 128 + 1 * q.val = (E 1).val; omega)

theorem cover3_5 (i : S100000x128.Idx) :
    ∃ t : Fin cfg3.N, (cfg3.win 5).flush t = true ∧ i ∈ ((cfg3.win 5).blk t).view.set := by
  obtain ⟨t, h⟩ := exists_rowBlock (T := cfg3.N) (B := 5000) (C := 128) (by omega) win3_5.index
    (fun t => by obtain ⟨-, -, -, -, -, -, -, -, -, -, e0, e1⟩ := idx3_facts t; exact ⟨e0, e1⟩) (fun a => (i a).val)
    (by rw [show cfg3.N = 20 from N_1]; exact (i 0).isLt) (i 1).isLt
  refine ⟨t, flush3_5 t, ?_⟩
  show i ∈ ((View.whole main_v40).slice (win3_5.rect t)).set
  rw [View.set_slice_whole, Rect.mem_set_unit]
  exact h

theorem post3_apply (c : Dev nD) (p : Fin 100000) (q : Fin 128) :
    ((dat3 (F := Ideal) V c).arrAt 5 cfg3.N : S100000x128.Idx → EReal) (ix2 p q)
      = @max EReal _
          (@HAdd.hAdd EReal EReal EReal _
            (@HAdd.hAdd EReal EReal EReal _
              (@HMul.hMul EReal EReal EReal _ ((V c main_v38 : S100000x128.Idx → EReal) (ix2 p q))
                ((V c main_v12 : S100000x1.Idx → EReal) (ix2 p 0)))
              (@HMul.hMul EReal EReal EReal _ ((V c main_v28_0 : S100000x128.Idx → EReal) (ix2 p q))
                ((V c main_v14 : S100000x1.Idx → EReal) (ix2 p 0))))
            ((V c main_v39 : S1x128.Idx → EReal) (ix2 0 q)))
          0 := by
  rw [(dat3 (F := Ideal) V c).arrAt_eq_of_cover 5 (G3 V c) (fun t _ => flushed3_5_eq V c t) cover3_5]
  rfl

end Cert.KernelIdeal.Hand

end
-- ==== Proof.KI.HostVal3.lean ====
import proofs.«400505_j77171972374635_2_alg».proof.Proof.Gen.KernelIdeal.Launch
import proofs.«400505_j77171972374635_2_alg».proof.Proof.Spec
import proofs.«400505_j77171972374635_2_alg».proof.Proof.LibRowDims
import Idealize.ShloMosaic.Lib.StableHlo.Run
import Idealize.ShloMosaic.Lib.Pipeline.Value
import Idealize.ShloMosaic.Lib.IdealHost
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe Idealize.SL.Sem Idealize.ShloMosaic.ValueIdx Idealize.ShloMosaic.RowDims
open scoped BigOperators
open Cert.KernelIdeal Cert.KernelIdeal.Gen

variable (W : Valuation τ sig (Elt Ideal))

private theorem host3_col_apply {α : Type} (v : S1600000.Idx → α) (e : Fin 1600000) :
    broadcastInDim S1600000x1 ![0] bcast_S1600000_S1600000x1_0 v (ix2 e 0) = v (ix1 e) :=
  broadcastInDim_apply _ _ v _ (ix1 e) (fun a => match a with | ⟨0, _⟩ => rfl)

private theorem host3_raise_apply (s : IVec S1600000 32) (e : Fin 1600000) :
    select (cmpi .slt s (broadcastInDim S1600000 ![] bcast_S_S1600000 (constantI S_ 32 0#32)))
        (addi s (broadcastInDim S1600000 ![] bcast_S_S1600000 (constantI S_ 32 100000#32))) s (ix1 e)
      = if (s (ix1 e)).slt 0#32 then s (ix1 e) + 100000#32 else s (ix1 e) := by
  show (if BitVec.ofBool ((s (ix1 e)).slt 0#32) = 1#1 then s (ix1 e) + 100000#32 else s (ix1 e)) = _
  generalize (s (ix1 e)).slt 0#32 = b
  cases b <;> rfl

private theorem host3_scat_apply (x : FVec Ideal S100000x128 .f32) (idx : IVec S1600000x1 32) (upd : FVec Ideal S1600000x128 .f32)
    (p : Fin 100000) (q : Fin 128) :
    (Host.scatterAdd (F := Ideal) scatter_S100000x128_S1600000x1_S1600000x128_1_0_0_1 x idx upd : S100000x128.Idx → EReal) (ix2 p q)
      = (x : S100000x128.Idx → EReal) (ix2 p q) + ∑ r : Fin 1600000, if (idx (ix2 r 0)).toInt = (p.val : Int)
          then (upd : S1600000x128.Idx → EReal) (ix2 r q) else 0 :=
  rowScatterAdd_apply scatter_S100000x128_S1600000x1_S1600000x128_1_0_0_1.wf x idx upd p q

private theorem host3_gath_apply (tbl : FVec Ideal S100000x128 .f32) (idx : IVec S1600000x1 32) (r : Fin 1600000) (q : Fin 128) :
    (Host.gather gather_S100000x128_S1600000x1_S1600000x128_1_0_n_n_0_1_1128 tbl idx : S1600000x128.Idx → EReal) (ix2 r q)
      = (tbl : S100000x128.Idx → EReal) (ix2 (clampRow 100000 (by decide) (idx (ix2 r 0))) q) :=
  rowGather_apply (by decide) gather_S100000x128_S1600000x1_S1600000x128_1_0_n_n_0_1_1128.wf tbl idx r q

private theorem host3_agg_apply (tbl : FVec Ideal S100000x128 .f32) (s d : IVec S1600000 32) (p : Fin 100000) (q : Fin 128) :
    (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 d)
        (Host.gather gather_S100000x128_S1600000x1_S1600000x128_1_0_n_n_0_1_1128 tbl
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s))) : S100000x128.Idx → EReal) (ix2 p q)
      = (0 : EReal) + ∑ e : Fin 1600000, if (d (ix1 e)).toInt = (p.val : Int)
          then (tbl : S100000x128.Idx → EReal) (ix2 (Cert.Spec.gRow (s (ix1 e))) q) else 0 := by
  rw [host3_scat_apply, broadcastInDim_scalar_apply, constant_apply, Ideal.ofBits_zero_f32]
  refine congrArg (fun t => (0 : EReal) + t) (Finset.sum_congr rfl fun e _ => ?_)
  rw [host3_col_apply, host3_gath_apply, host3_col_apply, host3_raise_apply]
  rfl

theorem host3_agg (p : Fin 100000) (q : Fin 128) :
      (StableHlo.after hostOps3 W (Proc.devRef .tc main_v38) : S100000x128.Idx → EReal) (ix2 p q)
        = (0 : EReal) + ∑ e : Fin 1600000, (if ((W (Proc.devRef .tc main_v3) : S1600000.Idx → BitVec 32) (ix1 e)).toInt = (p.val : Int)
            then (W (Proc.devRef .tc main_v28_1) : S100000x128.Idx → EReal) (ix2 (Cert.Spec.gRow ((W (Proc.devRef .tc main_v1) : S1600000.Idx → BitVec 32) (ix1 e))) q) else 0 : EReal) := by
  after_results_simp
  exact host3_agg_apply _ _ _ p q

theorem host3_bias (q : Fin 128) : (StableHlo.after hostOps3 W (Proc.devRef .tc main_v39) : S1x128.Idx → EReal) (ix2 0 q) = (W (Proc.devRef .tc main_arg6) : S128.Idx → EReal) (ix1 q) := by
  after_results_simp
  exact shapeCast_a_1a_apply _ _ 0 q

end Cert.KernelIdeal.Hand

end
-- ==== Proof.KI.Kv2.lean ====
import proofs.«400505_j77171972374635_2_alg».proof.Proof.KI.Kv1
import proofs.«400505_j77171972374635_2_alg».proof.Proof.KI.LinVal2
import proofs.«400505_j77171972374635_2_alg».proof.Proof.KI.PostVal3
import proofs.«400505_j77171972374635_2_alg».proof.Proof.KI.HostVal3
import Idealize.ShloMosaic.Lib.ValueIdx
import Idealize.ShloMosaic.PureOps.Ideal

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

abbrev wgt2 : Fin 128 → Fin 128 → EReal := fun k q => rdF (m ((c : Thread nD τ).loc main_arg5)) k q
abbrev bias2 : Fin 128 → EReal := fun q => rdV (m ((c : Thread nD τ).loc main_arg6)) q

variable (X : Fin 100000 → Fin 128 → EReal)
  (hX : ∀ (p : Fin 100000) (k : Fin 128), rdF (Bd4 m ρ c (Proc.devRef .tc main_v27)) p k = X p k)
  (p : Fin 100000) (q : Fin 128)
include hX

theorem kinner2 :
    (∑ k : Fin 128, rdF (Bd4 m ρ c (Proc.devRef .tc main_v27)) p k
        * rdF (Bd4 m ρ c (Proc.devRef .tc main_arg5)) k q)
      = Cert.Spec.prod X (wgt2 m c) p q :=
  Finset.sum_congr rfl fun k _ => congrArg₂ (· * ·) (hX p k) (congrFun (Bd4_arg m ρ c main_arg5 (by decide)) (ix2 k q))

theorem kprod2 :
    rdF (Bd5 m ρ c (Proc.devRef .tc main_v28_0)) p q = Cert.Spec.prod X (wgt2 m c) p q :=
  (congrFun (Bd5_arr m ρ c 3) (ix2 p q)).trans <| (lin2_prod_apply (En2 m ρ) c p q).trans (kinner2 m ρ c X hX p q)

theorem kscaled2 :
    rdF (Bd5 m ρ c (Proc.devRef .tc main_v28_1)) p q
      = Cert.Spec.prod X (wgt2 m c) p q * Cert.Spec.dis (aDst m c) p :=
  (congrFun (Bd5_arr m ρ c 4) (ix2 p q)).trans <| (lin2_scaled_apply (En2 m ρ) c p q).trans <|
    congrArg₂ (· * ·) (kinner2 m ρ c X hX p q)
      ((congrFun (Bd4_carry m ρ c main_v12 (by decide)) (ix2 p 0)).trans (dis_at1 m ρ c p))

theorem kagg2 :
    rdF (Bd6 m ρ c (Proc.devRef .tc main_v38)) p q
      = (0 : EReal) + ∑ e : Fin 1600000, if (aDst m c e).toInt = (p.val : Int)
          then Cert.Spec.prod X (wgt2 m c) (Cert.Spec.gRow (aSrc m c e)) q * Cert.Spec.dis (aDst m c) (Cert.Spec.gRow (aSrc m c e)) else 0 := by
  refine (host3_agg (Bd5 m ρ c) p q).trans <| congrArg ((0 : EReal) + ·) <| Finset.sum_congr rfl fun e _ => ?_
  rw [(congrFun (Bd5_carry m ρ c main_v3 (by decide)) (ix1 e)).trans (dst_at1 m ρ c e),
    (congrFun (Bd5_carry m ρ c main_v1 (by decide)) (ix1 e)).trans (src_at1 m ρ c e)]
  exact if_congr Iff.rfl (kscaled2 m ρ c X hX _ q) rfl

theorem out2 :
    rdF (Bd7 m ρ c (Proc.devRef .tc main_v40)) p q
      = Cert.Spec.layerK (aSrc m c) (aDst m c) true X (wgt2 m c) (bias2 m c) p q := by
  refine (congrFun (Bd7_arr m ρ c 5) (ix2 p q)).trans <| (post3_apply (En3 m ρ) c p q).trans ?_
  unfold Cert.Spec.layerK Cert.Spec.act
  rw [if_pos rfl]
  exact congrArg (max · (0 : EReal)) <| congrArg₂ (fun a b : EReal => a + b)
    (congrArg₂ (· + ·)
      (congrArg₂ (· * ·) (kagg2 m ρ c X hX p q)
        ((congrFun (Bd6_carry m ρ c main_v12 (by decide)) (ix2 p 0)).trans (dis_at1 m ρ c p)))
      (congrArg₂ (· * ·) ((congrFun (Bd6_keep m ρ c main_v28_0 (by decide)) (ix2 p q)).trans (kprod2 m ρ c X hX p q))
        ((congrFun (Bd6_carry m ρ c main_v14 (by decide)) (ix2 p 0)).trans (dis2_at1 m ρ c p))))
    ((host3_bias (Bd5 m ρ c) q).trans (congrFun (Bd5_arg m ρ c main_arg6 (by decide)) (ix1 q)))

end Cert.KernelIdeal.Hand

end
-- ==== Proof.KI.LinVal4.lean ====
import proofs.«400505_j77171972374635_2_alg».proof.Proof.KI.Lin4
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe
open Idealize.ShloMosaic.Pipeline (Dat)
open Idealize.ShloMosaic.ValueIdx Idealize.ShloMosaic.RowDims
open Cert.KernelIdeal Cert.KernelIdeal.Gen
open scoped BigOperators

variable (V : (c : Dev nD) → (b : Ref sig .tc) → Buf (Elt Ideal) ((c : Thread nD τ).loc b))

theorem dot4_plain : dot_S5000x128_S128x128_S5000x128_1_0_0_1_n_n = DotDims.plain 5000 128 128 := rfl

theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem blk4_d_apply (c : Dev nD) (t : Fin cfg4.N) (p : Fin 5000) (r : Fin 100000) (hr : r.val = t.val * 5000 + p.val) :
    (blk4 V c 2 t : S5000x1.Idx → EReal) (ix2 p 0) = (V c main_v12 : S100000x1.Idx → EReal) (ix2 r 0) := by
  obtain ⟨-, -, -, -, e0, e1, -⟩ := idx4_facts t
  exact app_eq_of_val (V c main_v12 : S100000x1.Idx → EReal) (i := ((cfg4.win 2).blk t).view.emb (ix2 p 0))
    (by show win4_2.index t (0 : Fin 2) * 5000 + 1 * p.val = r.val; omega) (by show win4_2.index t (1 : Fin 2) * 1 + 1 * (0 : Fin 1).val = (0 : Fin 1).val; omega)

def prod4 (x : S100000x128.Idx → EReal) (w : S128x128.Idx → EReal) : S100000x128.Idx → EReal :=
  fun i => ∑ k : Fin 128, x (ix2 (i 0 : Fin 100000) k) * w (ix2 k (i 1 : Fin 128))

-- A block's product entry is the whole arrays' product entry at the block's row offset.
theorem pay4_prod_at (c : Dev nD) (t : Fin cfg4.N) (p : Fin 5000) (q : Fin 128) (i : S100000x128.Idx)
    (h0 : (i 0 : Fin 100000).val = t.val * 5000 + p.val) (h1 : (i 1 : Fin 128).val = q.val) :
    (k4_pay1 (blk4 V c 0 t) (blk4 V c 1 t) : S5000x128.Idx → EReal) (ix2 p q)
      = prod4 (V c main_v40) (V c main_arg7) i := by
  obtain ⟨a0, a1, b0, b1, -⟩ := idx4_facts t
  unfold k4_pay1 prod4
  rw [dot4_plain, shapeCast_self]
  refine (matmul_plain_zero_apply none _ _ p q).trans (Finset.sum_congr rfl fun k _ => congrArg₂ (· * ·) ?_ ?_)
  · exact app_eq_of_val (V c main_v40 : S100000x128.Idx → EReal) (i := ((cfg4.win 0).blk t).view.emb (ix2 p k))
      (by show win4_0.index t (0 : Fin 2) * 5000 + 1 * p.val = (i 0 : Fin 100000).val; omega)
      (by show win4_0.index t (1 : Fin 2) * 128 + 1 * k.val = k.val; omega)
  · exact app_eq_of_val (V c main_arg7 : S128x128.Idx → EReal) (i := ((cfg4.win 1).blk t).view.emb (ix2 k q))
      (by show win4_1.index t (0 : Fin 2) * 128 + 1 * k.val = k.val; omega)
      (by show win4_1.index t (1 : Fin 2) * 128 + 1 * q.val = (i 1 : Fin 128).val; omega)

theorem flushed4_prod (c : Dev nD) (t : Fin cfg4.N) :
    (dat4 (F := Ideal) V c).flushed 3 t
      = ((cfg4.win 3).blk t).view.read (Elt Ideal) (prod4 (V c main_v40) (V c main_arg7)) := by
  show (cfg4.win 3).cut (grid4.coords t) ((dat4 (F := Ideal) V c).after 3 t) = _
  rw [dat4_after_3]
  unfold left4_3
  rw [View.canon_unit_zero zero_off]
  simp only [View.ld_unit_zero (S := S5000x128) zero_off, View.ld_unit_zero (S := S128x128) zero_off]
  obtain ⟨-, -, -, -, -, -, e0, e1, -⟩ := idx4_facts t
  funext j
  obtain ⟨p, q, rfl⟩ : ∃ (p : Fin 5000) (q : Fin 128), j = (ix2 p q : S5000x128.Idx) :=
    ⟨j 0, j 1, eq_ix2 (n0 := 5000) (n1 := 128) j⟩
  exact pay4_prod_at V c t p q (((cfg4.win 3).blk t).view.emb (ix2 p q))
    (by show win4_3.index t (0 : Fin 2) * 5000 + 1 * p.val = _; omega)
    (by show win4_3.index t (1 : Fin 2) * 128 + 1 * q.val = q.val; omega)

theorem cover4_3 (i : S100000x128.Idx) :
    ∃ t : Fin cfg4.N, (cfg4.win 3).flush t = true ∧ i ∈ ((cfg4.win 3).blk t).view.set := by
  obtain ⟨t, h⟩ := exists_rowBlock (T := cfg4.N) (B := 5000) (C := 128) (by omega) win4_3.index
    (fun t => by obtain ⟨-, -, -, -, -, -, e0, e1, -⟩ := idx4_facts t; exact ⟨e0, e1⟩) (fun a => (i a).val)
    (by rw [show cfg4.N = 20 from N_4]; exact (i 0).isLt) (i 1).isLt
  refine ⟨t, flush4_3 t, ?_⟩
  show i ∈ ((View.whole main_v41_0).slice (win4_3.rect t)).set
  rw [View.set_slice_whole, Rect.mem_set_unit]
  exact h

theorem lin4_prod_apply (c : Dev nD) (p : Fin 100000) (q : Fin 128) :
    ((dat4 (F := Ideal) V c).arrAt 3 cfg4.N : S100000x128.Idx → EReal) (ix2 p q)
      = ∑ k : Fin 128, HMul.hMul (α := EReal) (β := EReal)
          ((V c main_v40 : S100000x128.Idx → EReal) (ix2 p k)) ((V c main_arg7 : S128x128.Idx → EReal) (ix2 k q)) := by
  rw [(dat4 (F := Ideal) V c).arrAt_eq_of_cover 3 (prod4 (V c main_v40) (V c main_arg7))
    (fun t _ => flushed4_prod V c t) cover4_3]
  rfl

def scaled4 (x : S100000x128.Idx → EReal) (w : S128x128.Idx → EReal) (d : S100000x1.Idx → EReal) : S100000x128.Idx → EReal :=
  fun i => prod4 x w i * d (ix2 (i 0 : Fin 100000) 0)

theorem flushed4_scaled (c : Dev nD) (t : Fin cfg4.N) :
    (dat4 (F := Ideal) V c).flushed 4 t
      = ((cfg4.win 4).blk t).view.read (Elt Ideal) (scaled4 (V c main_v40) (V c main_arg7) (V c main_v12)) := by
  show (cfg4.win 4).cut (grid4.coords t) ((dat4 (F := Ideal) V c).after 4 t) = _
  rw [dat4_after_4]
  unfold left4_4
  rw [View.canon_unit_zero zero_off]
  simp only [View.ld_unit_zero (S := S5000x128) zero_off, View.ld_unit_zero (S := S128x128) zero_off,
    View.ld_unit_zero (S := S5000x1) zero_off]
  obtain ⟨-, -, -, -, -, -, -, -, e0, e1⟩ := idx4_facts t
  funext j
  obtain ⟨p, q, rfl⟩ : ∃ (p : Fin 5000) (q : Fin 128), j = (ix2 p q : S5000x128.Idx) :=
    ⟨j 0, j 1, eq_ix2 (n0 := 5000) (n1 := 128) j⟩
  show (k4_pay2 (blk4 V c 0 t) (blk4 V c 1 t) (blk4 V c 2 t) : S5000x128.Idx → EReal) (ix2 p q)
    = scaled4 (V c main_v40) (V c main_arg7) (V c main_v12) (((cfg4.win 4).blk t).view.emb (ix2 p q))
  have h0 : ((((cfg4.win 4).blk t).view.emb (ix2 p q) : S100000x128.Idx) 0 : Fin 100000).val = t.val * 5000 + p.val := by
    show win4_4.index t (0 : Fin 2) * 5000 + 1 * p.val = _; omega
  unfold k4_pay2
  rw [mulf_apply, shapeCast_self]
  exact congrArg₂ (· * ·)
    (pay4_prod_at V c t p q _ h0 (by show win4_4.index t (1 : Fin 2) * 128 + 1 * q.val = q.val; omega))
    ((broadcastTo_apply _ _ (ix2 p q) (ix2 p 0) fun a => by
      match a with
      | ⟨0, _⟩ => rfl
      | ⟨1, _⟩ => rfl).trans (blk4_d_apply V c t p _ h0))

theorem cover4_4 (i : S100000x128.Idx) :
    ∃ t : Fin cfg4.N, (cfg4.win 4).flush t = true ∧ i ∈ ((cfg4.win 4).blk t).view.set := by
  obtain ⟨t, h⟩ := exists_rowBlock (T := cfg4.N) (B := 5000) (C := 128) (by omega) win4_4.index
    (fun t => by obtain ⟨-, -, -, -, -, -, -, -, e0, e1⟩ := idx4_facts t; exact ⟨e0, e1⟩) (fun a => (i a).val)
    (by rw [show cfg4.N = 20 from N_4]; exact (i 0).isLt) (i 1).isLt
  refine ⟨t, flush4_4 t, ?_⟩
  show i ∈ ((View.whole main_v41_1).slice (win4_4.rect t)).set
  rw [View.set_slice_whole, Rect.mem_set_unit]
  exact h

theorem lin4_scaled_apply (c : Dev nD) (p : Fin 100000) (q : Fin 128) :
    ((dat4 (F := Ideal) V c).arrAt 4 cfg4.N : S100000x128.Idx → EReal) (ix2 p q)
      = HMul.hMul (α := EReal) (β := EReal)
          (∑ k : Fin 128, HMul.hMul (α := EReal) (β := EReal)
            ((V c main_v40 : S100000x128.Idx → EReal) (ix2 p k)) ((V c main_arg7 : S128x128.Idx → EReal) (ix2 k q)))
          ((V c main_v12 : S100000x1.Idx → EReal) (ix2 p 0)) := by
  rw [(dat4 (F := Ideal) V c).arrAt_eq_of_cover 4 (scaled4 (V c main_v40) (V c main_arg7) (V c main_v12))
    (fun t _ => flushed4_scaled V c t) cover4_4]
  rfl

end Cert.KernelIdeal.Hand

end
-- ==== Proof.KI.PostVal5.lean ====
import proofs.«400505_j77171972374635_2_alg».proof.Proof.KI.Post5
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe
open Idealize.ShloMosaic.Pipeline (Dat)
open Idealize.ShloMosaic.ValueIdx Idealize.ShloMosaic.RowDims
open Cert.KernelIdeal Cert.KernelIdeal.Gen

variable (V : (c : Dev nD) → (b : Ref sig .tc) → Buf (Elt Ideal) ((c : Thread nD τ).loc b))

def act5 (a h d e b : EReal) : EReal := a * d + h * e + b

theorem col5_apply (x : Vec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) fun a => by
    match a with
    | ⟨0, _⟩ => rfl
    | ⟨1, _⟩ => rfl

theorem pay5_apply (x0 : Vec Ideal S5000x128 .f32) (x2 : Vec Ideal S5000x1 .f32) (x1 : Vec Ideal S5000x128 .f32)
    (x3 : Vec Ideal S5000x1 .f32) (x4 : Vec Ideal S1x128 .f32) (p : Fin 5000) (q : Fin 128) :
    k5_pay1 x0 x2 x1 x3 x4 (ix2 p q) = act5 (x0 (ix2 p q)) (x1 (ix2 p q)) (x2 (ix2 p 0)) (x3 (ix2 p 0)) (x4 (ix2 0 q)) := by
  unfold k5_pay1 act5

  simp only [shapeCast_self]
  rw [addf_apply, addf_apply, mulf_apply, mulf_apply, col5_apply, col5_apply, broadcastTo_1b_ab_apply]

theorem idx5_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

def G5 (c : Dev nD) : S100000x128.Idx → EReal := fun i =>
  act5 ((V c main_v51 : S100000x128.Idx → EReal) i) ((V c main_v41_0 : S100000x128.Idx → EReal) i)
    ((V c main_v12 : S100000x1.Idx → EReal) (ix2 (i 0 : Fin 100000) (0 : Fin 1)))
    ((V c main_v14 : S100000x1.Idx → EReal) (ix2 (i 0 : Fin 100000) (0 : Fin 1)))
    ((V c main_v52 : S1x128.Idx → EReal) (ix2 (0 : Fin 1) (i 1 : Fin 128)))

theorem flushed5_5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [dat5_after_5]
  unfold left5_5
  rw [View.canon_unit_zero zero_off]
  simp only [View.ld_unit_zero (S := S5000x128) zero_off, View.ld_unit_zero (S := S5000x1) zero_off,
    View.ld_unit_zero (S := S1x128) zero_off]
  obtain ⟨a0, a1, b0, b1, c0, c1, d0, d1, f0, f1, e0, e1⟩ := idx5_facts t
  funext j
  obtain ⟨p, q, rfl⟩ : ∃ (p : Fin 5000) (q : Fin 128), j = ix2 p q := ⟨j 0, j 1, eq_ix2 j⟩
  obtain ⟨E, hE⟩ : ∃ E : S100000x128.Idx, E = ((cfg5.win 5).blk t).view.emb (ix2 p q) := ⟨_, rfl⟩
  have h0 : (E 0).val = t.val * 5000 + p.val := by
    rw [hE]; show win5_5.index t (0 : Fin 2) * 5000 + 1 * p.val = _; omega
  have h1 : (E 1).val = q.val := by
    rw [hE]; show win5_5.index t (1 : Fin 2) * 128 + 1 * q.val = _; omega
  show k5_pay1 (blk5 V c 0 t) (blk5 V c 2 t) (blk5 V c 1 t) (blk5 V c 3 t) (blk5 V c 4 t) (ix2 p q)
    = G5 V c (((cfg5.win 5).blk t).view.emb (ix2 p q))
  rw [← hE, pay5_apply]
  unfold G5
  refine congr (congr (congr (congr (congrArg act5 ?_) ?_) ?_) ?_) ?_
  · exact app_eq_of_val (V c main_v51 : S100000x128.Idx → EReal) (i := ((cfg5.win 0).blk t).view.emb (ix2 p q))
      (by show win5_0.index t (0 : Fin 2) * 5000 + 1 * p.val = (E 0).val; omega)
      (by show win5_0.index t (1 : Fin 2) * 128 + 1 * q.val = (E 1).val; omega)
  · exact app_eq_of_val (V c main_v41_0 : S100000x128.Idx → EReal) (i := ((cfg5.win 1).blk t).view.emb (ix2 p q))
      (by show win5_1.index t (0 : Fin 2) * 5000 + 1 * p.val = (E 0).val; omega)
      (by show win5_1.index t (1 : Fin 2) * 128 + 1 * q.val = (E 1).val; omega)
  · exact app_eq_of_val (V c main_v12 : S100000x1.Idx → EReal) (i := ((cfg5.win 2).blk t).view.emb (ix2 p 0))
      (by show win5_2.index t (0 : Fin 2) * 5000 + 1 * p.val = (E 0).val; omega)
      (by show win5_2.index t (1 : Fin 2) * 1 + 1 * 0 = 0; omega)
  · exact app_eq_of_val (V c main_v14 : S100000x1.Idx → EReal) (i := ((cfg5.win 3).blk t).view.emb (ix2 p 0))
      (by show win5_3.index t (0 : Fin 2) * 5000 + 1 * p.val = (E 0).val; omega)
      (by show win5_3.index t (1 : Fin 2) * 1 + 1 * 0 = 0; omega)
  · exact app_eq_of_val (V c main_v52 : S1x128.Idx → EReal) (i := ((cfg5.win 4).blk t).view.emb (ix2 0 q))
      (by show win5_4.index t (0 : Fin 2) * 1 + 1 * 0 = 0; omega)
      (by show win5_4.index t (1 : Fin 2) * 128 + 1 * q.val = (E 1).val; omega)

theorem cover5_5 (i : S100000x128.Idx) :
    ∃ t : Fin cfg5.N, (cfg5.win 5).flush t = true ∧ i ∈ ((cfg5.win 5).blk t).view.set := by
  obtain ⟨t, h⟩ := exists_rowBlock (T := cfg5.N) (B := 5000) (C := 128) (by omega) win5_5.index
    (fun t => by obtain ⟨-, -, -, -, -, -, -, -, -, -, e0, e1⟩ := idx5_facts t; exact ⟨e0, e1⟩) (fun a => (i a).val)
    (by rw [show cfg5.N = 20 from N_1]; exact (i 0).isLt) (i 1).isLt
  refine ⟨t, flush5_5 t, ?_⟩
  show i ∈ ((View.whole main_v53).slice (win5_5.rect t)).set
  rw [View.set_slice_whole, Rect.mem_set_unit]
  exact h

theorem post5_apply (c : Dev nD) (p : Fin 100000) (q : Fin 128) :
    ((dat5 (F := Ideal) V c).arrAt 5 cfg5.N : S100000x128.Idx → EReal) (ix2 p q)
      = (@HAdd.hAdd EReal EReal EReal _
            (@HAdd.hAdd EReal EReal EReal _
              (@HMul.hMul EReal EReal EReal _ ((V c main_v51 : S100000x128.Idx → EReal) (ix2 p q))
                ((V c main_v12 : S100000x1.Idx → EReal) (ix2 p 0)))
              (@HMul.hMul EReal EReal EReal _ ((V c main_v41_0 : S100000x128.Idx → EReal) (ix2 p q))
                ((V c main_v14 : S100000x1.Idx → EReal) (ix2 p 0))))
            ((V c main_v52 : S1x128.Idx → EReal) (ix2 0 q))) := by
  rw [(dat5 (F := Ideal) V c).arrAt_eq_of_cover 5 (G5 V c) (fun t _ => flushed5_5_eq V c t) cover5_5]
  rfl

end Cert.KernelIdeal.Hand

end
-- ==== Proof.KI.HostVal5.lean ====
import proofs.«400505_j77171972374635_2_alg».proof.Proof.Gen.KernelIdeal.Launch
import proofs.«400505_j77171972374635_2_alg».proof.Proof.Spec
import proofs.«400505_j77171972374635_2_alg».proof.Proof.LibRowDims
import Idealize.ShloMosaic.Lib.StableHlo.Run
import Idealize.ShloMosaic.Lib.Pipeline.Value
import Idealize.ShloMosaic.Lib.IdealHost
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe Idealize.SL.Sem Idealize.ShloMosaic.ValueIdx Idealize.ShloMosaic.RowDims
open scoped BigOperators
open Cert.KernelIdeal Cert.KernelIdeal.Gen

variable (W : Valuation τ sig (Elt Ideal))

private theorem host5_col_apply {α : Type} (v : S1600000.Idx → α) (e : Fin 1600000) :
    broadcastInDim S1600000x1 ![0] bcast_S1600000_S1600000x1_0 v (ix2 e 0) = v (ix1 e) :=
  broadcastInDim_apply _ _ v _ (ix1 e) (fun a => match a with | ⟨0, _⟩ => rfl)

private theorem host5_raise_apply (s : IVec S1600000 32) (e : Fin 1600000) :
    select (cmpi .slt s (broadcastInDim S1600000 ![] bcast_S_S1600000 (constantI S_ 32 0#32)))
        (addi s (broadcastInDim S1600000 ![] bcast_S_S1600000 (constantI S_ 32 100000#32))) s (ix1 e)
      = if (s (ix1 e)).slt 0#32 then s (ix1 e) + 100000#32 else s (ix1 e) := by
  show (if BitVec.ofBool ((s (ix1 e)).slt 0#32) = 1#1 then s (ix1 e) + 100000#32 else s (ix1 e)) = _
  generalize (s (ix1 e)).slt 0#32 = b
  cases b <;> rfl

private theorem host5_scat_apply (x : FVec Ideal S100000x128 .f32) (idx : IVec S1600000x1 32) (upd : FVec Ideal S1600000x128 .f32)
    (p : Fin 100000) (q : Fin 128) :
    (Host.scatterAdd (F := Ideal) scatter_S100000x128_S1600000x1_S1600000x128_1_0_0_1 x idx upd : S100000x128.Idx → EReal) (ix2 p q)
      = (x : S100000x128.Idx → EReal) (ix2 p q) + ∑ r : Fin 1600000, if (idx (ix2 r 0)).toInt = (p.val : Int)
          then (upd : S1600000x128.Idx → EReal) (ix2 r q) else 0 :=
  rowScatterAdd_apply scatter_S100000x128_S1600000x1_S1600000x128_1_0_0_1.wf x idx upd p q

private theorem host5_gath_apply (tbl : FVec Ideal S100000x128 .f32) (idx : IVec S1600000x1 32) (r : Fin 1600000) (q : Fin 128) :
    (Host.gather gather_S100000x128_S1600000x1_S1600000x128_1_0_n_n_0_1_1128 tbl idx : S1600000x128.Idx → EReal) (ix2 r q)
      = (tbl : S100000x128.Idx → EReal) (ix2 (clampRow 100000 (by decide) (idx (ix2 r 0))) q) :=
  rowGather_apply (by decide) gather_S100000x128_S1600000x1_S1600000x128_1_0_n_n_0_1_1128.wf tbl idx r q

private theorem host5_agg_apply (tbl : FVec Ideal S100000x128 .f32) (s d : IVec S1600000 32) (p : Fin 100000) (q : Fin 128) :
    (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 d)
        (Host.gather gather_S100000x128_S1600000x1_S1600000x128_1_0_n_n_0_1_1128 tbl
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s))) : S100000x128.Idx → EReal) (ix2 p q)
      = (0 : EReal) + ∑ e : Fin 1600000, if (d (ix1 e)).toInt = (p.val : Int)
          then (tbl : S100000x128.Idx → EReal) (ix2 (Cert.Spec.gRow (s (ix1 e))) q) else 0 := by
  rw [host5_scat_apply, broadcastInDim_scalar_apply, constant_apply, Ideal.ofBits_zero_f32]
  refine congrArg (fun t => (0 : EReal) + t) (Finset.sum_congr rfl fun e _ => ?_)
  rw [host5_col_apply, host5_gath_apply, host5_col_apply, host5_raise_apply]
  rfl

theorem host5_agg (p : Fin 100000) (q : Fin 128) :
      (StableHlo.after hostOps5 W (Proc.devRef .tc main_v51) : S100000x128.Idx → EReal) (ix2 p q)
        = (0 : EReal) + ∑ e : Fin 1600000, (if ((W (Proc.devRef .tc main_v3) : S1600000.Idx → BitVec 32) (ix1 e)).toInt = (p.val : Int)
            then (W (Proc.devRef .tc main_v41_1) : S100000x128.Idx → EReal) (ix2 (Cert.Spec.gRow ((W (Proc.devRef .tc main_v1) : S1600000.Idx → BitVec 32) (ix1 e))) q) else 0 : EReal) := by
  after_results_simp
  exact host5_agg_apply _ _ _ p q

theorem host5_bias (q : Fin 128) : (StableHlo.after hostOps5 W (Proc.devRef .tc main_v52) : S1x128.Idx → EReal) (ix2 0 q) = (W (Proc.devRef .tc main_arg8) : S128.Idx → EReal) (ix1 q) := by
  after_results_simp
  exact shapeCast_a_1a_apply _ _ 0 q

end Cert.KernelIdeal.Hand

end
-- ==== Proof.KI.Kv3.lean ====
import proofs.«400505_j77171972374635_2_alg».proof.Proof.KI.Kv2
import proofs.«400505_j77171972374635_2_alg».proof.Proof.KI.LinVal4
import proofs.«400505_j77171972374635_2_alg».proof.Proof.KI.PostVal5
import proofs.«400505_j77171972374635_2_alg».proof.Proof.KI.HostVal5
import Idealize.ShloMosaic.Lib.ValueIdx
import Idealize.ShloMosaic.PureOps.Ideal

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

abbrev wgt3 : Fin 128 → Fin 128 → EReal := fun k q => rdF (m ((c : Thread nD τ).loc main_arg7)) k q
abbrev bias3 : Fin 128 → EReal := fun q => rdV (m ((c : Thread nD τ).loc main_arg8)) q

variable (X : Fin 100000 → Fin 128 → EReal)
  (hX : ∀ (p : Fin 100000) (k : Fin 128), rdF (Bd7 m ρ c (Proc.devRef .tc main_v40)) p k = X p k)
  (p : Fin 100000) (q : Fin 128)
include hX

theorem kinner3 :
    (∑ k : Fin 128, rdF (Bd7 m ρ c (Proc.devRef .tc main_v40)) p k
        * rdF (Bd7 m ρ c (Proc.devRef .tc main_arg7)) k q)
      = Cert.Spec.prod X (wgt3 m c) p q :=
  Finset.sum_congr rfl fun k _ => congrArg₂ (· * ·) (hX p k) (congrFun (Bd7_arg m ρ c main_arg7 (by decide)) (ix2 k q))

theorem kprod3 :
    rdF (Bd8 m ρ c (Proc.devRef .tc main_v41_0)) p q = Cert.Spec.prod X (wgt3 m c) p q :=
  (congrFun (Bd8_arr m ρ c 3) (ix2 p q)).trans <| (lin4_prod_apply (En4 m ρ) c p q).trans (kinner3 m ρ c X hX p q)

theorem kscaled3 :
    rdF (Bd8 m ρ c (Proc.devRef .tc main_v41_1)) p q
      = Cert.Spec.prod X (wgt3 m c) p q * Cert.Spec.dis (aDst m c) p :=
  (congrFun (Bd8_arr m ρ c 4) (ix2 p q)).trans <| (lin4_scaled_apply (En4 m ρ) c p q).trans <|
    congrArg₂ (· * ·) (kinner3 m ρ c X hX p q)
      ((congrFun (Bd7_carry m ρ c main_v12 (by decide)) (ix2 p 0)).trans (dis_at1 m ρ c p))

theorem kagg3 :
    rdF (Bd9 m ρ c (Proc.devRef .tc main_v51)) p q
      = (0 : EReal) + ∑ e : Fin 1600000, if (aDst m c e).toInt = (p.val : Int)
          then Cert.Spec.prod X (wgt3 m c) (Cert.Spec.gRow (aSrc m c e)) q * Cert.Spec.dis (aDst m c) (Cert.Spec.gRow (aSrc m c e)) else 0 := by
  refine (host5_agg (Bd8 m ρ c) p q).trans <| congrArg ((0 : EReal) + ·) <| Finset.sum_congr rfl fun e _ => ?_
  rw [(congrFun (Bd8_carry m ρ c main_v3 (by decide)) (ix1 e)).trans (dst_at1 m ρ c e),
    (congrFun (Bd8_carry m ρ c main_v1 (by decide)) (ix1 e)).trans (src_at1 m ρ c e)]
  exact if_congr Iff.rfl (kscaled3 m ρ c X hX _ q) rfl

theorem out3 :
    rdF (Bd10 m ρ c (Proc.devRef .tc main_v53)) p q
      = Cert.Spec.layerK (aSrc m c) (aDst m c) false X (wgt3 m c) (bias3 m c) p q := by
  refine (congrFun (Bd10_arr m ρ c 5) (ix2 p q)).trans <| (post5_apply (En5 m ρ) c p q).trans ?_
  unfold Cert.Spec.layerK Cert.Spec.act
  rw [if_neg Bool.false_ne_true]
  exact congrArg₂ (fun a b : EReal => a + b)
    (congrArg₂ (· + ·)
      (congrArg₂ (· * ·) (kagg3 m ρ c X hX p q)
        ((congrFun (Bd9_carry m ρ c main_v12 (by decide)) (ix2 p 0)).trans (dis_at1 m ρ c p)))
      (congrArg₂ (· * ·) ((congrFun (Bd9_keep m ρ c main_v41_0 (by decide)) (ix2 p q)).trans (kprod3 m ρ c X hX p q))
        ((congrFun (Bd9_carry m ρ c main_v14 (by decide)) (ix2 p 0)).trans (dis2_at1 m ρ c p))))
    ((host5_bias (Bd8 m ρ c) q).trans (congrFun (Bd8_arg m ρ c main_arg8 (by decide)) (ix1 q)))

end Cert.KernelIdeal.Hand

end
-- ==== Proof.KI.PoolVal6.lean ====
import proofs.«400505_j77171972374635_2_alg».proof.Proof.KI.Pool6
import proofs.«400505_j77171972374635_2_alg».proof.Proof.Spec
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.RowDims
open Cert.KernelIdeal Cert.KernelIdeal.Gen
open scoped BigOperators

variable (V : (c : Dev nD) → (b : Ref sig .tc) → Buf (Elt Ideal) ((c : Thread nD τ).loc b))

theorem word6_eq_iff (w : BitVec 32) (g : Fin 256) : w = BitVec.ofNat 32 g.val ↔ w.toInt = (g.val : Int) := by
  have hg := g.isLt
  have h1 : (BitVec.ofNat 32 g.val).toInt = (g.val : Int) := by
    rw [BitVec.toInt_eq_toNat_of_lt (by rw [BitVec.toNat_ofNat]; omega), BitVec.toNat_ofNat]
    omega
  constructor
  · rintro rfl; exact h1
  · intro h; exact BitVec.eq_of_toInt_eq (h.trans h1.symm)

def hot6 (w : BitVec 32) (g : Fin 256) : EReal := if w.toInt = (g.val : Int) then 1 else 0

theorem pay6_bit_apply (ids : Vec Ideal S2000x1 .i32) (k : Fin 2000) (g : Fin 256) :
    (k6_pay3 (F := Ideal) ids : S2000x256.Idx → BitVec 1) (ix2 k g)
      = BitVec.ofBool ((ids : S2000x1.Idx → BitVec 32) (ix2 k 0) == BitVec.ofNat 32 g.val) := by
  unfold k6_pay3
  show IntOp.cmpi .eq _ _ = _
  rw [shapeCast_self, shapeCast_self, iota_single_apply]
  rw [broadcastTo_apply (ids : S2000x1.Idx → BitVec 32) _ (ix2 k g) (ix2 k 0) (fun a => by
    match a with
    | ⟨0, _⟩ => rfl
    | ⟨1, _⟩ => rfl)]
  rfl

theorem pay6_hot_apply (ids : Vec Ideal S2000x1 .i32) (k : Fin 2000) (g : Fin 256) :
    (sitofp (F := Ideal) .f32 (extui 32 (k6_pay3 (F := Ideal) ids) natLt_1_32) : S2000x256.Idx → EReal) (ix2 k g)
      = hot6 ((ids : S2000x1.Idx → BitVec 32) (ix2 k 0)) g := by
  rw [sitofp_apply, extui_apply, pay6_bit_apply]
  unfold hot6
  by_cases h : (ids : S2000x1.Idx → BitVec 32) (ix2 k 0) = BitVec.ofNat 32 g.val
  · rw [if_pos ((word6_eq_iff _ g).mp h), h]
    simp only [beq_self_eq_true, BitVec.ofBool_true]
    show ((((1#1 : BitVec 1).setWidth 32).toInt : ℝ) : EReal) = 1
    rw [show ((1#1 : BitVec 1).setWidth 32).toInt = 1 from by decide, Int.cast_one, EReal.coe_one]
  · rw [if_neg (fun h' => h ((word6_eq_iff _ g).mpr h'))]
    have : ((ids : S2000x1.Idx → BitVec 32) (ix2 k 0) == BitVec.ofNat 32 g.val) = false := by
      simpa using h
    rw [this]
    show ((((BitVec.ofBool false).setWidth 32).toInt : ℝ) : EReal) = 0
    rw [show ((BitVec.ofBool false).setWidth 32).toInt = 0 from by decide, Int.cast_zero, EReal.coe_zero]

theorem dot6_lhs_col (f : Fin 128) (g : Fin 256) (k : dot_S2000x128_S2000x256_S128x256_0_0_1_1_n_n.contr.Idx) :
    (dot_S2000x128_S2000x256_S128x256_0_0_1_1_n_n.lhsIdx (ix2 f g) k 1).val = f.val := rfl

theorem dot6_rhs_col (f : Fin 128) (g : Fin 256) (k : dot_S2000x128_S2000x256_S128x256_0_0_1_1_n_n.contr.Idx) :
    (dot_S2000x128_S2000x256_S128x256_0_0_1_1_n_n.rhsIdx (ix2 f g) k 1).val = g.val := rfl

theorem dot6_lhs_row (f : Fin 128) (g : Fin 256) (k : Fin 2000) :
    (dot_S2000x128_S2000x256_S128x256_0_0_1_1_n_n.lhsIdx (ix2 f g)
      ((contrEquiv1 dot_S2000x128_S2000x256_S128x256_0_0_1_1_n_n 2000 rfl rfl).symm k) 0).val = k.val :=
  (dot_S2000x128_S2000x256_S128x256_0_0_1_1_n_n.lhsIdx_val_of_single (cl := 0) rfl _ _).trans
    (contrEquiv1_symm_val dot_S2000x128_S2000x256_S128x256_0_0_1_1_n_n 2000 rfl rfl k)

theorem dot6_rhs_row (f : Fin 128) (g : Fin 256) (k : Fin 2000) :
    (dot_S2000x128_S2000x256_S128x256_0_0_1_1_n_n.rhsIdx (ix2 f g)
      ((contrEquiv1 dot_S2000x128_S2000x256_S128x256_0_0_1_1_n_n 2000 rfl rfl).symm k) 0).val = k.val :=
  (dot_S2000x128_S2000x256_S128x256_0_0_1_1_n_n.rhsIdx_val_of_single (cr := 0) rfl _ _).trans
    (contrEquiv1_symm_val dot_S2000x128_S2000x256_S128x256_0_0_1_1_n_n 2000 rfl rfl k)

theorem dot6_sum (lhs : S2000x128.Idx → EReal) (rhs : S2000x256.Idx → EReal) (f : Fin 128) (g : Fin 256) :
    ∑ k : dot_S2000x128_S2000x256_S128x256_0_0_1_1_n_n.contr.Idx,
        lhs (dot_S2000x128_S2000x256_S128x256_0_0_1_1_n_n.lhsIdx (ix2 f g) k)
          * rhs (dot_S2000x128_S2000x256_S128x256_0_0_1_1_n_n.rhsIdx (ix2 f g) k)
      = ∑ k : Fin 2000, lhs (ix2 k f) * rhs (ix2 k g) := by
  rw [← Equiv.sum_comp (contrEquiv1 dot_S2000x128_S2000x256_S128x256_0_0_1_1_n_n 2000 rfl rfl).symm]
  refine Finset.sum_congr rfl fun k _ => ?_
  exact congrArg₂ (· * ·) (app_eq_of_val lhs (dot6_lhs_row f g k) (dot6_lhs_col f g _))
    (app_eq_of_val rhs (dot6_rhs_row f g k) (dot6_rhs_col f g _))

theorem pay6_sum_apply (ids : Vec Ideal S2000x1 .i32) (x : Vec Ideal S2000x128 .f32) (s0 : Vec Ideal S128x256 .f32)
    (f : Fin 128) (g : Fin 256) :
    (k6_pay4 ids x s0 : S128x256.Idx → EReal) (ix2 f g)
      = (s0 : S128x256.Idx → EReal) (ix2 f g)
        + ∑ k : Fin 2000, (x : S2000x128.Idx → EReal) (ix2 k f) * hot6 ((ids : S2000x1.Idx → BitVec 32) (ix2 k 0)) g := by
  unfold k6_pay4
  rw [shapeCast_self, addf_apply]
  refine congrArg _ ?_
  refine (Ideal.matmul_constant_zero_apply _ none _ _ (ix2 f g)).trans ?_
  refine (dot6_sum _ _ f g).trans ?_
  refine Finset.sum_congr rfl fun k _ => ?_
  rw [truncf_apply, truncf_apply, shapeCast_self, pay6_hot_apply]

theorem pay6_cnt_apply (ids : Vec Ideal S2000x1 .i32) (s1 : Vec Ideal S1x256 .f32) (g : Fin 256) :
    (k6_pay5 ids s1 : S1x256.Idx → EReal) (ix2 0 g)
      = (s1 : S1x256.Idx → EReal) (ix2 0 g) + ∑ k : Fin 2000, hot6 ((ids : S2000x1.Idx → BitVec 32) (ix2 k 0)) g := by
  unfold k6_pay5
  rw [shapeCast_self, addf_apply]
  refine congrArg _ ?_

  rw [shapeCast_apply _ _ (ix2 0 g) (ix1 g) (by
    rw [Shape.rowMajor_val_one, Shape.rowMajor_val_two]
    show g.val = 0 * 256 + g.val
    omega)]

  refine (Ideal.multiReduction_add_single _ 0x00000000#32 reduces_S2000x256_S256 _ _ (ix1 g)).trans ?_
  refine Finset.sum_congr rfl fun (k : Fin 2000) _ => ?_
  have hl : reduces_S2000x256_S256.lift (ix1 g) k = (ix2 k g : S2000x256.Idx) := by
    funext a
    refine Fin.ext ?_
    match a with
    | ⟨0, _⟩ => rfl
    | ⟨1, _⟩ => rfl
  rw [hl, pay6_hot_apply]

theorem idx6_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

theorem blk6_x_apply (c : Dev nD) (t : Fin cfg6.N) (k : Fin 2000) (f : Fin 128) (r : Fin 100000) (hr : r.val = t.val * 2000 + k.val) :
    (blk6 V c 0 t : S2000x128.Idx → EReal) (ix2 k f) = (V c main_v53 : S100000x128.Idx → EReal) (ix2 r f) := by
  obtain ⟨e0, e1, -⟩ := idx6_facts t
  exact app_eq_of_val (V c main_v53 : S100000x128.Idx → EReal) (i := ((cfg6.win 0).blk t).view.emb (ix2 k f))
    (show win6_0.index t (0 : Fin 2) * 2000 + 1 * k.val = r.val by omega) (show win6_0.index t (1 : Fin 2) * 128 + 1 * f.val = f.val by omega)

theorem blk6_ids_apply (c : Dev nD) (t : Fin cfg6.N) (k : Fin 2000) (r : Fin 100000) (hr : r.val = t.val * 2000 + k.val) :
    (blk6 V c 1 t : S2000x1.Idx → BitVec 32) (ix2 k 0) = (V c main_v4 : S100000x1.Idx → BitVec 32) (ix2 r 0) := by
  obtain ⟨-, -, e0, e1, -⟩ := idx6_facts t
  exact app_eq_of_val (V c main_v4 : S100000x1.Idx → BitVec 32) (i := ((cfg6.win 1).blk t).view.emb (ix2 k 0))
    (show win6_1.index t (0 : Fin 2) * 2000 + 1 * k.val = r.val by omega)
    (show win6_1.index t (1 : Fin 2) * 1 + 1 * (0 : Fin 1).val = (0 : Fin 1).val by omega)

def sumTerm6 (c : Dev nD) (f : Fin 128) (g : Fin 256) (m : ℕ) : EReal :=
  if h : m < 100000 then
    (if ((V c main_v4 : S100000x1.Idx → BitVec 32) (ix2 (⟨m, h⟩ : Fin 100000) 0)).toInt = (g.val : Int)
      then (V c main_v53 : S100000x128.Idx → EReal) (ix2 (⟨m, h⟩ : Fin 100000) f) else 0)
  else 0

def cntTerm6 (c : Dev nD) (g : Fin 256) (m : ℕ) : EReal :=
  if h : m < 100000 then
    (if ((V c main_v4 : S100000x1.Idx → BitVec 32) (ix2 (⟨m, h⟩ : Fin 100000) 0)).toInt = (g.val : Int) then 1 else 0)
  else 0

theorem step6a_apply (c : Dev nD) (t : Fin cfg6.N) (s0 : Vec Ideal S128x256 .f32) (f : Fin 128) (g : Fin 256) :
    (step6a s0 (blk6 V c 1 t) (blk6 V c 0 t) : S128x256.Idx → EReal) (ix2 f g)
      = (s0 : S128x256.Idx → EReal) (ix2 f g) + ∑ k ∈ Finset.range 2000, sumTerm6 V c f g (t.val * 2000 + k) := by
  have hN : t.val < 50 := lt_of_lt_of_eq t.isLt (show cfg6.N = 50 from N_6)
  rw [step6a_eq, pay6_sum_apply, ← Fin.sum_univ_eq_sum_range]
  refine congrArg _ (Finset.sum_congr rfl fun (k : Fin 2000) _ => ?_)
  have hk := k.isLt
  have hm : t.val * 2000 + k.val < 100000 := by omega
  rw [blk6_x_apply V c t k f ⟨t.val * 2000 + k.val, hm⟩ rfl, blk6_ids_apply V c t k ⟨t.val * 2000 + k.val, hm⟩ rfl]
  unfold sumTerm6 hot6
  rw [dif_pos hm, mul_ite, mul_one, mul_zero]

theorem step6b_apply (c : Dev nD) (t : Fin cfg6.N) (s1 : Vec Ideal S1x256 .f32) (g : Fin 256) :
    (step6b s1 (blk6 V c 1 t) : S1x256.Idx → EReal) (ix2 0 g)
      = (s1 : S1x256.Idx → EReal) (ix2 0 g) + ∑ k ∈ Finset.range 2000, cntTerm6 V c g (t.val * 2000 + k) := by
  have hN : t.val < 50 := lt_of_lt_of_eq t.isLt (show cfg6.N = 50 from N_6)
  rw [step6b_eq, pay6_cnt_apply, ← Fin.sum_univ_eq_sum_range]
  refine congrArg _ (Finset.sum_congr rfl fun (k : Fin 2000) _ => ?_)
  have hk := k.isLt
  have hm : t.val * 2000 + k.val < 100000 := by omega
  rw [blk6_ids_apply V c t k ⟨t.val * 2000 + k.val, hm⟩ rfl]
  unfold cntTerm6 hot6
  rw [dif_pos hm]

theorem zero6a_apply (i : S128x256.Idx) : (zero6a (F := Ideal) : S128x256.Idx → EReal) i = 0 := by
  rw [zero6a_eq]
  unfold k6_pay1
  rw [shapeCast_self]
  exact Ideal.ofBits_zero_f32

theorem zero6b_apply (i : S1x256.Idx) : (zero6b (F := Ideal) : S1x256.Idx → EReal) i = 0 := by
  rw [zero6b_eq]
  unfold k6_pay2
  rw [shapeCast_self]
  exact Ideal.ofBits_zero_f32

theorem acc6_zero_1 (c : Dev nD) (h : 0 < cfg6.N) :
    (acc6 V c 0 h).1 = step6a zero6a (blk6 V c 1 ⟨0, h⟩) (blk6 V c 0 ⟨0, h⟩) := congrArg Prod.fst (acc6_zero V c h)
theorem acc6_zero_2 (c : Dev nD) (h : 0 < cfg6.N) :
    (acc6 V c 0 h).2 = step6b zero6b (blk6 V c 1 ⟨0, h⟩) := congrArg Prod.snd (acc6_zero V c h)
theorem acc6_succ_1 (c : Dev nD) (n : ℕ) (h : n + 1 < cfg6.N) :
    (acc6 V c (n + 1) h).1 = step6a (acc6 V c n (Nat.lt_of_succ_lt h)).1 (blk6 V c 1 ⟨n + 1, h⟩) (blk6 V c 0 ⟨n + 1, h⟩) :=
  congrArg Prod.fst (acc6_succ V c n h)
theorem acc6_succ_2 (c : Dev nD) (n : ℕ) (h : n + 1 < cfg6.N) :
    (acc6 V c (n + 1) h).2 = step6b (acc6 V c n (Nat.lt_of_succ_lt h)).2 (blk6 V c 1 ⟨n + 1, h⟩) :=
  congrArg Prod.snd (acc6_succ V c n h)

theorem acc6_sum_apply (c : Dev nD) (f : Fin 128) (g : Fin 256) (n : ℕ) (h : n < cfg6.N) :
    ((acc6 V c n h).1 : S128x256.Idx → EReal) (ix2 f g)
      = 0 + ∑ m ∈ Finset.range ((n + 1) * 2000), sumTerm6 V c f g m := by
  induction n with
  | zero =>
    rw [acc6_zero_1, step6a_apply V c ⟨0, h⟩ zero6a f g, zero6a_apply]
    refine congrArg _ (Finset.sum_congr rfl fun k _ => ?_)
    show sumTerm6 V c f g (0 * 2000 + k) = sumTerm6 V c f g k
    rw [Nat.zero_mul, Nat.zero_add]
  | succ n ih =>
    rw [acc6_succ_1, step6a_apply V c ⟨n + 1, h⟩ _ f g, ih (Nat.lt_of_succ_lt h), add_assoc]
    refine congrArg _ ?_
    rw [show (n + 1 + 1) * 2000 = (n + 1) * 2000 + 2000 from by ring, Finset.sum_range_add]

theorem acc6_cnt_apply (c : Dev nD) (g : Fin 256) (n : ℕ) (h : n < cfg6.N) :
    ((acc6 V c n h).2 : S1x256.Idx → EReal) (ix2 0 g)
      = 0 + ∑ m ∈ Finset.range ((n + 1) * 2000), cntTerm6 V c g m := by
  induction n with
  | zero =>
    rw [acc6_zero_2, step6b_apply V c ⟨0, h⟩ zero6b g, zero6b_apply]
    refine congrArg _ (Finset.sum_congr rfl fun k _ => ?_)
    show cntTerm6 V c g (0 * 2000 + k) = cntTerm6 V c g k
    rw [Nat.zero_mul, Nat.zero_add]
  | succ n ih =>
    rw [acc6_succ_2, step6b_apply V c ⟨n + 1, h⟩ _ g, ih (Nat.lt_of_succ_lt h), add_assoc]
    refine congrArg _ ?_
    rw [show (n + 1 + 1) * 2000 = (n + 1) * 2000 + 2000 from by ring, Finset.sum_range_add]

theorem last6_lt : 49 < cfg6.N := by rw [show cfg6.N = 50 from N_6]; omega

theorem acc6_of_flush (c : Dev nD) (t : Fin cfg6.N) (ht : t.val % 50 = 49) : acc6 V c t.val t.isLt = acc6 V c 49 last6_lt := by
  have hN : t.val < 50 := lt_of_lt_of_eq t.isLt (show cfg6.N = 50 from N_6)
  obtain ⟨n, hn⟩ := t
  have e : n = 49 := by
    have h1 : n % 50 = 49 := ht
    have h2 : n < 50 := hN
    omega
  subst e
  rfl

theorem flushed6_sums (c : Dev nD) (t : Fin cfg6.N) (hf : (cfg6.win 2).flush t = true) :
    (dat6 (F := Ideal) V c).flushed 2 t = ((cfg6.win 2).blk t).view.read (Elt Ideal) (acc6 V c 49 last6_lt).1 := by
  show (cfg6.win 2).cut (grid6.coords t) ((dat6 (F := Ideal) V c).after 2 t) = _
  rw [dat6_after_2, acc6_of_flush V c t ((flush6_2 t).mp hf)]
  obtain ⟨-, -, -, -, e0, e1, -⟩ := idx6_facts t
  exact funext fun j => app_eq_of_val (acc6 V c 49 last6_lt).1 (j := ((cfg6.win 2).blk t).view.emb j)
    (show (j 0).val = win6_2.index t (0 : Fin 2) * 128 + 1 * (j 0).val by omega) (show (j 1).val = win6_2.index t (1 : Fin 2) * 256 + 1 * (j 1).val by omega)

theorem flushed6_cnts (c : Dev nD) (t : Fin cfg6.N) (hf : (cfg6.win 3).flush t = true) :
    (dat6 (F := Ideal) V c).flushed 3 t = ((cfg6.win 3).blk t).view.read (Elt Ideal) (acc6 V c 49 last6_lt).2 := by
  show (cfg6.win 3).cut (grid6.coords t) ((dat6 (F := Ideal) V c).after 3 t) = _
  rw [dat6_after_3, acc6_of_flush V c t ((flush6_3 t).mp hf)]
  obtain ⟨-, -, -, -, -, -, e0, e1⟩ := idx6_facts t
  exact funext fun j => app_eq_of_val (acc6 V c 49 last6_lt).2 (j := ((cfg6.win 3).blk t).view.emb j)
    (show (j 0).val = win6_3.index t (0 : Fin 2) * 1 + 1 * (j 0).val by omega) (show (j 1).val = win6_3.index t (1 : Fin 2) * 256 + 1 * (j 1).val by omega)

theorem mem_blk6_2 (t : Fin cfg6.N) (i : S128x256.Idx) : i ∈ ((cfg6.win 2).blk t).view.set := by
  obtain ⟨-, -, -, -, e0, e1, -⟩ := idx6_facts t
  show i ∈ ((View.whole main_v54_0).slice (win6_2.rect t)).set
  rw [View.set_slice_whole, Rect.mem_set_unit]
  intro a
  match a with
  | ⟨0, _⟩ =>
    show win6_2.index t (0 : Fin 2) * 128 ≤ (i 0).val ∧ (i 0).val < win6_2.index t (0 : Fin 2) * 128 + 128
    have hi : (i 0).val < 128 := (i 0).isLt
    omega
  | ⟨1, _⟩ =>
    show win6_2.index t (1 : Fin 2) * 256 ≤ (i 1).val ∧ (i 1).val < win6_2.index t (1 : Fin 2) * 256 + 256
    have hi : (i 1).val < 256 := (i 1).isLt
    omega

theorem mem_blk6_3 (t : Fin cfg6.N) (i : S1x256.Idx) : i ∈ ((cfg6.win 3).blk t).view.set := by
  obtain ⟨-, -, -, -, -, -, e0, e1⟩ := idx6_facts t
  show i ∈ ((View.whole main_v54_1).slice (win6_3.rect t)).set
  rw [View.set_slice_whole, Rect.mem_set_unit]
  intro a
  match a with
  | ⟨0, _⟩ =>
    show win6_3.index t (0 : Fin 2) * 1 ≤ (i 0).val ∧ (i 0).val < win6_3.index t (0 : Fin 2) * 1 + 1
    have hi : (i 0).val < 1 := (i 0).isLt
    omega
  | ⟨1, _⟩ =>
    show win6_3.index t (1 : Fin 2) * 256 ≤ (i 1).val ∧ (i 1).val < win6_3.index t (1 : Fin 2) * 256 + 256
    have hi : (i 1).val < 256 := (i 1).isLt
    omega

theorem pool6_sums_eq (c : Dev nD) : (dat6 (F := Ideal) V c).arrAt 2 cfg6.N = (acc6 V c 49 last6_lt).1 :=
  (dat6 (F := Ideal) V c).arrAt_eq_of_cover 2 (acc6 V c 49 last6_lt).1 (flushed6_sums V c) fun i => ⟨⟨49, last6_lt⟩, (flush6_2 _).mpr rfl, mem_blk6_2 _ i⟩

theorem pool6_cnts_eq (c : Dev nD) : (dat6 (F := Ideal) V c).arrAt 3 cfg6.N = (acc6 V c 49 last6_lt).2 :=
  (dat6 (F := Ideal) V c).arrAt_eq_of_cover 3 (acc6 V c 49 last6_lt).2 (flushed6_cnts V c) fun i => ⟨⟨49, last6_lt⟩, (flush6_3 _).mpr rfl, mem_blk6_3 _ i⟩

theorem pool6_sums_apply (c : Dev nD) (f : Fin 128) (g : Fin 256) :
    ((dat6 (F := Ideal) V c).arrAt 2 cfg6.N : S128x256.Idx → EReal) (ix2 f g)
      = (0 : EReal) + ∑ n : Fin 100000, (if ((V c main_v4 : S100000x1.Idx → BitVec 32) (ix2 n 0)).toInt = (g.val : Int)
          then (V c main_v53 : S100000x128.Idx → EReal) (ix2 n f) else 0 : EReal) := by
  rw [pool6_sums_eq, acc6_sum_apply V c f g 49 last6_lt]
  refine congrArg _ ?_
  rw [show (49 + 1) * 2000 = 100000 from rfl, ← Fin.sum_univ_eq_sum_range]
  refine Finset.sum_congr rfl fun n _ => ?_
  unfold sumTerm6
  rw [dif_pos n.isLt]

theorem pool6_cnts_apply (c : Dev nD) (g : Fin 256) :
    ((dat6 (F := Ideal) V c).arrAt 3 cfg6.N : S1x256.Idx → EReal) (ix2 0 g)
      = (0 : EReal) + ∑ n : Fin 100000, if ((V c main_v4 : S100000x1.Idx → BitVec 32) (ix2 n 0)).toInt = (g.val : Int)
          then Cert.Spec.lit1 else 0 := by
  rw [pool6_cnts_eq, acc6_cnt_apply V c g 49 last6_lt, Cert.Spec.lit1_eq]
  refine congrArg _ ?_
  rw [show (49 + 1) * 2000 = 100000 from rfl, ← Fin.sum_univ_eq_sum_range]
  refine Finset.sum_congr rfl fun n _ => ?_
  unfold cntTerm6
  rw [dif_pos n.isLt]

end Cert.KernelIdeal.Hand

end
-- ==== Proof.KI.HostVal7.lean ====
import proofs.«400505_j77171972374635_2_alg».proof.Proof.Gen.KernelIdeal.Launch
import proofs.«400505_j77171972374635_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Idealize.ShloMosaic Idealize.ShloMosaic.TcCoe Idealize.SL.Sem Idealize.ShloMosaic.ValueIdx Cert.KernelIdeal Cert.KernelIdeal.Gen

variable (W : Valuation τ sig (Elt Ideal))

theorem h7_col_of_row_apply {α : Type} (x : S1x256.Idx → α) (g : Fin 256) :
    shapeCast S256x1 x shapeCasts_S1x256_S256x1 (ix2 g 0) = x (ix2 0 g) :=
  shapeCast_apply x _ _ _ (by
    rw [Shape.rowMajor_val_two, Shape.rowMajor_val_two]
    show 0 * 256 + g.val = g.val * 1 + 0
    omega)

theorem h7_spread_col_apply {α : Type} (x : S256x1.Idx → α) (g : Fin 256) (f : Fin 128) :
    broadcastInDim S256x128 ![0, 1] bcast_S256x1_S256x128_0_1 x (ix2 g f) = x (ix2 g 0) :=
  broadcastInDim_apply _ _ x _ _ fun a => match a with | ⟨0, _⟩ => rfl | ⟨1, _⟩ => rfl

theorem host7_pooled (g : Fin 256) (f : Fin 128) :
    (StableHlo.after (hostOps7 (F := Ideal)) W (Proc.devRef .tc main_v60) : S256x128.Idx → EReal) (ix2 g f)
      = Ideal.div ((W (Proc.devRef .tc main_v54_0) : S128x256.Idx → EReal) (ix2 f g))
          (max ((W (Proc.devRef .tc main_v54_1) : S1x256.Idx → EReal) (ix2 0 g)) Cert.Spec.lit1) := by
  after_results
  show Ideal.div
      (transpose S256x128 [1, 0] (W (Proc.devRef .tc main_v54_0) : S128x256.Idx → EReal) transposes_S128x256_S256x128_1_0 (ix2 g f))
      (broadcastInDim S256x128 ![0, 1] bcast_S256x1_S256x128_0_1
        (maximumf (F := Ideal) (φ := .f32)
          (shapeCast S256x1 (W (Proc.devRef .tc main_v54_1) : S1x256.Idx → EReal) shapeCasts_S1x256_S256x1)
          (broadcastInDim S256x1 ![] bcast_S_S256x1 (constant (F := Ideal) S_ .f32 0x3F800000#32))) (ix2 g f)) = _
  rw [transpose_ix2_apply, h7_spread_col_apply, maximumf_apply, h7_col_of_row_apply, broadcastInDim_scalar_apply]
  rfl

theorem host7_b4 (j : Fin 64) :
    (StableHlo.after (hostOps7 (F := Ideal)) W (Proc.devRef .tc main_v61) : S1x64.Idx → EReal) (ix2 0 j)
      = (W (Proc.devRef .tc main_arg10) : S64.Idx → EReal) (ix1 j) := by
  after_results
  exact shapeCast_a_1a_apply _ _ 0 j

theorem host7_b5 (k : Fin 3) :
    (StableHlo.after (hostOps7 (F := Ideal)) W (Proc.devRef .tc main_v62) : S1x3.Idx → EReal) (ix2 0 k)
      = (W (Proc.devRef .tc main_arg12) : S3.Idx → EReal) (ix1 k) := by
  after_results
  exact shapeCast_a_1a_apply _ _ 0 k

end Cert.KernelIdeal.Hand

end
-- ==== Proof.KI.ClsVal7.lean ====
import proofs.«400505_j77171972374635_2_alg».proof.Proof.KI.Cls7
import proofs.«400505_j77171972374635_2_alg».proof.Proof.LibRowDims
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.RowDims
open scoped BigOperators
open Cert.KernelIdeal Cert.KernelIdeal.Gen

variable (V : (c : Dev nD) → (b : Ref sig .tc) → Buf (Elt Ideal) ((c : Thread nD τ).loc b))

theorem dot7_first_plain : dot_S256x128_S128x64_S256x64_1_0_0_1_n_n = DotDims.plain 256 128 64 := rfl

theorem dot7_second_plain : dot_S256x64_S64x3_S256x3_1_0_0_1_n_n = DotDims.plain 256 64 3 := rfl

abbrev cls7_entry (P : S256x128.Idx → EReal) (W : S128x64.Idx → EReal) (b : S1x64.Idx → EReal) (U : S64x3.Idx → EReal)
    (e : S1x3.Idx → EReal) (g : Fin 256) (k : Fin 3) : EReal :=
  (∑ j : Fin 64, max ((∑ f : Fin 128, P (ix2 g f) * W (ix2 f j)) + b (ix2 0 j)) 0 * U (ix2 j k)) + e (ix2 0 k)

theorem k7_pay1_apply (x0 : Vec Ideal S256x128 .f32) (x1 : Vec Ideal S128x64 .f32) (x2 : Vec Ideal S1x64 .f32)
    (x3 : Vec Ideal S64x3 .f32) (x4 : Vec Ideal S1x3 .f32) (g : Fin 256) (k : Fin 3) :
    (k7_pay1 x0 x1 x2 x3 x4 : S256x3.Idx → EReal) (ix2 g k) = cls7_entry x0 x1 x2 x3 x4 g k := by
  unfold k7_pay1 cls7_entry

  rw [shapeCast_self, shapeCast_self, shapeCast_self, addf_apply, dot7_second_plain]
  simp only [Idealize.ShloMosaic.matmul]
  rw [matmul_plain_zero_apply, broadcastTo_1b_ab_apply]
  congr 1
  refine Finset.sum_congr rfl fun j _ => ?_

  rw [truncf_apply, truncf_apply, maximumf_apply, addf_apply, broadcast_apply, dot7_first_plain, matmul_plain_zero_apply,
    broadcastTo_1b_ab_apply, Ideal.ofBits_def, Ideal.ofBits_zero_f32]
  simp only [truncf_apply]

theorem idx7_zero : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

theorem blk7_0_eq (c : Dev nD) (t : Fin cfg7.N) : (blk7 V c 0 t : S256x128.Idx → EReal) = V c main_v60 := by
  obtain ⟨e0, e1, -⟩ := idx7_zero t
  exact funext fun y => app_eq_of_val (V c main_v60 : S256x128.Idx → EReal) (i := ((cfg7.win 0).blk t).view.emb y)
    (show win7_0.index t (0 : Fin 2) * 256 + 1 * (y 0).val = _ by omega) (show win7_0.index t (1 : Fin 2) * 128 + 1 * (y 1).val = _ by omega)

theorem blk7_1_eq (c : Dev nD) (t : Fin cfg7.N) : (blk7 V c 1 t : S128x64.Idx → EReal) = V c main_arg9 := by
  obtain ⟨-, -, e0, e1, -⟩ := idx7_zero t
  exact funext fun y => app_eq_of_val (V c main_arg9 : S128x64.Idx → EReal) (i := ((cfg7.win 1).blk t).view.emb y)
    (show win7_1.index t (0 : Fin 2) * 128 + 1 * (y 0).val = _ by omega) (show win7_1.index t (1 : Fin 2) * 64 + 1 * (y 1).val = _ by omega)

theorem blk7_2_eq (c : Dev nD) (t : Fin cfg7.N) : (blk7 V c 2 t : S1x64.Idx → EReal) = V c main_v61 := by
  obtain ⟨-, -, -, -, e0, e1, -⟩ := idx7_zero t
  exact funext fun y => app_eq_of_val (V c main_v61 : S1x64.Idx → EReal) (i := ((cfg7.win 2).blk t).view.emb y)
    (show win7_2.index t (0 : Fin 2) * 1 + 1 * (y 0).val = _ by omega) (show win7_2.index t (1 : Fin 2) * 64 + 1 * (y 1).val = _ by omega)

theorem blk7_3_eq (c : Dev nD) (t : Fin cfg7.N) : (blk7 V c 3 t : S64x3.Idx → EReal) = V c main_arg11 := by
  obtain ⟨-, -, -, -, -, -, e0, e1, -⟩ := idx7_zero t
  exact funext fun y => app_eq_of_val (V c main_arg11 : S64x3.Idx → EReal) (i := ((cfg7.win 3).blk t).view.emb y)
    (show win7_3.index t (0 : Fin 2) * 64 + 1 * (y 0).val = _ by omega) (show win7_3.index t (1 : Fin 2) * 3 + 1 * (y 1).val = _ by omega)

theorem blk7_4_eq (c : Dev nD) (t : Fin cfg7.N) : (blk7 V c 4 t : S1x3.Idx → EReal) = V c main_v62 := by
  obtain ⟨-, -, -, -, -, -, -, -, e0, e1, -⟩ := idx7_zero t
  exact funext fun y => app_eq_of_val (V c main_v62 : S1x3.Idx → EReal) (i := ((cfg7.win 4).blk t).view.emb y)
    (show win7_4.index t (0 : Fin 2) * 1 + 1 * (y 0).val = _ by omega) (show win7_4.index t (1 : Fin 2) * 3 + 1 * (y 1).val = _ by omega)

theorem read_blk7_5 (t : Fin cfg7.N) (G : S256x3.Idx → EReal) :
    (((cfg7.win 5).blk t).view.read (Elt Ideal) G : S256x3.Idx → EReal) = G := by
  obtain ⟨-, -, -, -, -, -, -, -, -, -, e0, e1⟩ := idx7_zero t
  exact funext fun y => app_eq_of_val G (i := ((cfg7.win 5).blk t).view.emb y)
    (show win7_5.index t (0 : Fin 2) * 256 + 1 * (y 0).val = _ by omega) (show win7_5.index t (1 : Fin 2) * 3 + 1 * (y 1).val = _ by omega)

theorem flushed7_eq (c : Dev nD) (t : Fin cfg7.N) :
    (dat7 V c).flushed 5 t = ((cfg7.win 5).blk t).view.read (Elt Ideal)
      (k7_pay1 (V c main_v60) (V c main_arg9) (V c main_v61) (V c main_arg11) (V c main_v62) : S256x3.Idx → EReal) := by
  show (cfg7.win 5).cut (grid7.coords t) ((dat7 V c).after 5 t) = _
  rw [dat7_after_5]
  unfold left7_5
  rw [View.canon_unit_zero zero_off]
  simp only [View.ld_unit_zero (S := S256x128) zero_off, View.ld_unit_zero (S := S128x64) zero_off, View.ld_unit_zero (S := S1x64) zero_off,
    View.ld_unit_zero (S := S64x3) zero_off, View.ld_unit_zero (S := S1x3) zero_off]
  rw [blk7_0_eq, blk7_1_eq, blk7_2_eq, blk7_3_eq, blk7_4_eq, read_blk7_5]
  rfl

theorem mem_blk7_5 (t : Fin cfg7.N) (i : S256x3.Idx) : i ∈ ((cfg7.win 5).blk t).view.set := by
  obtain ⟨-, -, -, -, -, -, -, -, -, -, e0, e1⟩ := idx7_zero t
  show i ∈ ((View.whole main_v63).slice (win7_5.rect t)).set
  rw [View.set_slice_whole, Rect.mem_set_unit]
  intro a
  match a with
  | ⟨0, _⟩ =>
    show win7_5.index t (0 : Fin 2) * 256 ≤ (i 0).val ∧ (i 0).val < win7_5.index t (0 : Fin 2) * 256 + 256
    have hi : (i 0).val < 256 := (i 0).isLt
    omega
  | ⟨1, _⟩ =>
    show win7_5.index t (1 : Fin 2) * 3 ≤ (i 1).val ∧ (i 1).val < win7_5.index t (1 : Fin 2) * 3 + 3
    have hi : (i 1).val < 3 := (i 1).isLt
    omega

theorem cls7_apply (c : Dev nD) (g : Fin 256) (k : Fin 3) :
    ((dat7 (F := Ideal) V c).arrAt 5 cfg7.N : S256x3.Idx → EReal) (ix2 g k)
      = cls7_entry (V c main_v60) (V c main_arg9) (V c main_v61) (V c main_arg11) (V c main_v62) g k := by
  rw [(dat7 V c).arrAt_eq_of_cover 5 _ (fun t _ => flushed7_eq V c t) (fun i => ⟨t7_0, flush7_5 _, mem_blk7_5 _ i⟩)]
  exact k7_pay1_apply (V c main_v60) (V c main_arg9) (V c main_v61) (V c main_arg11) (V c main_v62) g k

end Cert.KernelIdeal.Hand

end
-- ==== Proof.KI.Kv4.lean ====
import proofs.«400505_j77171972374635_2_alg».proof.Proof.KI.Kv3
import proofs.«400505_j77171972374635_2_alg».proof.Proof.KI.PoolVal6
import proofs.«400505_j77171972374635_2_alg».proof.Proof.KI.HostVal7
import proofs.«400505_j77171972374635_2_alg».proof.Proof.KI.ClsVal7
import Idealize.ShloMosaic.Lib.ValueIdx
import Idealize.ShloMosaic.PureOps.Ideal

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

abbrev aX : Fin 100000 → Fin 66 → EReal := fun p k => rdF (m ((c : Thread nD τ).loc main_arg0)) p k
abbrev wgt4 : Fin 128 → Fin 64 → EReal := fun f j => rdF (m ((c : Thread nD τ).loc main_arg9)) f j
abbrev bias4 : Fin 64 → EReal := fun j => rdV (m ((c : Thread nD τ).loc main_arg10)) j
abbrev wgt5 : Fin 64 → Fin 3 → EReal := fun j k => rdF (m ((c : Thread nD τ).loc main_arg11)) j k
abbrev bias5 : Fin 3 → EReal := fun k => rdV (m ((c : Thread nD τ).loc main_arg12)) k

variable (H : Fin 100000 → Fin 128 → EReal)

theorem batch_at10 (n : Fin 100000) : rdI (Bd10 m ρ c (Proc.devRef .tc main_v4)) n 0 = aBatch m c n :=
  (congrFun (Bd10_carry m ρ c main_v4 (by decide)) (ix2 n 0)).trans (batch_at1 m ρ c n)

theorem ite_toInt_congr {α : Type} {a b : BitVec 32} {x y : α} (h : a = b) (hx : x = y) (k : Int) (z : α) :
    (if a.toInt = k then x else z) = if b.toInt = k then y else z := h ▸ hx ▸ rfl

theorem pool_cnts (g : Fin 256) :
    rdF (Bd11 m ρ c (Proc.devRef .tc main_v54_1)) 0 g = Cert.Spec.poolCnt (aBatch m c) g :=
  (congrFun (Bd11_arr m ρ c 3) (ix2 0 g)).trans <| (pool6_cnts_apply (En6 m ρ) c g).trans <|
    congrArg ((0 : EReal) + ·) <| Finset.sum_congr rfl fun n _ => ite_toInt_congr (batch_at10 m ρ c n) rfl _ _

theorem cls_congr {A A' : Fin 256 → Fin 128 → EReal} {B B' : Fin 128 → Fin 64 → EReal} {C C' : Fin 64 → EReal}
    {D D' : Fin 64 → Fin 3 → EReal} {E E' : Fin 3 → EReal} (hA : A = A') (hB : B = B') (hC : C = C') (hD : D = D') (hE : E = E')
    (g : Fin 256) (k : Fin 3) : Cert.Spec.cls A B C D E g k = Cert.Spec.cls A' B' C' D' E' g k := by
  rw [hA, hB, hC, hD, hE]

section
variable (hH : ∀ (p : Fin 100000) (q : Fin 128), rdF (Bd10 m ρ c (Proc.devRef .tc main_v53)) p q = H p q)
include hH

theorem pool_sums (f : Fin 128) (g : Fin 256) :
    rdF (Bd11 m ρ c (Proc.devRef .tc main_v54_0)) f g = Cert.Spec.poolSum (aBatch m c) H g f :=
  (congrFun (Bd11_arr m ρ c 2) (ix2 f g)).trans <| (pool6_sums_apply (En6 m ρ) c f g).trans <|
    congrArg ((0 : EReal) + ·) <| Finset.sum_congr rfl fun n _ => ite_toInt_congr (batch_at10 m ρ c n) (hH n f) _ _

theorem pooled_at (g : Fin 256) (f : Fin 128) :
    rdF (Bd12 m ρ c (Proc.devRef .tc main_v60)) g f = Cert.Spec.pooled (aBatch m c) H g f :=
  (host7_pooled (Bd11 m ρ c) g f).trans <|
    congrArg₂ Ideal.div (pool_sums m ρ c H hH f g) (congrArg (max · Cert.Spec.lit1) (pool_cnts m ρ c g))

theorem result_at (g : Fin 256) (k : Fin 3) :
    rdF (Bd13 m ρ c (Proc.devRef .tc main_v63)) g k
      = Cert.Spec.cls (Cert.Spec.pooled (aBatch m c) H) (wgt4 m c) (bias4 m c) (wgt5 m c) (bias5 m c) g k :=
  (congrFun (Bd13_arr m ρ c 5) (ix2 g k)).trans <| (cls7_apply (En7 m ρ) c g k).trans <|
    cls_congr (funext₂ fun g f => pooled_at m ρ c H hH g f)
      (funext₂ fun f j => congrFun (Bd12_arg m ρ c main_arg9 (by decide)) (ix2 f j))
      (funext fun j => (host7_b4 (Bd11 m ρ c) j).trans (congrFun (Bd11_arg m ρ c main_arg10 (by decide)) (ix1 j)))
      (funext₂ fun j k => congrFun (Bd12_arg m ρ c main_arg11 (by decide)) (ix2 j k))
      (funext fun k => (host7_b5 (Bd11 m ρ c) k).trans (congrFun (Bd11_arg m ρ c main_arg12 (by decide)) (ix1 k))) g k

end

theorem kernel_apply (g : Fin 256) (k : Fin 3) :
    rdF (M := 256) (N := 3) (Bd13 m ρ c (Proc.devRef .tc main_v63)) g k
      = Cert.Spec.netK (aSrc m c) (aDst m c) (aBatch m c) (aX m c) (wgt1 m c) (bias1 m c) (wgt2 m c) (bias2 m c) (wgt3 m c) (bias3 m c)
          (wgt4 m c) (bias4 m c) (wgt5 m c) (bias5 m c) g k := by
  unfold Cert.Spec.netK
  refine result_at m ρ c _ (fun p q => ?_) g k
  refine out3 m ρ c _ (fun p k => ?_) p q
  refine out2 m ρ c _ (fun p k => ?_) p k
  refine out1 m ρ c (aX m c) (fun p k => ?_) p k
  exact congrFun (Bd1_arg m ρ c main_arg0 (by decide)) (ix2 p k)

end Cert.KernelIdeal.Hand

end
-- ==== Proof.RefVal.lean ====
import proofs.«400505_j77171972374635_2_alg».proof.Proof.Gen.ReferenceIdeal.Run
import proofs.«400505_j77171972374635_2_alg».proof.Proof.Gen.ReferenceIdeal.Read
import proofs.«400505_j77171972374635_2_alg».proof.Proof.Spec
import proofs.«400505_j77171972374635_2_alg».proof.Proof.LibRowDims
import proofs.«400505_j77171972374635_2_alg».proof.Proof.LibRow1

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.RowDims Cert.ReferenceIdeal.Read Cert.Spec

theorem rec_rowGather : gather_S100000x128_S1600000x1_S1600000x128_1_0_n_n_0_1_1128
    = rowGather 100000 128 1600000 Facts₀.gather_S100000x128_S1600000x1_S1600000x128_1_0_n_n_0_1_1128_wf := rfl

theorem rec_rowScatter : scatter_S100000x128_S1600000x1_S1600000x128_1_0_0_1
    = rowScatter 100000 128 1600000 Facts₀.scatter_S100000x128_S1600000x1_S1600000x128_1_0_0_1_wf := rfl

theorem rec_vecGather : gather_S100000_S1600000x1_S1600000_n_0_n_n_0_1_1
    = vecGather 100000 1600000 Facts₀.gather_S100000_S1600000x1_S1600000_n_0_n_n_0_1_1_wf := rfl

theorem rec_vecScatter : scatter_S100000_S1600000x1_S1600000_n_0_0_1
    = vecScatter 100000 1600000 Facts₀.scatter_S100000_S1600000x1_S1600000_n_0_0_1_wf := rfl

theorem rec_poolScatter : scatter_S256x128_S100000x1_S100000x128_1_0_0_1
    = rowScatter 256 128 100000 Facts₀.scatter_S256x128_S100000x1_S100000x128_1_0_0_1_wf := rfl

theorem rec_cntScatter : scatter_S256_S100000x1_S100000_n_0_0_1
    = vecScatter 256 100000 Facts₀.scatter_S256_S100000x1_S100000_n_0_0_1_wf := rfl

theorem idx1_ext {n : Nat} (i j : (⟨1, ![n]⟩ : Shape).Idx) (h0 : (i 0).val = (j 0).val) : i = j := by
  funext a
  match a with
  | ⟨0, _⟩ => exact Fin.ext h0

theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

theorem src_apply (x1 : (⟨S2x1600000, .i32⟩ : BufTy).Contents (Elt Ideal)) (e : Fin 1600000) :
    val_main_v1 (F := Ideal) x1 (ix1 e) = x1 (ix2 0 e) := by
  rw [val_main_v1_apply, val_main_v0_apply]
  refine congrArg x1 (idx2_ext _ _ rfl ?_)
  show e.val % 1600000 = e.val
  exact Nat.mod_eq_of_lt e.isLt

theorem dst_apply (x1 : (⟨S2x1600000, .i32⟩ : BufTy).Contents (Elt Ideal)) (e : Fin 1600000) :
    val_main_v3 (F := Ideal) x1 (ix1 e) = x1 (ix2 1 e) := by
  rw [val_main_v3_apply, val_main_v2_apply]
  refine congrArg x1 (idx2_ext _ _ rfl ?_)
  show e.val % 1600000 = e.val
  exact Nat.mod_eq_of_lt e.isLt

theorem col_apply {α : Type} (v : S1600000.Idx → α) (e : Fin 1600000) :
    broadcastInDim S1600000x1 ![0] bcast_S1600000_S1600000x1_0 v (ix2 e 0) = v (ix1 e) :=
  broadcastInDim_apply _ bcast_S1600000_S1600000x1_0 v (ix2 e 0) (ix1 e) (fun a => match a with
    | ⟨0, _⟩ => by show e.val = if (1600000 : Nat) = 1 then 0 else e.val; rw [if_neg (by decide)])

def nrmVec (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

theorem nrmVec_apply (v : IVec S1600000 32) (e : Fin 1600000) :
    nrmVec v (ix2 e 0) = (if (v (ix1 e)).slt 0#32 then v (ix1 e) + 100000#32 else v (ix1 e)) := by
  unfold nrmVec
  rw [col_apply]
  show (if BitVec.ofBool ((v (ix1 e)).slt 0#32) = 1#1 then v (ix1 e) + 100000#32 else v (ix1 e)) = _
  cases (v (ix1 e)).slt 0#32
  · rw [if_neg (by decide), if_neg (by decide)]
  · rw [if_pos (by decide), if_pos rfl]

theorem clamp_nrmVec (v : IVec S1600000 32) (e : Fin 1600000) :
    clampRow 100000 (by decide) (nrmVec v (ix2 e 0)) = gRow (v (ix1 e)) := by
  rw [nrmVec_apply]
  rfl

theorem hrsqrt_apply {s : Shape} (x : FVec Ideal s .f32) (j : s.Idx) : Host.rsqrt x j = Ideal.rsqrt (x j) := rfl

theorem hdivf_apply {s : Shape} (x y : FVec Ideal s .f32) (j : s.Idx) : Host.divf x y j = Ideal.div (x j) (y j) := rfl

theorem zeros_apply {s : Shape} (h : S_.BroadcastsInDim s ![]) (j : s.Idx) :
    broadcastInDim s ![] h (constant (F := Ideal) S_ .f32 0x00000000#32) j = 0 := Ideal.ofBits_zero_f32

theorem ones_apply {s : Shape} (h : S_.BroadcastsInDim s ![]) (j : s.Idx) :
    broadcastInDim s ![] h (constant (F := Ideal) S_ .f32 0x3F800000#32) j = lit1 := rfl

theorem vecScatterAdd_host {N R w : Nat} (wf : ScatterDims.WF ⟨1, ![N]⟩ ⟨2, ![R, 1]⟩ ⟨1, ![R]⟩ [] [0] [0] 1)
    (x : FVec Ideal ⟨1, ![N]⟩ .f32) (idx : IVec ⟨2, ![R, 1]⟩ w) (upd : FVec Ideal ⟨1, ![R]⟩ .f32) (a : Fin N) :
    Host.scatterAdd (vecScatter N R wf) x idx upd (ix1 a)
      = x (ix1 a) + ∑ r : Fin R, if (idx (ix2 r 0)).toInt = (a.val : Int) then upd (ix1 r) else 0 :=
  vecScatterAdd_apply wf x idx upd a

theorem rowScatterAdd_host {N C R w : Nat} (wf : ScatterDims.WF ⟨2, ![N, C]⟩ ⟨2, ![R, 1]⟩ ⟨2, ![R, C]⟩ [1] [0] [0] 1)
    (x : FVec Ideal ⟨2, ![N, C]⟩ .f32) (idx : IVec ⟨2, ![R, 1]⟩ w) (upd : FVec Ideal ⟨2, ![R, C]⟩ .f32)
    (a : Fin N) (b : Fin C) :
    Host.scatterAdd (rowScatter N C R wf) x idx upd (ix2 a b)
      = x (ix2 a b) + ∑ r : Fin R, if (idx (ix2 r 0)).toInt = (a.val : Int) then upd (ix2 r b) else 0 :=
  rowScatterAdd_apply wf x idx upd a b

def disT (t : IVec S1600000 32) : FVec Ideal S100000 .f32 :=
  Host.rsqrt (addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 t)
      (broadcastInDim S1600000 ![] bcast_S_S1600000 (constant (F := Ideal) S_ .f32 0x3F800000#32)))
    (broadcastInDim S100000 ![] bcast_S_S100000 (constant (F := Ideal) S_ .f32 0x3F800000#32)))

theorem disT_apply (t : IVec S1600000 32) (dst : Fin 1600000 → BitVec 32) (ht : ∀ e, t (ix1 e) = dst e)
    (i : Fin 100000) : disT t (ix1 i) = dis dst i := by
  unfold disT dis deg
  rw [hrsqrt_apply, addf_apply, rec_vecScatter, vecScatterAdd_host]
  rw [zeros_apply, ones_apply]
  refine congrArg Ideal.rsqrt (congrArg (· + lit1) (congrArg ((0 : EReal) + ·) (Finset.sum_congr rfl fun e _ => ?_)))
  rw [col_apply, ht, ones_apply]

theorem dis_val (x1 : (⟨S2x1600000, .i32⟩ : BufTy).Contents (Elt Ideal)) (i : Fin 100000) :
    val_main_v10 (F := Ideal) x1 (ix1 i) = dis (fun e => x1 (ix2 1 e)) i :=
  disT_apply (val_main_v3 (F := Ideal) x1) _ (dst_apply x1) i

theorem bcast_col {α : Type} {n : Nat} (hn : n ≠ 1) (h : (⟨1, ![n]⟩ : Shape).BroadcastsInDim ⟨2, ![n, 1]⟩ ![0])
    (v : (⟨1, ![n]⟩ : Shape).Idx → α) (e : Fin n) : broadcastInDim ⟨2, ![n, 1]⟩ ![0] h v (ix2 e 0) = v (ix1 e) :=
  broadcastInDim_apply _ h v (ix2 e 0) (ix1 e) (fun a => match a with
    | ⟨0, _⟩ => by show e.val = if n = 1 then 0 else e.val; rw [if_neg hn])

theorem bcast_wide {α : Type} {n c : Nat} (hn : n ≠ 1)
    (h : (⟨2, ![n, 1]⟩ : Shape).BroadcastsInDim ⟨2, ![n, c]⟩ ![0, 1]) (v : (⟨2, ![n, 1]⟩ : Shape).Idx → α)
    (e : Fin n) (q : Fin c) : broadcastInDim ⟨2, ![n, c]⟩ ![0, 1] h v (ix2 e q) = v (ix2 e 0) :=
  broadcastInDim_apply _ h v (ix2 e q) (ix2 e 0) (fun a => match a with
    | ⟨0, _⟩ => by show e.val = if n = 1 then 0 else e.val; rw [if_neg hn]
    | ⟨1, _⟩ => by show 0 = if (1 : Nat) = 1 then 0 else q.val; rw [if_pos rfl])

theorem bcast_row1 {α : Type} {c : Nat} (hc : c ≠ 1) (h : (⟨1, ![c]⟩ : Shape).BroadcastsInDim ⟨2, ![1, c]⟩ ![1])
    (v : (⟨1, ![c]⟩ : Shape).Idx → α) (q : Fin c) : broadcastInDim ⟨2, ![1, c]⟩ ![1] h v (ix2 0 q) = v (ix1 q) :=
  broadcastInDim_apply _ h v (ix2 0 q) (ix1 q) (fun a => match a with
    | ⟨0, _⟩ => by show q.val = if c = 1 then 0 else q.val; rw [if_neg hc])

theorem bcast_rows {α : Type} {n c : Nat} (hc : c ≠ 1)
    (h : (⟨2, ![1, c]⟩ : Shape).BroadcastsInDim ⟨2, ![n, c]⟩ ![0, 1]) (v : (⟨2, ![1, c]⟩ : Shape).Idx → α)
    (p : Fin n) (q : Fin c) : broadcastInDim ⟨2, ![n, c]⟩ ![0, 1] h v (ix2 p q) = v (ix2 0 q) :=
  broadcastInDim_apply _ h v (ix2 p q) (ix2 0 q) (fun a => match a with
    | ⟨0, _⟩ => by show 0 = if (1 : Nat) = 1 then 0 else p.val; rw [if_pos rfl]
    | ⟨1, _⟩ => by show q.val = if c = 1 then 0 else q.val; rw [if_neg hc])

def layerT (h : FVec Ideal S100000x128 .f32) (d : FVec Ideal S100000 .f32) (s t : IVec S1600000 32)
    (bias : FVec Ideal S128 .f32) : FVec Ideal S100000x128 .f32 :=
  addf
    (addf
      (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 t)
        (mulf (Host.gather gather_S100000x128_S1600000x1_S1600000x128_1_0_n_n_0_1_1128 h (nrmVec s))
          (broadcastInDim S1600000x128 ![0, 1] bcast_S1600000x1_S1600000x128_0_1
            (broadcastInDim S1600000x1 ![0] bcast_S1600000_S1600000x1_0
              (mulf (Host.gather gather_S100000_S1600000x1_S1600000_n_0_n_n_0_1_1 d (nrmVec s))
                (Host.gather gather_S100000_S1600000x1_S1600000_n_0_n_n_0_1_1 d (nrmVec t)))))))
      (mulf h
        (broadcastInDim S100000x128 ![0, 1] bcast_S100000x1_S100000x128_0_1
          (broadcastInDim S100000x1 ![0] bcast_S100000_S100000x1_0 (mulf d d)))))
    (broadcastInDim S100000x128 ![0, 1] bcast_S1x128_S100000x128_0_1
      (broadcastInDim S1x128 ![1] bcast_S128_S1x128_1 bias))

theorem layerT_apply (h : FVec Ideal S100000x128 .f32) (d : FVec Ideal S100000 .f32) (s t : IVec S1600000 32)
    (bias : FVec Ideal S128 .f32) (H : Fin 100000 → Fin 128 → EReal) (D : Fin 100000 → EReal)
    (src dst : Fin 1600000 → BitVec 32) (B : Fin 128 → EReal)
    (hh : ∀ p q, h (ix2 p q) = H p q) (hd : ∀ i, d (ix1 i) = D i) (hs : ∀ e, s (ix1 e) = src e)
    (ht : ∀ e, t (ix1 e) = dst e) (hb : ∀ q, bias (ix1 q) = B q) (p : Fin 100000) (q : Fin 128) :
    layerT h d s t bias (ix2 p q)
      = (((0 : EReal) + ∑ e : Fin 1600000, if (dst e).toInt = (p.val : Int)
            then H (gRow (src e)) q * (D (gRow (src e)) * D (gRow (dst e))) else 0)
          + H p q * (D p * D p)) + B q := by
  unfold layerT
  rw [addf_apply, addf_apply, rec_rowScatter, rowScatterAdd_host, zeros_apply, mulf_apply,
    bcast_wide (by decide), bcast_col (by decide), mulf_apply, hd, hh, bcast_rows (by decide),
    bcast_row1 (by decide), hb]
  refine congrArg (· + B q) (congrArg (· + H p q * (D p * D p)) (congrArg ((0 : EReal) + ·)
    (Finset.sum_congr rfl fun e _ => ?_)))
  rw [col_apply, ht, mulf_apply, rec_rowGather, rowGather_apply (by decide), clamp_nrmVec, hs, hh,
    bcast_wide (by decide), col_apply, mulf_apply, rec_vecGather, vecGather_apply (by decide),
    vecGather_apply (by decide), clamp_nrmVec, clamp_nrmVec, hs, ht, hd, hd]

abbrev srcOf (x1 : (⟨S2x1600000, .i32⟩ : BufTy).Contents (Elt Ideal)) : Fin 1600000 → BitVec 32 := fun e => x1 (ix2 0 e)

abbrev dstOf (x1 : (⟨S2x1600000, .i32⟩ : BufTy).Contents (Elt Ideal)) : Fin 1600000 → BitVec 32 := fun e => x1 (ix2 1 e)

abbrev mat {m n : Nat} (x : (⟨2, ![m, n]⟩ : Shape).Idx → EReal) : Fin m → Fin n → EReal := fun p k => x (ix2 p k)

abbrev vec {n : Nat} (x : (⟨1, ![n]⟩ : Shape).Idx → EReal) : Fin n → EReal := fun q => x (ix1 q)

abbrev ids {n : Nat} (x : (⟨1, ![n]⟩ : Shape).Idx → BitVec 32) : Fin n → BitVec 32 := fun q => x (ix1 q)

theorem layerR_true {K : Nat} (src dst : Fin 1600000 → BitVec 32) (x : Fin 100000 → Fin K → EReal)
    (w : Fin K → Fin 128 → EReal) (b : Fin 128 → EReal) (p : Fin 100000) (q : Fin 128) :
    layerR src dst true x w b p q = max (layerR src dst false x w b p q) 0 := by
  unfold layerR act
  rw [if_pos rfl, if_neg Bool.false_ne_true]

theorem layerR_false {K : Nat} (src dst : Fin 1600000 → BitVec 32) (x : Fin 100000 → Fin K → EReal)
    (w : Fin K → Fin 128 → EReal) (b : Fin 128 → EReal) (p : Fin 100000) (q : Fin 128) :
    layerR src dst false x w b p q
      = (((0 : EReal) + ∑ e : Fin 1600000, if (dst e).toInt = (p.val : Int)
            then prod x w (gRow (src e)) q * (dis dst (gRow (src e)) * dis dst (gRow (dst e))) else 0)
          + prod x w p q * (dis dst p * dis dst p)) + b q := by
  unfold layerR act
  rw [if_neg Bool.false_ne_true]

section Layers

variable (x0 : (⟨S100000x66, .f32⟩ : BufTy).Contents (Elt Ideal)) (x1 : (⟨S2x1600000, .i32⟩ : BufTy).Contents (Elt Ideal)) (x3 : (⟨S66x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))

theorem h1_apply (p : Fin 100000) (q : Fin 128) :
    val_main_v11 (F := Ideal) x0 x3 (ix2 p q) = prod (mat x0) (mat x3) p q := by
  rw [val_main_v11_apply]
  unfold prod
  refine Finset.sum_congr rfl fun k _ => ?_
  rw [show lidx_main_v11 (ix2 p q) k = ix2 p k from idx2_ext _ _ rfl rfl,
    show ridx_main_v11 (ix2 p q) k = ix2 k q from idx2_ext _ _ rfl rfl]

theorem layer1_term : val_main_v47 (F := Ideal) x0 x1 x3 x4
    = layerT (val_main_v11 (F := Ideal) x0 x3) (val_main_v10 (F := Ideal) x1) (val_main_v1 (F := Ideal) x1)
        (val_main_v3 (F := Ideal) x1) x4 := by
  unfold
    val_main_v47 val_main_v46 val_main_v45 val_main_v44 val_main_v43 val_main_v42 val_main_v41 val_main_v40
    val_main_v39 val_main_v38 val_main_v37 val_main_cst_7 val_main_v36 val_main_v35 val_main_v34 val_main_v33
    val_main_v32 val_main_v31 val_main_v30 val_main_v29 val_main_c_6 val_main_v28 val_main_v27 val_main_c_5
    val_main_v26 val_main_v25 val_main_v24 val_main_v23 val_main_v22 val_main_v21 val_main_c_4 val_main_v20
    val_main_v19 val_main_c_3 val_main_v18 val_main_v17 val_main_v16 val_main_v15 val_main_v14 val_main_c_2
    val_main_v13 val_main_v12 val_main_c
    layerT nrmVec
  rfl

theorem layer1_apply (p : Fin 100000) (q : Fin 128) :
    val_main_v48 (F := Ideal) x0 x1 x3 x4 (ix2 p q) = layerR (srcOf x1) (dstOf x1) true (mat x0) (mat x3) (vec x4) p q := by
  rw [val_main_v48_apply, layer1_term,
    layerT_apply _ _ _ _ _ (prod (mat x0) (mat x3)) (dis (dstOf x1)) (srcOf x1) (dstOf x1) (vec x4)
      (h1_apply x0 x3) (dis_val x1) (src_apply x1) (dst_apply x1) (fun _ => rfl),
    val_main_call0_v0_apply, val_main_call0_cst_apply, Ideal.maximumf_def, Ideal.ofBits_def, Ideal.ofBits_zero_f32,
    layerR_true, layerR_false]

theorem h2_apply (p : Fin 100000) (q : Fin 128) :
    val_main_v49 (F := Ideal) x0 x1 x3 x4 x5 (ix2 p q) = prod (layerR (srcOf x1) (dstOf x1) true (mat x0) (mat x3) (vec x4)) (mat x5) p q := by
  rw [val_main_v49_apply]
  unfold prod
  refine Finset.sum_congr rfl fun k _ => ?_
  rw [show lidx_main_v49 (ix2 p q) k = ix2 p k from idx2_ext _ _ rfl rfl,
    show ridx_main_v49 (ix2 p q) k = ix2 k q from idx2_ext _ _ rfl rfl, layer1_apply]

theorem layer2_term : val_main_v85 (F := Ideal) x0 x1 x3 x4 x5 x6
    = layerT (val_main_v49 (F := Ideal) x0 x1 x3 x4 x5) (val_main_v10 (F := Ideal) x1) (val_main_v1 (F := Ideal) x1)
        (val_main_v3 (F := Ideal) x1) x6 := by
  unfold
    val_main_v85 val_main_v84 val_main_v83 val_main_v82 val_main_v81 val_main_v80 val_main_v79 val_main_v78
    val_main_v77 val_main_v76 val_main_v75 val_main_cst_14 val_main_v74 val_main_v73 val_main_v72 val_main_v71
    val_main_v70 val_main_v69 val_main_v68 val_main_v67 val_main_c_13 val_main_v66 val_main_v65 val_main_c_12
    val_main_v64 val_main_v63 val_main_v62 val_main_v61 val_main_v60 val_main_v59 val_main_c_11 val_main_v58
    val_main_v57 val_main_c_10 val_main_v56 val_main_v55 val_main_v54 val_main_v53 val_main_v52 val_main_c_9
    val_main_v51 val_main_v50 val_main_c_8
    layerT nrmVec
  rfl

theorem layer2_apply (p : Fin 100000) (q : Fin 128) :
    val_main_v86 (F := Ideal) x0 x1 x3 x4 x5 x6 (ix2 p q)
      = layerR (srcOf x1) (dstOf x1) true (layerR (srcOf x1) (dstOf x1) true (mat x0) (mat x3) (vec x4)) (mat x5) (vec x6) p q := by
  rw [val_main_v86_apply, layer2_term,
    layerT_apply _ _ _ _ _ (prod (layerR (srcOf x1) (dstOf x1) true (mat x0) (mat x3) (vec x4)) (mat x5)) (dis (dstOf x1)) (srcOf x1) (dstOf x1) (vec x6)
      (h2_apply x0 x1 x3 x4 x5) (dis_val x1) (src_apply x1) (dst_apply x1) (fun _ => rfl),
    val_main_call1_v0_apply, val_main_call1_cst_apply, Ideal.maximumf_def, Ideal.ofBits_def, Ideal.ofBits_zero_f32,
    layerR_true, layerR_false]

theorem h3_apply (p : Fin 100000) (q : Fin 128) :
    val_main_v87 (F := Ideal) x0 x1 x3 x4 x5 x6 x7 (ix2 p q)
      = prod (layerR (srcOf x1) (dstOf x1) true (layerR (srcOf x1) (dstOf x1) true (mat x0) (mat x3) (vec x4)) (mat x5) (vec x6)) (mat x7) p q := by
  rw [val_main_v87_apply]
  unfold prod
  refine Finset.sum_congr rfl fun k _ => ?_
  rw [show lidx_main_v87 (ix2 p q) k = ix2 p k from idx2_ext _ _ rfl rfl,
    show ridx_main_v87 (ix2 p q) k = ix2 k q from idx2_ext _ _ rfl rfl, layer2_apply]

theorem layer3_term : val_main_v123 (F := Ideal) x0 x1 x3 x4 x5 x6 x7 x8
    = layerT (val_main_v87 (F := Ideal) x0 x1 x3 x4 x5 x6 x7) (val_main_v10 (F := Ideal) x1)
        (val_main_v1 (F := Ideal) x1) (val_main_v3 (F := Ideal) x1) x8 := by
  unfold
    val_main_v123 val_main_v122 val_main_v121 val_main_v120 val_main_v119 val_main_v118 val_main_v117 val_main_v116
    val_main_v115 val_main_v114 val_main_v113 val_main_cst_21 val_main_v112 val_main_v111 val_main_v110 val_main_v109
    val_main_v108 val_main_v107 val_main_v106 val_main_v105 val_main_c_20 val_main_v104 val_main_v103 val_main_c_19
    val_main_v102 val_main_v101 val_main_v100 val_main_v99 val_main_v98 val_main_v97 val_main_c_18 val_main_v96
    val_main_v95 val_main_c_17 val_main_v94 val_main_v93 val_main_v92 val_main_v91 val_main_v90 val_main_c_16
    val_main_v89 val_main_v88 val_main_c_15
    layerT nrmVec
  rfl

theorem layer3_apply (p : Fin 100000) (q : Fin 128) :
    val_main_v123 (F := Ideal) x0 x1 x3 x4 x5 x6 x7 x8 (ix2 p q)
      = layerR (srcOf x1) (dstOf x1) false
          (layerR (srcOf x1) (dstOf x1) true (layerR (srcOf x1) (dstOf x1) true (mat x0) (mat x3) (vec x4)) (mat x5) (vec x6)) (mat x7) (vec x8) p q := by
  rw [layer3_term,
    layerT_apply _ _ _ _ _
      (prod (layerR (srcOf x1) (dstOf x1) true (layerR (srcOf x1) (dstOf x1) true (mat x0) (mat x3) (vec x4)) (mat x5) (vec x6)) (mat x7))
      (dis (dstOf x1)) (srcOf x1) (dstOf x1) (vec x8)
      (h3_apply x0 x1 x3 x4 x5 x6 x7) (dis_val x1) (src_apply x1) (dst_apply x1) (fun _ => rfl),
    layerR_false]

end Layers

def poolT (h : FVec Ideal S100000x128 .f32) (b : IVec S100000 32) : FVec Ideal S256x128 .f32 :=
  Host.divf
    (Host.scatterAdd scatter_S256x128_S100000x1_S100000x128_1_0_0_1
      (broadcastInDim S256x128 ![] bcast_S_S256x128 (constant (F := Ideal) S_ .f32 0x00000000#32))
      (broadcastInDim S100000x1 ![0] bcast_S100000_S100000x1_0 b) h)
    (broadcastInDim S256x128 ![0, 1] bcast_S256x1_S256x128_0_1
      (broadcastInDim S256x1 ![0] bcast_S256_S256x1_0
        (maximumf
          (Host.scatterAdd scatter_S256_S100000x1_S100000_n_0_0_1
            (broadcastInDim S256 ![] bcast_S_S256 (constant (F := Ideal) S_ .f32 0x00000000#32))
            (broadcastInDim S100000x1 ![0] bcast_S100000_S100000x1_0 b)
            (broadcastInDim S100000 ![] bcast_S_S100000 (constant (F := Ideal) S_ .f32 0x3F800000#32)))
          (broadcastInDim S256 ![] bcast_S_S256 (constant (F := Ideal) S_ .f32 0x3F800000#32)))))

theorem poolT_apply (h : FVec Ideal S100000x128 .f32) (b : IVec S100000 32) (H : Fin 100000 → Fin 128 → EReal)
    (batch : Fin 100000 → BitVec 32) (hh : ∀ n f, h (ix2 n f) = H n f) (hb : ∀ n, b (ix1 n) = batch n)
    (g : Fin 256) (f : Fin 128) : poolT h b (ix2 g f) = pooled batch H g f := by
  unfold poolT pooled poolSum poolCnt
  rw [hdivf_apply, rec_poolScatter, rowScatterAdd_host, zeros_apply, bcast_wide (by decide), bcast_col (by decide),
    maximumf_apply, rec_cntScatter, vecScatterAdd_host, zeros_apply, ones_apply]
  refine congrArg₂ Ideal.div (congrArg ((0 : EReal) + ·) (Finset.sum_congr rfl fun n _ => ?_))
    (congrArg (max · lit1) (congrArg ((0 : EReal) + ·) (Finset.sum_congr rfl fun n _ => ?_)))
  · rw [bcast_col (by decide), hb, hh]
  · rw [bcast_col (by decide), hb, ones_apply]

section Pool

variable (x0 : (⟨S100000x66, .f32⟩ : BufTy).Contents (Elt Ideal)) (x1 : (⟨S2x1600000, .i32⟩ : BufTy).Contents (Elt Ideal)) (x2 : (⟨S100000, .i32⟩ : BufTy).Contents (Elt Ideal)) (x3 : (⟨S66x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))

theorem pool_term : val_main_v135 (F := Ideal) x0 x1 x2 x3 x4 x5 x6 x7 x8
    = poolT (val_main_v123 (F := Ideal) x0 x1 x3 x4 x5 x6 x7 x8) x2 := by
  unfold
    val_main_v135 val_main_v134 val_main_v133 val_main_v132 val_main_v131 val_main_cst_25 val_main_v130 val_main_v129
    val_main_v128 val_main_cst_24 val_main_v127 val_main_cst_23 val_main_v126 val_main_v125 val_main_v124
    val_main_cst_22
    poolT
  rfl

theorem pool_apply (g : Fin 256) (f : Fin 128) :
    val_main_v135 (F := Ideal) x0 x1 x2 x3 x4 x5 x6 x7 x8 (ix2 g f)
      = pooled (ids x2) (layerR (srcOf x1) (dstOf x1) false
          (layerR (srcOf x1) (dstOf x1) true (layerR (srcOf x1) (dstOf x1) true (mat x0) (mat x3) (vec x4)) (mat x5) (vec x6)) (mat x7) (vec x8)) g f := by
  rw [pool_term]
  exact poolT_apply _ _ _ _ (layer3_apply x0 x1 x3 x4 x5 x6 x7 x8) (fun _ => rfl) g f

end Pool

section Classifier

variable (x0 : (⟨S100000x66, .f32⟩ : BufTy).Contents (Elt Ideal)) (x1 : (⟨S2x1600000, .i32⟩ : BufTy).Contents (Elt Ideal)) (x2 : (⟨S100000, .i32⟩ : BufTy).Contents (Elt Ideal)) (x3 : (⟨S66x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal))

theorem hidden_apply (g : Fin 256) (j : Fin 64) :
    val_main_v140 (F := Ideal) x0 x1 x2 x3 x4 x5 x6 x7 x8 x9 x10 (ix2 g j)
      = max (prod (pooled (ids x2) (layerR (srcOf x1) (dstOf x1) false
          (layerR (srcOf x1) (dstOf x1) true (layerR (srcOf x1) (dstOf x1) true (mat x0) (mat x3) (vec x4)) (mat x5) (vec x6)) (mat x7) (vec x8))) (mat x9) g j + vec x10 j) 0 := by
  rw [val_main_v140_apply, val_main_v139_apply, val_main_v136_apply, val_main_call2_v0_apply, val_main_call2_cst_apply,
    val_main_v138_apply, val_main_v137_apply, Ideal.maximumf_def, Ideal.addf_def, Ideal.ofBits_def,
    Ideal.ofBits_zero_f32]
  unfold prod
  refine congrArg (max · 0) (congrArg₂ (· + ·) (Finset.sum_congr rfl fun f _ => ?_) ?_)
  · rw [show lidx_main_v136 (ix2 g j) f = ix2 g f from idx2_ext _ _ rfl rfl,
      show ridx_main_v136 (ix2 g j) f = ix2 f j from idx2_ext _ _ rfl rfl, pool_apply]
  · exact congrArg x10 (idx1_ext _ _ rfl)

theorem ref_apply_fam (g : Fin 256) (k : Fin 3) :
    val_main_v144 (F := Ideal) x0 x1 x2 x3 x4 x5 x6 x7 x8 x9 x10 x11 x12 (ix2 g k)
      = netR (srcOf x1) (dstOf x1) (ids x2) (mat x0) (mat x3) (vec x4) (mat x5) (vec x6) (mat x7) (vec x8)
          (mat x9) (vec x10) (mat x11) (vec x12) g k := by
  rw [val_main_v144_apply, val_main_v141_apply, val_main_v143_apply, val_main_v142_apply, Ideal.addf_def]
  unfold netR cls
  refine congrArg₂ (· + ·) (Finset.sum_congr rfl fun j _ => ?_) ?_
  · rw [show lidx_main_v141 (ix2 g k) j = ix2 g j from idx2_ext _ _ rfl rfl,
      show ridx_main_v141 (ix2 g k) j = ix2 j k from idx2_ext _ _ rfl rfl, hidden_apply]
  · exact congrArg x12 (idx1_ext _ _ rfl)

theorem ref_apply (g : Fin 256) (k : Fin 3) :
    (val_main_v144 (F := Ideal) x0 x1 x2 x3 x4 x5 x6 x7 x8 x9 x10 x11 x12 : S256x3.Idx → EReal) (ix2 g k)
      = netR (fun e => x1 (ix2 0 e)) (fun e => x1 (ix2 1 e)) (fun n => x2 (ix1 n))
          (fun p k => x0 (ix2 p k)) (fun k q => x3 (ix2 k q)) (fun q => x4 (ix1 q)) (fun k q => x5 (ix2 k q))
          (fun q => x6 (ix1 q)) (fun k q => x7 (ix2 k q)) (fun q => x8 (ix1 q)) (fun k j => x9 (ix2 k j))
          (fun j => x10 (ix1 j)) (fun j k => x11 (ix2 j k)) (fun k => x12 (ix1 k)) g k :=
  ref_apply_fam x0 x1 x2 x3 x4 x5 x6 x7 x8 x9 x10 x11 x12 g k

end Classifier

theorem ref_run_eq (m : (ℓ : Loc nD τ sig) → Buf (Elt Ideal) ℓ) (c : Dev nD) :
    Cert.ReferenceIdeal.Value.res_out0 m c
      = val_main_v144 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  val_main_v144_eq m c

end Cert.ReferenceIdeal.RefValue

end
-- ==== Proof.lean ====
/-
  A graph network (three convolution layers over the edges, a mean over groups of nodes, a two-layer classifier) computed by a
  program of eight launches among host operations and by a reference of host operations alone. The kernel takes the factor
  `deg(p)^(-1/2)` out of each node's sum over its incoming edges, the reference keeps it inside; the factor is a non-negative
  real, so the product distributes over the sum whatever extended reals the summands are. No finiteness of the inputs is used.
-/
import proofs.«400505_j77171972374635_2_alg».proof.Defs
import proofs.«400505_j77171972374635_2_alg».proof.Proof.Gen.Kernel
import proofs.«400505_j77171972374635_2_alg».proof.Proof.Gen.KernelIdeal
import proofs.«400505_j77171972374635_2_alg».proof.Proof.Gen.ReferenceIdeal
import proofs.«400505_j77171972374635_2_alg».proof.Proof.Gen.Pre_finite_inputs
import proofs.«400505_j77171972374635_2_alg».proof.Proof.Frames
import proofs.«400505_j77171972374635_2_alg».proof.Proof.KI.Kv4
import proofs.«400505_j77171972374635_2_alg».proof.Proof.RefVal

noncomputable section

namespace Cert.Proof

open Idealize.ShloMosaic Idealize.SL.Sem Idealize.ShloMosaic.ValueIdx

/-- Both idealized programs end at the same result array: each side's array is the network in its own arrangement of the
    arguments, and the two arrangements are one function. -/
theorem algebraic : Cert.algebraic_KernelIdeal_ReferenceIdeal := by
  intro m ρ m' ρ' _ hagree
  refine ⟨fun c => Cert.KernelIdeal.Hand.Bd13 m ρ c (Proc.devRef .tc Cert.KernelIdeal.main_v63),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  refine Eq.trans (show Cert.ReferenceIdeal.Value.res_main_v144 m' c = _ from Cert.ReferenceIdeal.RefValue.ref_run_eq m' c) ?_
  rw [a0, a1, a2, a3, a4, a5, a6, a7, a8, a9, a10, a11, a12]
  show _ = Cert.KernelIdeal.Hand.Bd13 m ρ c (Proc.devRef .tc Cert.KernelIdeal.main_v63)
  funext i
  obtain ⟨g, k, rfl⟩ : ∃ (g : Fin 256) (k : Fin 3), i = ix2 g k := ⟨i 0, i 1, eq_ix2 i⟩
  refine (Cert.ReferenceIdeal.RefValue.ref_apply _ _ _ _ _ _ _ _ _ _ _ _ _ g k).trans ?_
  refine Eq.trans ?_ (Cert.KernelIdeal.Hand.kernel_apply m ρ c g k).symm
  exact (congrFun (congrFun (Cert.Spec.netK_eq_netR _ _ _ _ _ _ _ _ _ _ _ _ _ _) g) k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
